-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S64 .f32) (main_arg21 : FVec F S64x64 .f32) (main_arg22 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x7 .f32) (main_arg1 : IVec S2x1600000 32) (main_arg2 : IVec S100000 32) (main_arg3 : FVec F S7x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x7 : Shape := ⟨2, ![1600000, 7]⟩
abbrev S1x64 : Shape := ⟨2, ![1, 64]⟩
abbrev S100000x64 : Shape := ⟨2, ![100000, 64]⟩
abbrev S10000x7 : Shape := ⟨2, ![10000, 7]⟩
abbrev S10000x64 : Shape := ⟨2, ![10000, 64]⟩
abbrev S1600000x64 : Shape := ⟨2, ![1600000, 64]⟩
abbrev S1024 : Shape := ⟨1, ![1024]⟩
abbrev S100000x1 : Shape := ⟨2, ![100000, 1]⟩
abbrev S1024x1 : Shape := ⟨2, ![1024, 1]⟩
abbrev S1024x64 : Shape := ⟨2, ![1024, 64]⟩
abbrev S1000x64 : Shape := ⟨2, ![1000, 64]⟩
abbrev S1000x1 : Shape := ⟨2, ![1000, 1]⟩
abbrev S1000x1024 : Shape := ⟨2, ![1000, 1024]⟩

abbrev nBuf : Space → Nat
  | .hbm => 127
  | .vmem => 63
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S100000, .i32⟩
  | .hbm, ⟨3, _⟩ => ⟨S7x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x7, .f32⟩
  | .hbm, ⟨36, _⟩ => ⟨S_, .f32⟩
  | .hbm, ⟨37, _⟩ => ⟨S100000x7, .f32⟩
  | .hbm, ⟨38, _⟩ => ⟨S1600000x1, .i32⟩
  | .hbm, ⟨39, _⟩ => ⟨S100000x7, .f32⟩
  | .hbm, ⟨40, _⟩ => ⟨S100000x7, .f32⟩
  | .hbm, ⟨41, _⟩ => ⟨S1x64, .f32⟩
  | .hbm, ⟨42, _⟩ => ⟨S1x64, .f32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S1x64, .f32⟩
  | .hbm, ⟨73, _⟩ => ⟨S100000x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S1x64, .f32⟩
  | .hbm, ⟨103, _⟩ => ⟨S100000x64, .f32⟩
  | .hbm, ⟨104, _⟩ => ⟨S1x64, .f32⟩
  | .hbm, ⟨105, _⟩ => ⟨S1x64, .f32⟩
  | .hbm, ⟨106, _⟩ => ⟨S_, .f32⟩
  | .hbm, ⟨107, _⟩ => ⟨S1x64, .f32⟩
  | .hbm, ⟨108, _⟩ => ⟨S1x64, .f32⟩
  | .hbm, ⟨109, _⟩ => ⟨S_, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S100000x64, .f32⟩
  | .hbm, ⟨117, _⟩ => ⟨S_, .f32⟩
  | .hbm, ⟨118, _⟩ => ⟨S100000, .f32⟩
  | .hbm, ⟨119, _⟩ => ⟨S_, .f32⟩
  | .hbm, ⟨120, _⟩ => ⟨S1024, .f32⟩
  | .hbm, ⟨121, _⟩ => ⟨S100000x1, .i32⟩
  | .hbm, ⟨122, _⟩ => ⟨S1024, .f32⟩
  | .hbm, ⟨123, _⟩ => ⟨S100000x1, .i32⟩
  | .hbm, ⟨124, _⟩ => ⟨S1024x1, .f32⟩
  | .hbm, ⟨125, _⟩ => ⟨S1x64, .f32⟩
  | .hbm, ⟨126, _⟩ => ⟨S1024x64, .f32⟩
  | .local _ .vmem, ⟨0, _⟩ => ⟨S10000x7, .f32⟩
  | .local _ .vmem, ⟨1, _⟩ => ⟨S10000x7, .f32⟩
  | .local _ .vmem, ⟨2, _⟩ => ⟨S7x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1000x64, .f32⟩
  | .local _ .vmem, ⟨55, _⟩ => ⟨S1000x64, .f32⟩
  | .local _ .vmem, ⟨56, _⟩ => ⟨S1000x1, .i32⟩
  | .local _ .vmem, ⟨57, _⟩ => ⟨S1000x1, .i32⟩
  | .local _ .vmem, ⟨58, _⟩ => ⟨S1024x1, .f32⟩
  | .local _ .vmem, ⟨59, _⟩ => ⟨S64x64, .f32⟩
  | .local _ .vmem, ⟨60, _⟩ => ⟨S1x64, .f32⟩
  | .local _ .vmem, ⟨61, _⟩ => ⟨S1024x64, .f32⟩
  | .local _ .vmem, ⟨62, _⟩ => ⟨S1024x64, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40_0 : Ref sig .tc := ⟨.hbm, 73, rfl⟩
abbrev main_v40_1 : Ref sig .tc := ⟨.hbm, 74, rfl⟩
abbrev main_v40_2 : Ref sig .tc := ⟨.hbm, 75, rfl⟩
abbrev main_cst_6 : Ref sig .tc := ⟨.hbm, 76, rfl⟩
abbrev main_v41 : Ref sig .tc := ⟨.hbm, 77, rfl⟩
abbrev main_v42 : Ref sig .tc := ⟨.hbm, 78, rfl⟩
abbrev main_cst_7 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_8 : Ref sig .tc := ⟨.hbm, 87, rfl⟩
abbrev main_v50 : Ref sig .tc := ⟨.hbm, 88, rfl⟩
abbrev main_v51 : Ref sig .tc := ⟨.hbm, 89, rfl⟩
abbrev main_c_9 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63_0 : Ref sig .tc := ⟨.hbm, 103, rfl⟩
abbrev main_v63_1 : Ref sig .tc := ⟨.hbm, 104, rfl⟩
abbrev main_v63_2 : Ref sig .tc := ⟨.hbm, 105, rfl⟩
abbrev main_cst_11 : Ref sig .tc := ⟨.hbm, 106, rfl⟩
abbrev main_v64 : Ref sig .tc := ⟨.hbm, 107, rfl⟩
abbrev main_v65 : Ref sig .tc := ⟨.hbm, 108, rfl⟩
abbrev main_cst_12 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_13 : Ref sig .tc := ⟨.hbm, 117, rfl⟩
abbrev main_v73 : Ref sig .tc := ⟨.hbm, 118, rfl⟩
abbrev main_cst_14 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_scratch0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![100], ![false]⟩

def k6_cond2 (i : grid6.Coords) : BitVec 1 :=
  let arg0 : BitVec 32 := BitVec.ofNat 32 (i 0).val
  let c99_i32 : BitVec 32 := 99#32
  let v20 : BitVec 1 := Scalar.cmpi .eq arg0 c99_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1024x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  bcast_S_S1x64 : S_.BroadcastsInDim S1x64 (![] : Fin 0 → Fin S1x64.rank)
  shapeCasts_S10000x64_S10000x64 : S10000x64.ShapeCasts S10000x64
  bcast_S_S100000x64 : S_.BroadcastsInDim S100000x64 (![] : Fin 0 → Fin S100000x64.rank)
  bcast_S_S100000 : S_.BroadcastsInDim S100000 (![] : Fin 0 → Fin S100000.rank)
  bcast_S_S1024 : S_.BroadcastsInDim S1024 (![] : Fin 0 → Fin S1024.rank)
  bcast_S100000_S100000x1_0 : S100000.BroadcastsInDim S100000x1 (![0] : Fin 1 → Fin S100000x1.rank)
  shapeCasts_S100000_S100000x1 : S100000.ShapeCasts S100000x1
  shapeCasts_S1024_S1024x1 : S1024.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  broadcasts_S1x64_S1024x64 : S1x64.Broadcasts S1024x64
  reduces_S1024x64_S1024 : S1024x64.Reduces [1] S1024
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S10000x7_S7x64_S10000x64_1_0_0_1_n_n_wf : DotDims.WF S10000x7 S7x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1024_S100000x1_S100000_n_0_0_1_wf : ScatterDims.WF S1024 S100000x1 S100000 [] [0] [0] 1
  dot_S1000x1024_S1000x64_S1024x64_0_0_1_1_n_n_wf : DotDims.WF S1000x1024 S1000x64 S1024x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S100000x64.size a
  hwx6_0 : ∀ i : grid6.Coords, EltTy.bits .f32 = 32 ∨ (Rect.block (s := S100000x64) S1000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x1.size a ≤ S100000x1.size a
  hwx6_1 : ∀ i : grid6.Coords, EltTy.bits .i32 = 32 ∨ (Rect.block (s := S100000x1) S1000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x1.size a ≤ S1024x1.size a
  hwx6_2 : ∀ i : grid6.Coords, EltTy.bits .f32 = 32 ∨ (Rect.block (s := S1024x1) S1024x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1024x64.size a ≤ S1024x64.size a
  hwx6_5 : ∀ i : grid6.Coords, EltTy.bits .f32 = 32 ∨ (Rect.block (s := S1024x64) S1024x64.size (cc6_transform_5 i) (hinb6_5 i)).WholeWords (EltTy.packing .f32)

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1000x1024_S1000x64_S1024x64_0_0_1_1_n_n : DotDims S1000x1024 S1000x64 S1024x64 where
  lhsContracting := [0]
  rhsContracting := [0]
  lhsNonContracting := [1]
  rhsNonContracting := [1]
  lhsBatch := []
  rhsBatch := []
  wf := dot_S1000x1024_S1000x64_S1024x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_v14) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v40_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63_0) S10000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v63_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v63_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v63_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S1000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1024x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg21) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v80) S1024x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x7 : Shape := ⟨2, ![1600000, 7]⟩
abbrev S100000x64 : Shape := ⟨2, ![100000, 64]⟩
abbrev S1x64 : Shape := ⟨2, ![1, 64]⟩
abbrev S1600000x64 : Shape := ⟨2, ![1600000, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩

abbrev nBuf : Space → Nat
  | .hbm => 273
  | .vmem => 0
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x64, .f32⟩
  | 22 => ⟨S64, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x7, .f32⟩
  | 36 => ⟨S_, .f32⟩
  | 37 => ⟨S100000x7, .f32⟩
  | 38 => ⟨S1600000x1, .i32⟩
  | 39 => ⟨S100000x7, .f32⟩
  | 40 => ⟨S100000x7, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S_, .f32⟩
  | 127 => ⟨S64, .f32⟩
  | _ => ⟨S100000x7, .f32⟩

abbrev hbmTy0_1 (i : Nat) : BufTy := match i % 128 with
  | 0 => ⟨S64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S_, .f32⟩
  | 28 => ⟨S64, .f32⟩
  | 29 => ⟨S64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S64, .f32⟩
  | 70 => ⟨S_, .f32⟩
  | 71 => ⟨S64, .f32⟩
  | 72 => ⟨S64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S100000x64, .f32⟩
  | 81 => ⟨S100000x64, .f32⟩
  | 82 => ⟨S100000x64, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S64, .f32⟩
  | 90 => ⟨S_, .f32⟩
  | 91 => ⟨S_, .i1⟩
  | 92 => ⟨S_, .f32⟩
  | 93 => ⟨S_, .f32⟩
  | 94 => ⟨S64, .f32⟩
  | 95 => ⟨S64, .f32⟩
  | 96 => ⟨S1x64, .f32⟩
  | 97 => ⟨S100000x64, .f32⟩
  | 98 => ⟨S100000x64, .f32⟩
  | 99 => ⟨S_, .f32⟩
  | 100 => ⟨S64, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S_, .f32⟩
  | 116 => ⟨S1024x64, .f32⟩
  | 117 => ⟨S100000x1, .i32⟩
  | 118 => ⟨S1024x64, .f32⟩
  | 119 => ⟨S_, .f32⟩
  | 120 => ⟨S100000, .f32⟩
  | 121 => ⟨S_, .f32⟩
  | 122 => ⟨S1024, .f32⟩
  | 123 => ⟨S100000x1, .i32⟩
  | 124 => ⟨S1024, .f32⟩
  | 125 => ⟨S_, .f32⟩
  | 126 => ⟨S1024, .f32⟩
  | 127 => ⟨S1024, .f32⟩
  | _ => ⟨S100000x7, .f32⟩

abbrev hbmTy0_2 (i : Nat) : BufTy := match i % 128 with
  | 0 => ⟨S1024x1, .f32⟩
  | 1 => ⟨S1024x64, .f32⟩
  | 2 => ⟨S1024x64, .f32⟩
  | 3 => ⟨S1024x64, .f32⟩
  | 4 => ⟨S1x64, .f32⟩
  | 5 => ⟨S1024x64, .f32⟩
  | 6 => ⟨S1024x64, .f32⟩
  | 7 => ⟨S1024x64, .f32⟩
  | 8 => ⟨S_, .f32⟩
  | 9 => ⟨S1024, .f32⟩
  | 10 => ⟨S1024x1, .f32⟩
  | 11 => ⟨S1024x1, .f32⟩
  | 12 => ⟨S_, .f32⟩
  | 13 => ⟨S1024x1, .f32⟩
  | 14 => ⟨S1024x1, .f32⟩
  | 15 => ⟨S1024x64, .f32⟩
  | 16 => ⟨S1024x64, .f32⟩
  | _ => ⟨S100000x7, .f32⟩

abbrev hbmTy (i : Nat) : BufTy := match i / 128 with
  | 0 => hbmTy0_0 i
  | 1 => hbmTy0_1 i
  | 2 => hbmTy0_2 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_cst_1 : Ref sig .tc := ⟨.hbm, 68, rfl⟩
abbrev main_call1_v8 : Ref sig .tc := ⟨.hbm, 69, rfl⟩
abbrev main_call1_cst_2 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_cst_3 : Ref sig .tc := ⟨.hbm, 74, rfl⟩
abbrev main_call1_v12 : Ref sig .tc := ⟨.hbm, 75, rfl⟩
abbrev main_call1_cst_4 : Ref sig .tc := ⟨.hbm, 76, rfl⟩
abbrev main_call1_call0_v0 : Ref sig .tc := ⟨.hbm, 77, rfl⟩
abbrev main_call1_call0_v1 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_4 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_call2_cst : Ref sig .tc := ⟨.hbm, 96, rfl⟩
abbrev main_call2_v0 : Ref sig .tc := ⟨.hbm, 97, rfl⟩
abbrev main_v43 : Ref sig .tc := ⟨.hbm, 98, rfl⟩
abbrev main_c_5 : Ref sig .tc := ⟨.hbm, 99, rfl⟩
abbrev main_v44 : Ref sig .tc := ⟨.hbm, 100, rfl⟩
abbrev main_v45 : Ref sig .tc := ⟨.hbm, 101, rfl⟩
abbrev main_c_6 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_7 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_call3_cst : Ref sig .tc := ⟨.hbm, 117, rfl⟩
abbrev main_call3_v0 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_8 : Ref sig .tc := ⟨.hbm, 124, rfl⟩
abbrev main_v64 : Ref sig .tc := ⟨.hbm, 125, rfl⟩
abbrev main_cst_9 : Ref sig .tc := ⟨.hbm, 126, rfl⟩
abbrev main_v65 : Ref sig .tc := ⟨.hbm, 127, rfl⟩
abbrev main_v66 : Ref sig .tc := ⟨.hbm, 128, rfl⟩
abbrev main_c_10 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_cst_3 : Ref sig .tc := ⟨.hbm, 146, rfl⟩
abbrev main_call4_v12 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_cst_11 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_call5_cst : Ref sig .tc := ⟨.hbm, 168, rfl⟩
abbrev main_call5_v0 : Ref sig .tc := ⟨.hbm, 169, rfl⟩
abbrev main_v83 : Ref sig .tc := ⟨.hbm, 170, rfl⟩
abbrev main_c_12 : Ref sig .tc := ⟨.hbm, 171, rfl⟩
abbrev main_v84 : Ref sig .tc := ⟨.hbm, 172, rfl⟩
abbrev main_v85 : Ref sig .tc := ⟨.hbm, 173, rfl⟩
abbrev main_c_13 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_cst_14 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_call6_cst : Ref sig .tc := ⟨.hbm, 189, rfl⟩
abbrev main_call6_v0 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_cst_15 : Ref sig .tc := ⟨.hbm, 196, rfl⟩
abbrev main_v104 : Ref sig .tc := ⟨.hbm, 197, rfl⟩
abbrev main_cst_16 : Ref sig .tc := ⟨.hbm, 198, rfl⟩
abbrev main_v105 : Ref sig .tc := ⟨.hbm, 199, rfl⟩
abbrev main_v106 : Ref sig .tc := ⟨.hbm, 200, rfl⟩
abbrev main_c_17 : Ref sig .tc := ⟨.hbm, 201, rfl⟩
abbrev main_call7_cst : Ref sig .tc := ⟨.hbm, 202, rfl⟩
abbrev main_call7_v0 : Ref sig .tc := ⟨.hbm, 203, rfl⟩
abbrev main_call7_v1 : Ref sig .tc := ⟨.hbm, 204, rfl⟩
abbrev main_call7_cst_0 : Ref sig .tc := ⟨.hbm, 205, rfl⟩
abbrev main_call7_v2 : Ref sig .tc := ⟨.hbm, 206, rfl⟩
abbrev main_call7_v3 : Ref sig .tc := ⟨.hbm, 207, rfl⟩
abbrev main_call7_v4 : Ref sig .tc := ⟨.hbm, 208, rfl⟩
abbrev main_call7_v5 : Ref sig .tc := ⟨.hbm, 209, rfl⟩
abbrev main_call7_v6 : Ref sig .tc := ⟨.hbm, 210, rfl⟩
abbrev main_call7_v7 : Ref sig .tc := ⟨.hbm, 211, rfl⟩
abbrev main_call7_cst_1 : Ref sig .tc := ⟨.hbm, 212, rfl⟩
abbrev main_call7_v8 : Ref sig .tc := ⟨.hbm, 213, rfl⟩
abbrev main_call7_cst_2 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_cst_3 : Ref sig .tc := ⟨.hbm, 218, rfl⟩
abbrev main_call7_v12 : Ref sig .tc := ⟨.hbm, 219, rfl⟩
abbrev main_call7_cst_4 : Ref sig .tc := ⟨.hbm, 220, rfl⟩
abbrev main_call7_call0_v0 : Ref sig .tc := ⟨.hbm, 221, rfl⟩
abbrev main_call7_call0_v1 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_cst_18 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_call8_cst : Ref sig .tc := ⟨.hbm, 240, rfl⟩
abbrev main_call8_v0 : Ref sig .tc := ⟨.hbm, 241, rfl⟩
abbrev main_v123 : Ref sig .tc := ⟨.hbm, 242, rfl⟩
abbrev main_cst_19 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_cst_20 : Ref sig .tc := ⟨.hbm, 247, rfl⟩
abbrev main_v127 : Ref sig .tc := ⟨.hbm, 248, rfl⟩
abbrev main_cst_21 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_cst_22 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_call9_v0 : Ref sig .tc := ⟨.hbm, 263, rfl⟩
abbrev main_call9_cst : Ref sig .tc := ⟨.hbm, 264, rfl⟩
abbrev main_call9_v1 : Ref sig .tc := ⟨.hbm, 265, rfl⟩
abbrev main_call9_v2 : Ref sig .tc := ⟨.hbm, 266, rfl⟩
abbrev main_v140 : Ref sig .tc := ⟨.hbm, 267, rfl⟩
abbrev main_cst_23 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  reducesTo_S1024x64_S1024_d1 : S1024x64.ReducesTo [1] S1024
  bcast_S_S1024x1 : S_.BroadcastsInDim S1024x1 (![] : Fin 0 → Fin S1024x1.rank)
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x64_S100000x64_1_0_0_1_n_n_wf : DotDims.WF S100000x7 S7x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x64_S1024x64_1_0_0_1_n_n_wf : DotDims.WF S1024x64 S64x64 S1024x64 [1] [0] [0] [1] [] []

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

class Facts : Prop extends Facts₀ where

variable [Facts]
-- ==== Proof.K.Rg0.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def h2At0 (c : Dev nD) (t : Fin cfg0.N) : Vec F S10000x64 .f32 :=
  k0_pay4 (iblk0 V c 0 t) (iblk0 V c 1 t) (iblk0 V c 2 t) (iblk0 V c 3 t) (iblk0 V c 4 t)

def sumAt0 (c : Dev nD) : (n : ℕ) → n < cfg0.N → Vec F S1x64 .f32
  | 0, hn => k0_pay5 (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := F))
  | n + 1, hn => k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (sumAt0 c n (Nat.lt_of_succ_lt hn))

def sqAt0 (c : Dev nD) : (n : ℕ) → n < cfg0.N → Vec F S1x64 .f32
  | 0, hn => k0_pay1 (h2At0 V c ⟨0, hn⟩) (k0_pay6 (k0_pay3 (F := F)))
  | n + 1, hn => k0_pay1 (h2At0 V c ⟨n + 1, hn⟩) (k0_pay6 (sqAt0 c n (Nat.lt_of_succ_lt hn)))

theorem sumAt0_zero (c : Dev nD) (hn : 0 < cfg0.N) :
    sumAt0 V c 0 hn = k0_pay5 (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := F)) := rfl

theorem sumAt0_succ (c : Dev nD) (n : ℕ) (hn : n + 1 < cfg0.N) :
    sumAt0 V c (n + 1) hn = k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (sumAt0 V c n (Nat.lt_of_succ_lt hn)) := rfl

theorem sqAt0_zero (c : Dev nD) (hn : 0 < cfg0.N) :
    sqAt0 V c 0 hn = k0_pay1 (h2At0 V c ⟨0, hn⟩) (k0_pay6 (k0_pay3 (F := F))) := rfl

theorem sqAt0_succ (c : Dev nD) (n : ℕ) (hn : n + 1 < cfg0.N) :
    sqAt0 V c (n + 1) hn = k0_pay1 (h2At0 V c ⟨n + 1, hn⟩) (k0_pay6 (sqAt0 V c n (Nat.lt_of_succ_lt hn))) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => h2At0 V c t
    | ⟨6, _⟩ => sumAt0 V c t.val t.isLt
    | ⟨7, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := rfl

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem recorded0 (c : Dev nD) (t : Fin (cfg0.N + 1)) : (dat0 V c).recorded t = Set.univ := rfl

theorem after0_5 (c : Dev nD) (t : Fin cfg0.N) : (dat0 V c).after 5 t = h2At0 V c t := rfl
theorem after0_6 (c : Dev nD) (t : Fin cfg0.N) : (dat0 V c).after 6 t = sumAt0 V c t.val t.isLt := rfl
theorem after0_7 (c : Dev nD) (t : Fin cfg0.N) : (dat0 V c).after 7 t = sqAt0 V c t.val t.isLt := rfl

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

theorem hz0 : (![0, 0] : Fin 2 → Nat) = fun _ => 0 := funext fun a => by fin_cases a <;> rfl

-- Owning a whole memref at `x` is holding its buffer at the contents that read `x`.
theorem owns_unread0 (c : Dev nD) {S : Shape} {m : Memref sig .tc .vmem S .f32} (h : m.IsWhole) (x : Vec F S .f32) :
    (owns c.tc m fullShare x : sProp 𝕄) = (m.view.loc c.tc ↦[m.view.set]{fullShare} h.unread (Val := Elt F) x) := by
  refine BI.equiv_iff.mp ⟨?_, ?_⟩ <;> change (_ : sProp 𝕄) ⊢ _ <;> unfold owns
  · iintro ⟨%f, %hf, H⟩; obtain rfl := h.eq_unread hf; iexact H
  · iintro H; iexists _; isplitr; · ipureintro; exact h.read_unread _
    iexact H

section
variable (c : Dev nD) {i : grid0.Coords}
  {arg1 : Memref sig .tc .vmem S10000x7 .f32} {harg1 : arg1.IsWhole} {arg2 : Memref sig .tc .vmem S7x64 .f32} {harg2 : arg2.IsWhole} {arg3 : Memref sig .tc .vmem S1x64 .f32} {harg3 : arg3.IsWhole} {arg4 : Memref sig .tc .vmem S64x64 .f32} {harg4 : arg4.IsWhole} {arg5 : Memref sig .tc .vmem S1x64 .f32} {harg5 : arg5.IsWhole} {arg6 : Memref sig .tc .vmem S10000x64 .f32} {harg6 : arg6.IsWhole} {arg7 : Memref sig .tc .vmem S1x64 .f32} {harg7 : arg7.IsWhole} {arg8 : Memref sig .tc .vmem S1x64 .f32} {harg8 : arg8.IsWhole}
  {x0 : Vec F S10000x7 .f32} {x1 : Vec F S7x64 .f32} {x2 : Vec F S1x64 .f32} {x3 : Vec F S64x64 .f32} {x4 : Vec F S1x64 .f32}

-- At a later point the two accumulators are carried on from `xo6`, `xo7`.
set_option maxHeartbeats 1000000 in
theorem kernelRun0_B {xo6 xo7 : Vec F S1x64 .f32} {E : Set ℕ} {K : PUnit → sProp 𝕄} (hc0 : ¬cond0_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ owns c.tc arg7 fullShare xo6 ∗ owns c.tc arg8 fullShare xo7
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k0_pay4 x0 x1 x2 x3 x4) ∗ owns c.tc arg7 fullShare (k0_pay5 x0 x1 x2 x3 x4 xo6)
            ∗ owns c.tc arg8 fullShare (k0_pay1 (k0_pay4 x0 x1 x2 x3 x4) (k0_pay6 xo7))) -∗ K ⟨⟩))
      ⊢ wp frame (wpE (defs₀ (F := F)) Variants.none c none) E (cc0__gin_dense_kernel i arg1 harg1 arg2 harg2 arg3 harg3 arg4 harg4 arg5 harg5 arg6 harg6 arg7 harg7 arg8 harg8) K := by
  simp only [cc0__gin_dense_kernel_eq_skeleton]; unfold cc0__gin_dense_kernel_skel
  simp only [k0_part1_eq_skeleton]
  rw [owns_unread0 c harg1, owns_unread0 c harg2, owns_unread0 c harg3, owns_unread0 c harg4, owns_unread0 c harg5, owns_unread0 c harg7 xo6, owns_unread0 c harg8 xo7]
  unfold owns
  iintro ⟨H0, H1, H2, H3, H4, ⟨%d5, %f5, -, H5⟩, H6, H7, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz0]
    simp only [View.readCov_unit_zero (S := S1x64) _ hz0, View.readAt_eq_ld, harg1.read_unread, harg2.read_unread, harg3.read_unread, harg4.read_unread, harg5.read_unread, harg7.read_unread, harg8.read_unread, View.ld_unit_zero (S := S10000x7) hz0, View.ld_unit_zero (S := S7x64) hz0, View.ld_unit_zero (S := S10000x64) hz0, View.ld_unit_zero (S := S64x64) hz0, View.ld_unit_zero (S := S1x64) hz0]

-- At the first point they start from their initial values.
set_option maxHeartbeats 1000000 in
theorem kernelRun0_A {E : Set ℕ} {K : PUnit → sProp 𝕄} (hc0 : cond0_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ (∃ d, owns c.tc arg7 fullShare d) ∗ (∃ d, owns c.tc arg8 fullShare d)
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k0_pay4 x0 x1 x2 x3 x4) ∗ owns c.tc arg7 fullShare (k0_pay5 x0 x1 x2 x3 x4 (k0_pay2 (F := F)))
            ∗ owns c.tc arg8 fullShare (k0_pay1 (k0_pay4 x0 x1 x2 x3 x4) (k0_pay6 (k0_pay3 (F := F))))) -∗ K ⟨⟩))
      ⊢ wp frame (wpE (defs₀ (F := F)) Variants.none c none) E (cc0__gin_dense_kernel i arg1 harg1 arg2 harg2 arg3 harg3 arg4 harg4 arg5 harg5 arg6 harg6 arg7 harg7 arg8 harg8) K := by
  simp only [cc0__gin_dense_kernel_eq_skeleton]; unfold cc0__gin_dense_kernel_skel
  simp only [k0_part1_eq_skeleton]
  rw [owns_unread0 c harg1, owns_unread0 c harg2, owns_unread0 c harg3, owns_unread0 c harg4, owns_unread0 c harg5]
  unfold owns
  iintro ⟨H0, H1, H2, H3, H4, ⟨%d5, %f5, -, H5⟩, ⟨%d6, %f6, -, H6⟩, ⟨%d7, %f7, -, H7⟩, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz0]
    simp only [View.readCov_unit_zero (S := S1x64) _ hz0, View.readAt_eq_ld, harg1.read_unread, harg2.read_unread, harg3.read_unread, harg4.read_unread, harg5.read_unread, View.ld_unit_zero (S := S10000x7) hz0, View.ld_unit_zero (S := S7x64) hz0, View.ld_unit_zero (S := S10000x64) hz0, View.ld_unit_zero (S := S64x64) hz0, View.ld_unit_zero (S := S1x64) hz0]

end

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem before0_6_B (c : Dev nD) (t : Fin cfg0.N) (h0 : ¬t.val % 10 = 0) (d) :
    (dat0 V c).before 6 t d = sumAt0 V c (t.val - 1) (Nat.lt_of_le_of_lt (Nat.sub_le _ _) t.isLt) := by
  have hN : t.val < 10 := lt_of_lt_of_eq t.isLt (show cfg0.N = 10 from N_0)
  rw [Dat.before_out_kept _ 6 rfl t (by omega) (Bool.eq_false_iff.mpr fun h => by have := (flush0_6 _).mp h; dsimp only at this; omega)
    (fun _ => rfl) (fun _ _ => rfl)]
  dsimp only [dat0]

theorem before0_7_B (c : Dev nD) (t : Fin cfg0.N) (h0 : ¬t.val % 10 = 0) (d) :
    (dat0 V c).before 7 t d = sqAt0 V c (t.val - 1) (Nat.lt_of_le_of_lt (Nat.sub_le _ _) t.isLt) := by
  have hN : t.val < 10 := lt_of_lt_of_eq t.isLt (show cfg0.N = 10 from N_0)
  rw [Dat.before_out_kept _ 7 rfl t (by omega) (Bool.eq_false_iff.mpr fun h => by have := (flush0_7 _).mp h; dsimp only at this; omega)
    (fun _ => rfl) (fun _ _ => rfl)]
  dsimp only [dat0]

abbrev ms0_0 (t : Fin cfg0.N) : Memref sig .tc .vmem S10000x7 .f32 := win0_0.stage (cfg0.slots t 0)
abbrev ms0_1 (t : Fin cfg0.N) : Memref sig .tc .vmem S7x64 .f32 := win0_1.stage (cfg0.slots t 1)
abbrev ms0_2 (t : Fin cfg0.N) : Memref sig .tc .vmem S1x64 .f32 := win0_2.stage (cfg0.slots t 2)
abbrev ms0_3 (t : Fin cfg0.N) : Memref sig .tc .vmem S64x64 .f32 := win0_3.stage (cfg0.slots t 3)
abbrev ms0_4 (t : Fin cfg0.N) : Memref sig .tc .vmem S1x64 .f32 := win0_4.stage (cfg0.slots t 4)
abbrev ms0_5 (t : Fin cfg0.N) : Memref sig .tc .vmem S10000x64 .f32 := win0_5.stage (cfg0.slots t 5)
abbrev ms0_6 (t : Fin cfg0.N) : Memref sig .tc .vmem S1x64 .f32 := win0_6.stage (cfg0.slots t 6)
abbrev ms0_7 (t : Fin cfg0.N) : Memref sig .tc .vmem S1x64 .f32 := win0_7.stage (cfg0.slots t 7)

def bodyPre0 (c : Dev nD) (t : Fin cfg0.N) : sProp 𝕄 :=
  iprop((dat0 V c).Φ t.castSucc ∗ (dat0 V c).owesAt () t.castSucc
    ∗ (∃ d, owns c.tc (ms0_0 t) fullShare ((dat0 V c).before 0 t d))
    ∗ (∃ d, owns c.tc (ms0_1 t) fullShare ((dat0 V c).before 1 t d))
    ∗ (∃ d, owns c.tc (ms0_2 t) fullShare ((dat0 V c).before 2 t d))
    ∗ (∃ d, owns c.tc (ms0_3 t) fullShare ((dat0 V c).before 3 t d))
    ∗ (∃ d, owns c.tc (ms0_4 t) fullShare ((dat0 V c).before 4 t d))
    ∗ (∃ d, owns c.tc (ms0_5 t) fullShare ((dat0 V c).before 5 t d))
    ∗ (∃ d, owns c.tc (ms0_6 t) fullShare ((dat0 V c).before 6 t d))
    ∗ (∃ d, owns c.tc (ms0_7 t) fullShare ((dat0 V c).before 7 t d)))

def bodyPost0 (c : Dev nD) (t : Fin cfg0.N) : sProp 𝕄 :=
  iprop((dat0 V c).Φ t.castSucc ∗ (dat0 V c).owesAt () t.castSucc
    ∗ owns c.tc (ms0_0 t) fullShare (iblk0 V c 0 t)
    ∗ owns c.tc (ms0_1 t) fullShare (iblk0 V c 1 t)
    ∗ owns c.tc (ms0_2 t) fullShare (iblk0 V c 2 t)
    ∗ owns c.tc (ms0_3 t) fullShare (iblk0 V c 3 t)
    ∗ owns c.tc (ms0_4 t) fullShare (iblk0 V c 4 t)
    ∗ owns c.tc (ms0_5 t) fullShare (h2At0 V c t)
    ∗ owns c.tc (ms0_6 t) fullShare (sumAt0 V c t.val t.isLt)
    ∗ owns c.tc (ms0_7 t) fullShare (sqAt0 V c t.val t.isLt))

-- Point 0 starts the accumulators; point `n + 1` continues from what point `n` left.
set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  obtain ⟨_ | n, hn⟩ := t
  · rw [sumAt0_zero, sqAt0_zero]
    unfold h2At0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun0_A c ((hcond0_0 ⟨0, hn⟩).mpr rfl)
    iframe H0 H1 H2 H3 H4
    isplitl [H5]; · iexists _; iexact H5
    isplitl [H6]; · iexists _; iexact H6
    isplitl [H7]; · iexists _; iexact H7
    iintro H
    iframe HΦ Ho
    iexact H
  · have h0 : ¬(n + 1) % 10 = 0 := by have := hn.trans_eq N_0; omega
    rw [sumAt0_succ, sqAt0_succ]
    simp only [before0_6_B V c ⟨n + 1, hn⟩ h0, before0_7_B V c ⟨n + 1, hn⟩ h0, Nat.add_sub_cancel]
    unfold h2At0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun0_B c (mt (hcond0_0 ⟨n + 1, hn⟩).mp h0)
    iframe H0 H1 H2 H3 H4 H6 H7
    isplitl [H5]; · iexists _; iexact H5
    iintro H
    iframe HΦ Ho
    iexact H

theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.Rg1.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S10000x64 := Rect.unit (s := S10000x64) ![0, 0] S10000x64.size inb_S10000x64_S10000x64_0_0
abbrev r1_row : Rect S1x64 := Rect.unit (s := S1x64) ![0, 0] S1x64.size inb_S1x64_S1x64_0_0

def out1_5 (x0 : Vec F S10000x64 .f32) (x1 x2 x3 x4 : Vec F S1x64 .f32) : Vec F S10000x64 .f32 :=
  View.canon [⟨r1_big, k1_pay1 (View.ld x0 r1_big) (View.ld x2 r1_row) (View.ld x1 r1_row) (View.ld x3 r1_row) (View.ld x4 r1_row)⟩]

set_option maxHeartbeats 1000000 in

theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)) -∗ K ⟨⟩))
      ⊢ wp frame (wpE (defs₀ (F := F)) Variants.none c none) E
          (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem share1 (c : Dev nD) (w : Fin cfg1.W) : (dat1 V c).share w = fullShare := ite_self _

theorem owed1 (c : Dev nD) (t : Fin (cfg1.N + 1)) : (dat1 V c).owed t = 0 := rfl

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem after1 (c : Dev nD) (t : Fin cfg1.N) :
    (dat1 V c).after 0 t = iblk1 V c 0 t ∧ (dat1 V c).after 1 t = iblk1 V c 1 t ∧ (dat1 V c).after 2 t = iblk1 V c 2 t
      ∧ (dat1 V c).after 3 t = iblk1 V c 3 t ∧ (dat1 V c).after 4 t = iblk1 V c 4 t :=
  ⟨rfl, rfl, rfl, rfl, rfl⟩

theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ ∀ d, (dat1 V c).before 4 t d = iblk1 V c 4 t := by
  refine ⟨?_, ?_, ?_, ?_, ?_⟩ <;> intro d <;>
    exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d)))

def bodyPost1 (c : Dev nD) (t : Fin cfg1.N) : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  obtain ⟨b0, b1, b2, b3, b4⟩ := before1 V c t
  obtain ⟨a0, a1, a2, a3, a4⟩ := after1 V c t
  unfold bodyPre1 bodyPost1
  simp only [b0, b1, b2, b3, b4]
  rw [show (dat1 V c).Φ t.succ = (dat1 V c).Φ t.castSucc from rfl,
    show (dat1 V c).owesAt () t.succ = (dat1 V c).owesAt () t.castSucc from rfl, a0, a1, a2, a3, a4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

theorem recorded1 (c : Dev nD) (t : Fin (cfg1.N + 1)) : (dat1 V c).recorded t = Set.univ := rfl

end Cert.Kernel.Rg

end
-- ==== Proof.K.Rg2.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def h2At2 (c : Dev nD) (t : Fin cfg2.N) : Vec F S10000x64 .f32 :=
  k2_pay4 (iblk2 V c 0 t) (iblk2 V c 1 t) (iblk2 V c 2 t) (iblk2 V c 3 t) (iblk2 V c 4 t)

def sumAt2 (c : Dev nD) : (n : ℕ) → n < cfg2.N → Vec F S1x64 .f32
  | 0, hn => k2_pay5 (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := F))
  | n + 1, hn => k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (sumAt2 c n (Nat.lt_of_succ_lt hn))

def sqAt2 (c : Dev nD) : (n : ℕ) → n < cfg2.N → Vec F S1x64 .f32
  | 0, hn => k2_pay1 (h2At2 V c ⟨0, hn⟩) (k2_pay6 (k2_pay3 (F := F)))
  | n + 1, hn => k2_pay1 (h2At2 V c ⟨n + 1, hn⟩) (k2_pay6 (sqAt2 c n (Nat.lt_of_succ_lt hn)))

theorem sumAt2_zero (c : Dev nD) (hn : 0 < cfg2.N) :
    sumAt2 V c 0 hn = k2_pay5 (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := F)) := rfl

theorem sumAt2_succ (c : Dev nD) (n : ℕ) (hn : n + 1 < cfg2.N) :
    sumAt2 V c (n + 1) hn = k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (sumAt2 V c n (Nat.lt_of_succ_lt hn)) := rfl

theorem sqAt2_zero (c : Dev nD) (hn : 0 < cfg2.N) :
    sqAt2 V c 0 hn = k2_pay1 (h2At2 V c ⟨0, hn⟩) (k2_pay6 (k2_pay3 (F := F))) := rfl

theorem sqAt2_succ (c : Dev nD) (n : ℕ) (hn : n + 1 < cfg2.N) :
    sqAt2 V c (n + 1) hn = k2_pay1 (h2At2 V c ⟨n + 1, hn⟩) (k2_pay6 (sqAt2 V c n (Nat.lt_of_succ_lt hn))) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => h2At2 V c t
    | ⟨6, _⟩ => sumAt2 V c t.val t.isLt
    | ⟨7, _⟩ => sqAt2 V c t.val t.isLt
  Φ _ := Pipeline.ΦA spec2 c
  q _ := fullShare
  owed _ := 0

theorem A_eq2 (c : Dev nD) (w : Fin cfg2.W) : (dat2 V c).A w = V c (Pipeline.arrRef spec2 w) := rfl

theorem share2 (c : Dev nD) (w : Fin cfg2.W) : (dat2 V c).share w = fullShare :=
  (dat2 V c).share_full (fun _ => rfl) w

theorem owed2 (c : Dev nD) (t : Fin (cfg2.N + 1)) : (dat2 V c).owed t = 0 := rfl

theorem recorded2 (c : Dev nD) (t : Fin (cfg2.N + 1)) : (dat2 V c).recorded t = Set.univ := rfl

theorem after2_5 (c : Dev nD) (t : Fin cfg2.N) : (dat2 V c).after 5 t = h2At2 V c t := rfl
theorem after2_6 (c : Dev nD) (t : Fin cfg2.N) : (dat2 V c).after 6 t = sumAt2 V c t.val t.isLt := rfl
theorem after2_7 (c : Dev nD) (t : Fin cfg2.N) : (dat2 V c).after 7 t = sqAt2 V c t.val t.isLt := rfl

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 10 = 0 :=
  (by decide +kernel : ∀ t : Fin grid2.N, cond2_0 (grid2.coords t) ↔ t.val % 10 = 0)

theorem hz2 : (![0, 0] : Fin 2 → Nat) = fun _ => 0 := funext fun a => by fin_cases a <;> rfl

-- Owning a whole memref at `x` is holding its buffer at the contents that read `x`.
theorem owns_unread2 (c : Dev nD) {S : Shape} {m : Memref sig .tc .vmem S .f32} (h : m.IsWhole) (x : Vec F S .f32) :
    (owns c.tc m fullShare x : sProp 𝕄) = (m.view.loc c.tc ↦[m.view.set]{fullShare} h.unread (Val := Elt F) x) := by
  refine BI.equiv_iff.mp ⟨?_, ?_⟩ <;> change (_ : sProp 𝕄) ⊢ _ <;> unfold owns
  · iintro ⟨%f, %hf, H⟩; obtain rfl := h.eq_unread hf; iexact H
  · iintro H; iexists _; isplitr; · ipureintro; exact h.read_unread _
    iexact H

section
variable (c : Dev nD) {i : grid2.Coords}
  {arg1 : Memref sig .tc .vmem S10000x64 .f32} {harg1 : arg1.IsWhole} {arg2 : Memref sig .tc .vmem S64x64 .f32} {harg2 : arg2.IsWhole} {arg3 : Memref sig .tc .vmem S1x64 .f32} {harg3 : arg3.IsWhole} {arg4 : Memref sig .tc .vmem S64x64 .f32} {harg4 : arg4.IsWhole} {arg5 : Memref sig .tc .vmem S1x64 .f32} {harg5 : arg5.IsWhole} {arg6 : Memref sig .tc .vmem S10000x64 .f32} {harg6 : arg6.IsWhole} {arg7 : Memref sig .tc .vmem S1x64 .f32} {harg7 : arg7.IsWhole} {arg8 : Memref sig .tc .vmem S1x64 .f32} {harg8 : arg8.IsWhole}
  {x0 : Vec F S10000x64 .f32} {x1 : Vec F S64x64 .f32} {x2 : Vec F S1x64 .f32} {x3 : Vec F S64x64 .f32} {x4 : Vec F S1x64 .f32}

-- At a later point the two accumulators are carried on from `xo6`, `xo7`.
set_option maxHeartbeats 1000000 in
theorem kernelRun2_B {xo6 xo7 : Vec F S1x64 .f32} {E : Set ℕ} {K : PUnit → sProp 𝕄} (hc0 : ¬cond2_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ owns c.tc arg7 fullShare xo6 ∗ owns c.tc arg8 fullShare xo7
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg7 fullShare (k2_pay5 x0 x1 x2 x3 x4 xo6)
            ∗ owns c.tc arg8 fullShare (k2_pay1 (k2_pay4 x0 x1 x2 x3 x4) (k2_pay6 xo7))) -∗ K ⟨⟩))
      ⊢ wp frame (wpE (defs₀ (F := F)) Variants.none c none) E (cc2__gin_dense_kernel i arg1 harg1 arg2 harg2 arg3 harg3 arg4 harg4 arg5 harg5 arg6 harg6 arg7 harg7 arg8 harg8) K := by
  simp only [cc2__gin_dense_kernel_eq_skeleton]; unfold cc2__gin_dense_kernel_skel
  simp only [k2_part1_eq_skeleton]
  rw [owns_unread2 c harg1, owns_unread2 c harg2, owns_unread2 c harg3, owns_unread2 c harg4, owns_unread2 c harg5, owns_unread2 c harg7 xo6, owns_unread2 c harg8 xo7]
  unfold owns
  iintro ⟨H0, H1, H2, H3, H4, ⟨%d5, %f5, -, H5⟩, H6, H7, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz2]
    simp only [View.readCov_unit_zero (S := S1x64) _ hz2, View.readAt_eq_ld, harg1.read_unread, harg2.read_unread, harg3.read_unread, harg4.read_unread, harg5.read_unread, harg7.read_unread, harg8.read_unread, View.ld_unit_zero (S := S10000x64) hz2, View.ld_unit_zero (S := S64x64) hz2, View.ld_unit_zero (S := S1x64) hz2]

-- At the first point they start from their initial values.
set_option maxHeartbeats 1000000 in
theorem kernelRun2_A {E : Set ℕ} {K : PUnit → sProp 𝕄} (hc0 : cond2_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ (∃ d, owns c.tc arg7 fullShare d) ∗ (∃ d, owns c.tc arg8 fullShare d)
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg7 fullShare (k2_pay5 x0 x1 x2 x3 x4 (k2_pay2 (F := F)))
            ∗ owns c.tc arg8 fullShare (k2_pay1 (k2_pay4 x0 x1 x2 x3 x4) (k2_pay6 (k2_pay3 (F := F))))) -∗ K ⟨⟩))
      ⊢ wp frame (wpE (defs₀ (F := F)) Variants.none c none) E (cc2__gin_dense_kernel i arg1 harg1 arg2 harg2 arg3 harg3 arg4 harg4 arg5 harg5 arg6 harg6 arg7 harg7 arg8 harg8) K := by
  simp only [cc2__gin_dense_kernel_eq_skeleton]; unfold cc2__gin_dense_kernel_skel
  simp only [k2_part1_eq_skeleton]
  rw [owns_unread2 c harg1, owns_unread2 c harg2, owns_unread2 c harg3, owns_unread2 c harg4, owns_unread2 c harg5]
  unfold owns
  iintro ⟨H0, H1, H2, H3, H4, ⟨%d5, %f5, -, H5⟩, ⟨%d6, %f6, -, H6⟩, ⟨%d7, %f7, -, H7⟩, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz2]
    simp only [View.readCov_unit_zero (S := S1x64) _ hz2, View.readAt_eq_ld, harg1.read_unread, harg2.read_unread, harg3.read_unread, harg4.read_unread, harg5.read_unread, View.ld_unit_zero (S := S10000x64) hz2, View.ld_unit_zero (S := S64x64) hz2, View.ld_unit_zero (S := S1x64) hz2]

end

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem before2_6_B (c : Dev nD) (t : Fin cfg2.N) (h0 : ¬t.val % 10 = 0) (d) :
    (dat2 V c).before 6 t d = sumAt2 V c (t.val - 1) (Nat.lt_of_le_of_lt (Nat.sub_le _ _) t.isLt) := by
  have hN : t.val < 10 := lt_of_lt_of_eq t.isLt (show cfg2.N = 10 from N_2)
  rw [Dat.before_out_kept _ 6 rfl t (by omega) (Bool.eq_false_iff.mpr fun h => by have := (flush2_6 _).mp h; dsimp only at this; omega)
    (fun _ => rfl) (fun _ _ => rfl)]
  dsimp only [dat2]

theorem before2_7_B (c : Dev nD) (t : Fin cfg2.N) (h0 : ¬t.val % 10 = 0) (d) :
    (dat2 V c).before 7 t d = sqAt2 V c (t.val - 1) (Nat.lt_of_le_of_lt (Nat.sub_le _ _) t.isLt) := by
  have hN : t.val < 10 := lt_of_lt_of_eq t.isLt (show cfg2.N = 10 from N_2)
  rw [Dat.before_out_kept _ 7 rfl t (by omega) (Bool.eq_false_iff.mpr fun h => by have := (flush2_7 _).mp h; dsimp only at this; omega)
    (fun _ => rfl) (fun _ _ => rfl)]
  dsimp only [dat2]

abbrev ms2_0 (t : Fin cfg2.N) : Memref sig .tc .vmem S10000x64 .f32 := win2_0.stage (cfg2.slots t 0)
abbrev ms2_1 (t : Fin cfg2.N) : Memref sig .tc .vmem S64x64 .f32 := win2_1.stage (cfg2.slots t 1)
abbrev ms2_2 (t : Fin cfg2.N) : Memref sig .tc .vmem S1x64 .f32 := win2_2.stage (cfg2.slots t 2)
abbrev ms2_3 (t : Fin cfg2.N) : Memref sig .tc .vmem S64x64 .f32 := win2_3.stage (cfg2.slots t 3)
abbrev ms2_4 (t : Fin cfg2.N) : Memref sig .tc .vmem S1x64 .f32 := win2_4.stage (cfg2.slots t 4)
abbrev ms2_5 (t : Fin cfg2.N) : Memref sig .tc .vmem S10000x64 .f32 := win2_5.stage (cfg2.slots t 5)
abbrev ms2_6 (t : Fin cfg2.N) : Memref sig .tc .vmem S1x64 .f32 := win2_6.stage (cfg2.slots t 6)
abbrev ms2_7 (t : Fin cfg2.N) : Memref sig .tc .vmem S1x64 .f32 := win2_7.stage (cfg2.slots t 7)

def bodyPre2 (c : Dev nD) (t : Fin cfg2.N) : sProp 𝕄 :=
  iprop((dat2 V c).Φ t.castSucc ∗ (dat2 V c).owesAt () t.castSucc
    ∗ (∃ d, owns c.tc (ms2_0 t) fullShare ((dat2 V c).before 0 t d))
    ∗ (∃ d, owns c.tc (ms2_1 t) fullShare ((dat2 V c).before 1 t d))
    ∗ (∃ d, owns c.tc (ms2_2 t) fullShare ((dat2 V c).before 2 t d))
    ∗ (∃ d, owns c.tc (ms2_3 t) fullShare ((dat2 V c).before 3 t d))
    ∗ (∃ d, owns c.tc (ms2_4 t) fullShare ((dat2 V c).before 4 t d))
    ∗ (∃ d, owns c.tc (ms2_5 t) fullShare ((dat2 V c).before 5 t d))
    ∗ (∃ d, owns c.tc (ms2_6 t) fullShare ((dat2 V c).before 6 t d))
    ∗ (∃ d, owns c.tc (ms2_7 t) fullShare ((dat2 V c).before 7 t d)))

def bodyPost2 (c : Dev nD) (t : Fin cfg2.N) : sProp 𝕄 :=
  iprop((dat2 V c).Φ t.castSucc ∗ (dat2 V c).owesAt () t.castSucc
    ∗ owns c.tc (ms2_0 t) fullShare (iblk2 V c 0 t)
    ∗ owns c.tc (ms2_1 t) fullShare (iblk2 V c 1 t)
    ∗ owns c.tc (ms2_2 t) fullShare (iblk2 V c 2 t)
    ∗ owns c.tc (ms2_3 t) fullShare (iblk2 V c 3 t)
    ∗ owns c.tc (ms2_4 t) fullShare (iblk2 V c 4 t)
    ∗ owns c.tc (ms2_5 t) fullShare (h2At2 V c t)
    ∗ owns c.tc (ms2_6 t) fullShare (sumAt2 V c t.val t.isLt)
    ∗ owns c.tc (ms2_7 t) fullShare (sqAt2 V c t.val t.isLt))

-- Point 0 starts the accumulators; point `n + 1` continues from what point `n` left.
set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  obtain ⟨_ | n, hn⟩ := t
  · rw [sumAt2_zero, sqAt2_zero]
    unfold h2At2
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun2_A c ((hcond2_0 ⟨0, hn⟩).mpr rfl)
    iframe H0 H1 H2 H3 H4
    isplitl [H5]; · iexists _; iexact H5
    isplitl [H6]; · iexists _; iexact H6
    isplitl [H7]; · iexists _; iexact H7
    iintro H
    iframe HΦ Ho
    iexact H
  · have h0 : ¬(n + 1) % 10 = 0 := by have := hn.trans_eq N_2; omega
    rw [sumAt2_succ, sqAt2_succ]
    simp only [before2_6_B V c ⟨n + 1, hn⟩ h0, before2_7_B V c ⟨n + 1, hn⟩ h0, Nat.add_sub_cancel]
    unfold h2At2
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun2_B c (mt (hcond2_0 ⟨n + 1, hn⟩).mp h0)
    iframe H0 H1 H2 H3 H4 H6 H7
    isplitl [H5]; · iexists _; iexact H5
    iintro H
    iframe HΦ Ho
    iexact H

theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.K.Rg3.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_big : Rect S10000x64 := Rect.unit (s := S10000x64) ![0, 0] S10000x64.size inb_S10000x64_S10000x64_0_0
abbrev r3_row : Rect S1x64 := Rect.unit (s := S1x64) ![0, 0] S1x64.size inb_S1x64_S1x64_0_0

def out3_5 (x0 : Vec F S10000x64 .f32) (x1 x2 x3 x4 : Vec F S1x64 .f32) : Vec F S10000x64 .f32 :=
  View.canon [⟨r3_big, k3_pay1 (View.ld x0 r3_big) (View.ld x2 r3_row) (View.ld x1 r3_row) (View.ld x3 r3_row) (View.ld x4 r3_row)⟩]

set_option maxHeartbeats 1000000 in

theorem sound_kernel3 (c : Dev nD) (E : Set ℕ) (i : grid3.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out3_5 x0 x1 x2 x3 x4)) -∗ K ⟨⟩))
      ⊢ wp frame (wpE (defs₀ (F := F)) Variants.none c none) E
          (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem share3 (c : Dev nD) (w : Fin cfg3.W) : (dat3 V c).share w = fullShare := ite_self _

theorem owed3 (c : Dev nD) (t : Fin (cfg3.N + 1)) : (dat3 V c).owed t = 0 := rfl

theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

theorem after3 (c : Dev nD) (t : Fin cfg3.N) :
    (dat3 V c).after 0 t = iblk3 V c 0 t ∧ (dat3 V c).after 1 t = iblk3 V c 1 t ∧ (dat3 V c).after 2 t = iblk3 V c 2 t
      ∧ (dat3 V c).after 3 t = iblk3 V c 3 t ∧ (dat3 V c).after 4 t = iblk3 V c 4 t :=
  ⟨rfl, rfl, rfl, rfl, rfl⟩

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ ∀ d, (dat3 V c).before 4 t d = iblk3 V c 4 t := by
  refine ⟨?_, ?_, ?_, ?_, ?_⟩ <;> intro d <;>
    exact ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns c (st3_0 t) fullShare ((dat3 V c).before 0 t d))
    ∗ (∃ d, owns c (st3_1 t) fullShare ((dat3 V c).before 1 t d))
    ∗ (∃ d, owns c (st3_2 t) fullShare ((dat3 V c).before 2 t d))
    ∗ (∃ d, owns c (st3_3 t) fullShare ((dat3 V c).before 3 t d))
    ∗ (∃ d, owns c (st3_4 t) fullShare ((dat3 V c).before 4 t d))
    ∗ (∃ d, owns c (st3_5 t) fullShare ((dat3 V c).before 5 t d)))

def bodyPost3 (c : Dev nD) (t : Fin cfg3.N) : sProp 𝕄 :=
  iprop((dat3 V c).Φ t.succ ∗ (dat3 V c).owesAt () t.succ
    ∗ owns c (st3_0 t) fullShare ((dat3 V c).after 0 t)
    ∗ owns c (st3_1 t) fullShare ((dat3 V c).after 1 t)
    ∗ owns c (st3_2 t) fullShare ((dat3 V c).after 2 t)
    ∗ owns c (st3_3 t) fullShare ((dat3 V c).after 3 t)
    ∗ owns c (st3_4 t) fullShare ((dat3 V c).after 4 t)
    ∗ owns c (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  obtain ⟨b0, b1, b2, b3, b4⟩ := before3 V c t
  obtain ⟨a0, a1, a2, a3, a4⟩ := after3 V c t
  unfold bodyPre3 bodyPost3
  simp only [b0, b1, b2, b3, b4]
  rw [show (dat3 V c).Φ t.succ = (dat3 V c).Φ t.castSucc from rfl,
    show (dat3 V c).owesAt () t.succ = (dat3 V c).owesAt () t.castSucc from rfl, a0, a1, a2, a3, a4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

theorem recorded3 (c : Dev nD) (t : Fin (cfg3.N + 1)) : (dat3 V c).recorded t = Set.univ := rfl

end Cert.Kernel.Rg

end
-- ==== Proof.K.Rg4.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def h2At4 (c : Dev nD) (t : Fin cfg4.N) : Vec F S10000x64 .f32 :=
  k4_pay4 (iblk4 V c 0 t) (iblk4 V c 1 t) (iblk4 V c 2 t) (iblk4 V c 3 t) (iblk4 V c 4 t)

def sumAt4 (c : Dev nD) : (n : ℕ) → n < cfg4.N → Vec F S1x64 .f32
  | 0, hn => k4_pay5 (iblk4 V c 0 ⟨0, hn⟩) (iblk4 V c 1 ⟨0, hn⟩) (iblk4 V c 2 ⟨0, hn⟩) (iblk4 V c 3 ⟨0, hn⟩) (iblk4 V c 4 ⟨0, hn⟩) (k4_pay2 (F := F))
  | n + 1, hn => k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)
      (sumAt4 c n (Nat.lt_of_succ_lt hn))

def sqAt4 (c : Dev nD) : (n : ℕ) → n < cfg4.N → Vec F S1x64 .f32
  | 0, hn => k4_pay1 (h2At4 V c ⟨0, hn⟩) (k4_pay6 (k4_pay3 (F := F)))
  | n + 1, hn => k4_pay1 (h2At4 V c ⟨n + 1, hn⟩) (k4_pay6 (sqAt4 c n (Nat.lt_of_succ_lt hn)))

theorem sumAt4_zero (c : Dev nD) (hn : 0 < cfg4.N) :
    sumAt4 V c 0 hn = k4_pay5 (iblk4 V c 0 ⟨0, hn⟩) (iblk4 V c 1 ⟨0, hn⟩) (iblk4 V c 2 ⟨0, hn⟩) (iblk4 V c 3 ⟨0, hn⟩) (iblk4 V c 4 ⟨0, hn⟩) (k4_pay2 (F := F)) := rfl

theorem sumAt4_succ (c : Dev nD) (n : ℕ) (hn : n + 1 < cfg4.N) :
    sumAt4 V c (n + 1) hn = k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)
      (sumAt4 V c n (Nat.lt_of_succ_lt hn)) := rfl

theorem sqAt4_zero (c : Dev nD) (hn : 0 < cfg4.N) :
    sqAt4 V c 0 hn = k4_pay1 (h2At4 V c ⟨0, hn⟩) (k4_pay6 (k4_pay3 (F := F))) := rfl

theorem sqAt4_succ (c : Dev nD) (n : ℕ) (hn : n + 1 < cfg4.N) :
    sqAt4 V c (n + 1) hn = k4_pay1 (h2At4 V c ⟨n + 1, hn⟩) (k4_pay6 (sqAt4 V c n (Nat.lt_of_succ_lt hn))) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => h2At4 V c t
    | ⟨6, _⟩ => sumAt4 V c t.val t.isLt
    | ⟨7, _⟩ => sqAt4 V c t.val t.isLt
  Φ _ := Pipeline.ΦA spec4 c
  q _ := fullShare
  owed _ := 0

theorem A_eq4 (c : Dev nD) (w : Fin cfg4.W) : (dat4 V c).A w = V c (Pipeline.arrRef spec4 w) := rfl

theorem share4 (c : Dev nD) (w : Fin cfg4.W) : (dat4 V c).share w = fullShare :=
  (dat4 V c).share_full (fun _ => rfl) w

theorem owed4 (c : Dev nD) (t : Fin (cfg4.N + 1)) : (dat4 V c).owed t = 0 := rfl

theorem recorded4 (c : Dev nD) (t : Fin (cfg4.N + 1)) : (dat4 V c).recorded t = Set.univ := rfl

theorem after4_5 (c : Dev nD) (t : Fin cfg4.N) : (dat4 V c).after 5 t = h2At4 V c t := rfl
theorem after4_6 (c : Dev nD) (t : Fin cfg4.N) : (dat4 V c).after 6 t = sumAt4 V c t.val t.isLt := rfl
theorem after4_7 (c : Dev nD) (t : Fin cfg4.N) : (dat4 V c).after 7 t = sqAt4 V c t.val t.isLt := rfl

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

theorem hz4 : (![0, 0] : Fin 2 → Nat) = fun _ => 0 := funext fun a => by fin_cases a <;> rfl

-- Owning a whole memref at `x` is holding its buffer at the contents that read `x`.
theorem owns_unread4 (c : Dev nD) {S : Shape} {m : Memref sig .tc .vmem S .f32} (h : m.IsWhole) (x : Vec F S .f32) :
    (owns c.tc m fullShare x : sProp 𝕄) = (m.view.loc c.tc ↦[m.view.set]{fullShare} h.unread (Val := Elt F) x) := by
  refine BI.equiv_iff.mp ⟨?_, ?_⟩ <;> change (_ : sProp 𝕄) ⊢ _ <;> unfold owns
  · iintro ⟨%f, %hf, H⟩; obtain rfl := h.eq_unread hf; iexact H
  · iintro H; iexists _; isplitr; · ipureintro; exact h.read_unread _
    iexact H

section
variable (c : Dev nD) {i : grid4.Coords}
  {arg1 : Memref sig .tc .vmem S10000x64 .f32} {harg1 : arg1.IsWhole} {arg2 : Memref sig .tc .vmem S64x64 .f32} {harg2 : arg2.IsWhole} {arg3 : Memref sig .tc .vmem S1x64 .f32} {harg3 : arg3.IsWhole} {arg4 : Memref sig .tc .vmem S64x64 .f32} {harg4 : arg4.IsWhole} {arg5 : Memref sig .tc .vmem S1x64 .f32} {harg5 : arg5.IsWhole} {arg6 : Memref sig .tc .vmem S10000x64 .f32} {harg6 : arg6.IsWhole} {arg7 : Memref sig .tc .vmem S1x64 .f32} {harg7 : arg7.IsWhole} {arg8 : Memref sig .tc .vmem S1x64 .f32} {harg8 : arg8.IsWhole}
  {x0 : Vec F S10000x64 .f32} {x1 : Vec F S64x64 .f32} {x2 : Vec F S1x64 .f32} {x3 : Vec F S64x64 .f32} {x4 : Vec F S1x64 .f32}

-- At a later point the two accumulators are carried on from `xo6`, `xo7`.
set_option maxHeartbeats 1000000 in
theorem kernelRun4_B {xo6 xo7 : Vec F S1x64 .f32} {E : Set ℕ} {K : PUnit → sProp 𝕄} (hc0 : ¬cond4_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ owns c.tc arg7 fullShare xo6 ∗ owns c.tc arg8 fullShare xo7
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k4_pay4 x0 x1 x2 x3 x4) ∗ owns c.tc arg7 fullShare (k4_pay5 x0 x1 x2 x3 x4 xo6)
            ∗ owns c.tc arg8 fullShare (k4_pay1 (k4_pay4 x0 x1 x2 x3 x4) (k4_pay6 xo7))) -∗ K ⟨⟩))
      ⊢ wp frame (wpE (defs₀ (F := F)) Variants.none c none) E (cc4__gin_dense_kernel i arg1 harg1 arg2 harg2 arg3 harg3 arg4 harg4 arg5 harg5 arg6 harg6 arg7 harg7 arg8 harg8) K := by
  simp only [cc4__gin_dense_kernel_eq_skeleton]; unfold cc4__gin_dense_kernel_skel
  simp only [k4_part1_eq_skeleton]
  rw [owns_unread4 c harg1, owns_unread4 c harg2, owns_unread4 c harg3, owns_unread4 c harg4, owns_unread4 c harg5, owns_unread4 c harg7 xo6, owns_unread4 c harg8 xo7]
  unfold owns
  iintro ⟨H0, H1, H2, H3, H4, ⟨%d5, %f5, -, H5⟩, H6, H7, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz4]
    simp only [View.readCov_unit_zero (S := S1x64) _ hz4, View.readAt_eq_ld, harg1.read_unread, harg2.read_unread, harg3.read_unread, harg4.read_unread, harg5.read_unread, harg7.read_unread, harg8.read_unread, View.ld_unit_zero (S := S10000x64) hz4, View.ld_unit_zero (S := S64x64) hz4, View.ld_unit_zero (S := S1x64) hz4]

-- At the first point they start from their initial values.
set_option maxHeartbeats 1000000 in
theorem kernelRun4_A {E : Set ℕ} {K : PUnit → sProp 𝕄} (hc0 : cond4_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ (∃ d, owns c.tc arg7 fullShare d) ∗ (∃ d, owns c.tc arg8 fullShare d)
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k4_pay4 x0 x1 x2 x3 x4) ∗ owns c.tc arg7 fullShare (k4_pay5 x0 x1 x2 x3 x4 (k4_pay2 (F := F)))
            ∗ owns c.tc arg8 fullShare (k4_pay1 (k4_pay4 x0 x1 x2 x3 x4) (k4_pay6 (k4_pay3 (F := F))))) -∗ K ⟨⟩))
      ⊢ wp frame (wpE (defs₀ (F := F)) Variants.none c none) E (cc4__gin_dense_kernel i arg1 harg1 arg2 harg2 arg3 harg3 arg4 harg4 arg5 harg5 arg6 harg6 arg7 harg7 arg8 harg8) K := by
  simp only [cc4__gin_dense_kernel_eq_skeleton]; unfold cc4__gin_dense_kernel_skel
  simp only [k4_part1_eq_skeleton]
  rw [owns_unread4 c harg1, owns_unread4 c harg2, owns_unread4 c harg3, owns_unread4 c harg4, owns_unread4 c harg5]
  unfold owns
  iintro ⟨H0, H1, H2, H3, H4, ⟨%d5, %f5, -, H5⟩, ⟨%d6, %f6, -, H6⟩, ⟨%d7, %f7, -, H7⟩, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz4]
    simp only [View.readCov_unit_zero (S := S1x64) _ hz4, View.readAt_eq_ld, harg1.read_unread, harg2.read_unread, harg3.read_unread, harg4.read_unread, harg5.read_unread, View.ld_unit_zero (S := S10000x64) hz4, View.ld_unit_zero (S := S64x64) hz4, View.ld_unit_zero (S := S1x64) hz4]

end

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

theorem before4_6_B (c : Dev nD) (t : Fin cfg4.N) (h0 : ¬t.val % 10 = 0) (d) :
    (dat4 V c).before 6 t d = sumAt4 V c (t.val - 1) (Nat.lt_of_le_of_lt (Nat.sub_le _ _) t.isLt) := by
  have hN : t.val < 10 := lt_of_lt_of_eq t.isLt (show cfg4.N = 10 from N_4)
  rw [Dat.before_out_kept _ 6 rfl t (by omega) (Bool.eq_false_iff.mpr fun h => by have := (flush4_6 _).mp h; dsimp only at this; omega)
    (fun _ => rfl) (fun _ _ => rfl)]
  dsimp only [dat4]

theorem before4_7_B (c : Dev nD) (t : Fin cfg4.N) (h0 : ¬t.val % 10 = 0) (d) :
    (dat4 V c).before 7 t d = sqAt4 V c (t.val - 1) (Nat.lt_of_le_of_lt (Nat.sub_le _ _) t.isLt) := by
  have hN : t.val < 10 := lt_of_lt_of_eq t.isLt (show cfg4.N = 10 from N_4)
  rw [Dat.before_out_kept _ 7 rfl t (by omega) (Bool.eq_false_iff.mpr fun h => by have := (flush4_7 _).mp h; dsimp only at this; omega)
    (fun _ => rfl) (fun _ _ => rfl)]
  dsimp only [dat4]

abbrev ms4_0 (t : Fin cfg4.N) : Memref sig .tc .vmem S10000x64 .f32 := win4_0.stage (cfg4.slots t 0)
abbrev ms4_1 (t : Fin cfg4.N) : Memref sig .tc .vmem S64x64 .f32 := win4_1.stage (cfg4.slots t 1)
abbrev ms4_2 (t : Fin cfg4.N) : Memref sig .tc .vmem S1x64 .f32 := win4_2.stage (cfg4.slots t 2)
abbrev ms4_3 (t : Fin cfg4.N) : Memref sig .tc .vmem S64x64 .f32 := win4_3.stage (cfg4.slots t 3)
abbrev ms4_4 (t : Fin cfg4.N) : Memref sig .tc .vmem S1x64 .f32 := win4_4.stage (cfg4.slots t 4)
abbrev ms4_5 (t : Fin cfg4.N) : Memref sig .tc .vmem S10000x64 .f32 := win4_5.stage (cfg4.slots t 5)
abbrev ms4_6 (t : Fin cfg4.N) : Memref sig .tc .vmem S1x64 .f32 := win4_6.stage (cfg4.slots t 6)
abbrev ms4_7 (t : Fin cfg4.N) : Memref sig .tc .vmem S1x64 .f32 := win4_7.stage (cfg4.slots t 7)

def bodyPre4 (c : Dev nD) (t : Fin cfg4.N) : sProp 𝕄 :=
  iprop((dat4 V c).Φ t.castSucc ∗ (dat4 V c).owesAt () t.castSucc
    ∗ (∃ d, owns c.tc (ms4_0 t) fullShare ((dat4 V c).before 0 t d))
    ∗ (∃ d, owns c.tc (ms4_1 t) fullShare ((dat4 V c).before 1 t d))
    ∗ (∃ d, owns c.tc (ms4_2 t) fullShare ((dat4 V c).before 2 t d))
    ∗ (∃ d, owns c.tc (ms4_3 t) fullShare ((dat4 V c).before 3 t d))
    ∗ (∃ d, owns c.tc (ms4_4 t) fullShare ((dat4 V c).before 4 t d))
    ∗ (∃ d, owns c.tc (ms4_5 t) fullShare ((dat4 V c).before 5 t d))
    ∗ (∃ d, owns c.tc (ms4_6 t) fullShare ((dat4 V c).before 6 t d))
    ∗ (∃ d, owns c.tc (ms4_7 t) fullShare ((dat4 V c).before 7 t d)))

def bodyPost4 (c : Dev nD) (t : Fin cfg4.N) : sProp 𝕄 :=
  iprop((dat4 V c).Φ t.castSucc ∗ (dat4 V c).owesAt () t.castSucc
    ∗ owns c.tc (ms4_0 t) fullShare (iblk4 V c 0 t)
    ∗ owns c.tc (ms4_1 t) fullShare (iblk4 V c 1 t)
    ∗ owns c.tc (ms4_2 t) fullShare (iblk4 V c 2 t)
    ∗ owns c.tc (ms4_3 t) fullShare (iblk4 V c 3 t)
    ∗ owns c.tc (ms4_4 t) fullShare (iblk4 V c 4 t)
    ∗ owns c.tc (ms4_5 t) fullShare (h2At4 V c t)
    ∗ owns c.tc (ms4_6 t) fullShare (sumAt4 V c t.val t.isLt)
    ∗ owns c.tc (ms4_7 t) fullShare (sqAt4 V c t.val t.isLt))

-- Point 0 starts the accumulators; point `n + 1` continues from what point `n` left.
set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  obtain ⟨_ | n, hn⟩ := t
  · rw [sumAt4_zero, sqAt4_zero]
    unfold h2At4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun4_A c ((hcond4_0 ⟨0, hn⟩).mpr rfl)
    iframe H0 H1 H2 H3 H4
    isplitl [H5]; · iexists _; iexact H5
    isplitl [H6]; · iexists _; iexact H6
    isplitl [H7]; · iexists _; iexact H7
    iintro H
    iframe HΦ Ho
    iexact H
  · have h0 : ¬(n + 1) % 10 = 0 := by have := hn.trans_eq N_4; omega
    rw [sumAt4_succ, sqAt4_succ]
    simp only [before4_6_B V c ⟨n + 1, hn⟩ h0, before4_7_B V c ⟨n + 1, hn⟩ h0, Nat.add_sub_cancel]
    unfold h2At4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun4_B c (mt (hcond4_0 ⟨n + 1, hn⟩).mp h0)
    iframe H0 H1 H2 H3 H4 H6 H7
    isplitl [H5]; · iexists _; iexact H5
    iintro H
    iframe HΦ Ho
    iexact H

theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.K.Rg5.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_big : Rect S10000x64 := Rect.unit (s := S10000x64) ![0, 0] S10000x64.size inb_S10000x64_S10000x64_0_0
abbrev r5_row : Rect S1x64 := Rect.unit (s := S1x64) ![0, 0] S1x64.size inb_S1x64_S1x64_0_0

def out5_5 (x0 : Vec F S10000x64 .f32) (x1 x2 x3 x4 : Vec F S1x64 .f32) : Vec F S10000x64 .f32 :=
  View.canon [⟨r5_big, k5_pay1 (View.ld x0 r5_big) (View.ld x2 r5_row) (View.ld x1 r5_row) (View.ld x3 r5_row) (View.ld x4 r5_row)⟩]

set_option maxHeartbeats 1000000 in

theorem sound_kernel5 (c : Dev nD) (E : Set ℕ) (i : grid5.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out5_5 x0 x1 x2 x3 x4)) -∗ K ⟨⟩))
      ⊢ wp frame (wpE (defs₀ (F := F)) Variants.none c none) E
          (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem share5 (c : Dev nD) (w : Fin cfg5.W) : (dat5 V c).share w = fullShare := ite_self _

theorem owed5 (c : Dev nD) (t : Fin (cfg5.N + 1)) : (dat5 V c).owed t = 0 := rfl

theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

theorem after5 (c : Dev nD) (t : Fin cfg5.N) :
    (dat5 V c).after 0 t = iblk5 V c 0 t ∧ (dat5 V c).after 1 t = iblk5 V c 1 t ∧ (dat5 V c).after 2 t = iblk5 V c 2 t
      ∧ (dat5 V c).after 3 t = iblk5 V c 3 t ∧ (dat5 V c).after 4 t = iblk5 V c 4 t :=
  ⟨rfl, rfl, rfl, rfl, rfl⟩

theorem before5 (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) ∧ (∀ d, (dat5 V c).before 3 t d = iblk5 V c 3 t)
      ∧ ∀ d, (dat5 V c).before 4 t d = iblk5 V c 4 t := by
  refine ⟨?_, ?_, ?_, ?_, ?_⟩ <;> intro d <;>
    exact ((dat5 V c).before_in_eq_fetched _ rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d))
    ∗ (∃ d, owns c (st5_4 t) fullShare ((dat5 V c).before 4 t d))
    ∗ (∃ d, owns c (st5_5 t) fullShare ((dat5 V c).before 5 t d)))

def bodyPost5 (c : Dev nD) (t : Fin cfg5.N) : sProp 𝕄 :=
  iprop((dat5 V c).Φ t.succ ∗ (dat5 V c).owesAt () t.succ
    ∗ owns c (st5_0 t) fullShare ((dat5 V c).after 0 t)
    ∗ owns c (st5_1 t) fullShare ((dat5 V c).after 1 t)
    ∗ owns c (st5_2 t) fullShare ((dat5 V c).after 2 t)
    ∗ owns c (st5_3 t) fullShare ((dat5 V c).after 3 t)
    ∗ owns c (st5_4 t) fullShare ((dat5 V c).after 4 t)
    ∗ owns c (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  obtain ⟨b0, b1, b2, b3, b4⟩ := before5 V c t
  obtain ⟨a0, a1, a2, a3, a4⟩ := after5 V c t
  unfold bodyPre5 bodyPost5
  simp only [b0, b1, b2, b3, b4]
  rw [show (dat5 V c).Φ t.succ = (dat5 V c).Φ t.castSucc from rfl,
    show (dat5 V c).owesAt () t.succ = (dat5 V c).owesAt () t.castSucc from rfl, a0, a1, a2, a3, a4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

theorem recorded5 (c : Dev nD) (t : Fin (cfg5.N + 1)) : (dat5 V c).recorded t = Set.univ := rfl

end Cert.Kernel.Rg

end
-- ==== Proof.K.Rg6.lean ====
import proofs.«406370_j7258494730854_1_alg».proof.Proof.Gen.Kernel.Launch
import proofs.«406370_j7258494730854_1_alg».proof.Proof.Gen.Kernel.Skeleton
import proofs.«406370_j7258494730854_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S1024x64 .f32 := Memref.whole cc6_scratch0

def acc6 (c : Dev nD) : (n : ℕ) → n < cfg6.N → Vec F S1024x64 .f32
  | 0, hn => k6_pay2 (iblk6 V c 1 ⟨0, hn⟩) (iblk6 V c 0 ⟨0, hn⟩) (k6_pay1 (F := F))
  | n + 1, hn => k6_pay2 (iblk6 V c 1 ⟨n + 1, hn⟩) (iblk6 V c 0 ⟨n + 1, hn⟩) (acc6 c n (Nat.lt_of_succ_lt hn))

theorem acc6_zero (c : Dev nD) (hn : 0 < cfg6.N) :
    acc6 V c 0 hn = k6_pay2 (iblk6 V c 1 ⟨0, hn⟩) (iblk6 V c 0 ⟨0, hn⟩) (k6_pay1 (F := F)) := rfl

theorem acc6_succ (c : Dev nD) (n : ℕ) (hn : n + 1 < cfg6.N) :
    acc6 V c (n + 1) hn = k6_pay2 (iblk6 V c 1 ⟨n + 1, hn⟩) (iblk6 V c 0 ⟨n + 1, hn⟩) (acc6 V c n (Nat.lt_of_succ_lt hn)) := rfl

theorem acc6_pos (c : Dev nD) (t : Fin cfg6.N) (ht : t.val ≠ 0) :
    acc6 V c t.val t.isLt = k6_pay2 (iblk6 V c 1 t) (iblk6 V c 0 t) (acc6 V c (t.val - 1) (Nat.lt_of_le_of_lt (Nat.sub_le _ _) t.isLt)) := by
  obtain ⟨n, hn⟩ := t
  cases n with
  | zero => exact absurd rfl ht
  | succ n => rfl

def out6 (c : Dev nD) (t : Fin cfg6.N) : Vec F S1024x64 .f32 :=
  k6_pay3 (acc6 V c t.val t.isLt) (iblk6 V c 2 t) (iblk6 V c 3 t) (iblk6 V c 4 t)

def Phi6 (c : Dev nD) : (n : ℕ) → n ≤ cfg6.N → sProp 𝕄
  | 0, _ => Pipeline.ΦA spec6 c
  | n + 1, hn => iprop(iprop(owns c scM6 fullShare (acc6 V c n hn) ∗ Pipeline.scopedRestBut spec6 c [cc6_scratch0]) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns c scM6 fullShare (acc6 V c n hn) ∗ Pipeline.scopedRestBut spec6 c [cc6_scratch0]) ∗ (∃ r, prngReg c r)) := rfl

theorem Phi6_pos (c : Dev nD) (n : ℕ) (h : n ≤ cfg6.N) (hz : n ≠ 0) :
    Phi6 V c n h = iprop(iprop(owns c scM6 fullShare (acc6 V c (n - 1) (by omega)) ∗ Pipeline.scopedRestBut spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 V c t
  Φ t := Phi6 V c t.val (Nat.le_of_lt_succ t.isLt)
  q _ := fullShare
  owed _ := 0

theorem A_eq6 (c : Dev nD) (w : Fin cfg6.W) : (dat6 V c).A w = V c (Pipeline.arrRef spec6 w) := rfl

theorem share6 (c : Dev nD) (w : Fin cfg6.W) : (dat6 V c).share w = fullShare :=
  (dat6 V c).share_full (fun _ => rfl) w

theorem owed6 (c : Dev nD) (t : Fin (cfg6.N + 1)) : (dat6 V c).owed t = 0 := rfl

theorem recorded6 (c : Dev nD) (t : Fin (cfg6.N + 1)) : (dat6 V c).recorded t = Set.univ := rfl

theorem after6_5 (c : Dev nD) (t : Fin cfg6.N) : (dat6 V c).after 5 t = out6 V c t := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem PhiA6_eq (c : Dev nD) :
    (Pipeline.ΦA spec6 c : sProp 𝕄)
      = iprop(iprop((∃ d, owns c scM6 fullShare d) ∗ Pipeline.scopedRestBut spec6 c [cc6_scratch0]) ∗ (∃ r, prngReg c r)) := by
  unfold Pipeline.ΦA; rw [scopedRest6_split]; simp only [scM6, owns_whole]; try rfl

theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

theorem Phi6_out (c : Dev nD) (t : Fin (cfg6.N + 1)) (ht : t.val ≠ 0) : (dat6 V c).Φ t ⊢ Pipeline.ΦA spec6 c := by
  rw [show (dat6 V c).Φ t = Phi6 V c t.val (Nat.le_of_lt_succ t.isLt) from rfl, Phi6_pos V c _ _ ht, PhiA6_eq]
  iintro ⟨⟨HS, HR⟩, Hg⟩
  iframe HR Hg
  iexists _; iexact HS

theorem hout6 (c : Dev nD) : (dat6 V c).Φ (Fin.last cfg6.N) ⊢ Pipeline.ΦA spec6 c :=
  Phi6_out V c _ (by rw [Fin.val_last]; have : cfg6.N = 100 := N_6; omega)

theorem zeros2 : (![0, 0] : Fin 2 → ℕ) = fun _ => 0 := by
  funext a; fin_cases a <;> rfl

theorem readAt_zero_unread {sp : Space} {s : Shape} {e : EltTy} {m : Memref sig .tc sp s e} (h : m.IsWhole)
    (X : s.Idx → Elt F e) {off : Fin s.rank → ℕ} (hz : off = fun _ => 0) (inb : ∀ a, off a + s.size a ≤ s.size a) :
    View.readAt (Elt F) m.view (Rect.unit off s.size inb).toLoadRect (h.unread X) = X :=
  funext fun x => (h.readAt_unread X _ x).trans (congrFun (View.ld_unit_zero hz inb X) x)

theorem read_writes_zero {sp : Space} {s : Shape} {e : EltTy} (v : View sig .tc sp s e) (f : v.ty.Contents (Elt F))
    {off : Fin s.rank → ℕ} (hz : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero hz inb y⟩),
    View.canon_cons_unit_zero hz inb w L]

abbrev cond6_0 (i : grid6.Coords) : Prop := (Scalar.cmpi .ne (Scalar.extui (Scalar.cmpi .eq (BitVec.ofNat 32 (i 0).val) 0#32)) 0#32) = 1#1

abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)

theorem hcond6_1 : ∀ t : Fin cfg6.N, cond6_1 (grid6.coords t) ↔ t.val = 99 :=
  (by decide +kernel : ∀ t : Fin grid6.N, cond6_1 (grid6.coords t) ↔ t.val = 99)

theorem idleAt6_5 : ∀ t : Fin cfg6.N, ¬cond6_1 (grid6.coords t) → idle6 5 (grid6.coords t) = true := by decide +kernel

theorem noFlush6_5 : ∀ t : Fin cfg6.N, ¬cond6_1 (grid6.coords t) → (cfg6.win 5).flush t = false := by decide +kernel

theorem liveAt6_5 : ∀ t : Fin cfg6.N, cond6_1 (grid6.coords t) → idle6 5 (grid6.coords t) = false := by decide +kernel

section

variable (c : Dev nD) (i : grid6.Coords)
    (arg1 : Memref sig .tc .vmem S1000x64 .f32) (harg1 : arg1.IsWhole) (arg2 : Memref sig .tc .vmem S1000x1 .i32) (harg2 : arg2.IsWhole)
    (arg3 : Memref sig .tc .vmem S1024x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1024x64 .f32) (harg6 : arg6.IsWhole)
    (arg7 : Memref sig .tc .vmem S1024x64 .f32) (harg7 : arg7.IsWhole)
    (x0 : Vec F S1000x64 .f32) (x1 : Vec F S1000x1 .i32) (x2 : Vec F S1024x1 .f32) (x3 : Vec F S64x64 .f32) (x4 : Vec F S1x64 .f32)
    (xi5 : Vec F S1024x64 .f32) (xs : Vec F S1024x64 .f32)

def ins6 : sProp 𝕄 :=
  iprop(owns c arg1 fullShare x0 ∗ owns c arg2 fullShare x1 ∗ owns c arg3 fullShare x2
    ∗ owns c arg4 fullShare x3 ∗ owns c arg5 fullShare x4)

set_option maxHeartbeats 1000000 in

theorem run6_A (E : Set ℕ) (K : PUnit → sProp 𝕄) (hc0 : cond6_0 i) (hc1 : ¬cond6_1 i) :
    iprop(ins6 c arg1 arg2 arg3 arg4 arg5 x0 x1 x2 x3 x4 ∗ owns c arg6 fullShare xi5
        ∗ owns c arg7 fullShare xs
        ∗ (iprop(ins6 c arg1 arg2 arg3 arg4 arg5 x0 x1 x2 x3 x4 ∗ owns c arg6 fullShare xi5
            ∗ owns c arg7 fullShare (k6_pay2 x1 x0 (k6_pay1 (F := F)))) -∗ K ⟨⟩))
      ⊢ wp frame (wpE (defs₀ (F := F)) Variants.none c none) E (cc6__pool_project_kernel i arg1 harg1 arg2 harg2 arg3 harg3 arg4 harg4 arg5 harg5 arg6 harg6 arg7 harg7) K := by
  simp only [cc6__pool_project_kernel_eq_skeleton]; unfold cc6__pool_project_kernel_skel
  unfold ins6 owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; · ipureintro; exact harg6.read_unread _
    iexact H5
  iexists _; isplitr
  swap; · iexact HS
  ipureintro
  sl_unfold_run_names
  rw [readAt_zero_unread harg2 x1 zeros2, readAt_zero_unread harg1 x0 zeros2, View.readCov_unit_zero arg7.view zeros2]
  exact read_writes_zero _ _ zeros2 _ _ _

set_option maxHeartbeats 1000000 in

theorem run6_B (E : Set ℕ) (K : PUnit → sProp 𝕄) (hc0 : ¬cond6_0 i) (hc1 : ¬cond6_1 i) :
    iprop(ins6 c arg1 arg2 arg3 arg4 arg5 x0 x1 x2 x3 x4 ∗ owns c arg6 fullShare xi5
        ∗ owns c arg7 fullShare xs
        ∗ (iprop(ins6 c arg1 arg2 arg3 arg4 arg5 x0 x1 x2 x3 x4 ∗ owns c arg6 fullShare xi5
            ∗ owns c arg7 fullShare (k6_pay2 x1 x0 xs)) -∗ K ⟨⟩))
      ⊢ wp frame (wpE (defs₀ (F := F)) Variants.none c none) E (cc6__pool_project_kernel i arg1 harg1 arg2 harg2 arg3 harg3 arg4 harg4 arg5 harg5 arg6 harg6 arg7 harg7) K := by
  simp only [cc6__pool_project_kernel_eq_skeleton]; unfold cc6__pool_project_kernel_skel
  unfold ins6 owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; · ipureintro; exact harg6.read_unread _
    iexact H5
  iexists _; isplitr
  swap; · iexact HS
  ipureintro
  sl_unfold_run_names
  rw [readAt_zero_unread harg2 x1 zeros2, readAt_zero_unread harg1 x0 zeros2, readAt_zero_unread harg7 xs zeros2]
  exact read_writes_zero _ _ zeros2 _ _ _

set_option maxHeartbeats 1000000 in

theorem run6_C (E : Set ℕ) (K : PUnit → sProp 𝕄) (hc0 : ¬cond6_0 i) (hc1 : cond6_1 i) :
    iprop(ins6 c arg1 arg2 arg3 arg4 arg5 x0 x1 x2 x3 x4 ∗ (∃ d, owns c arg6 fullShare d)
        ∗ owns c arg7 fullShare xs
        ∗ (iprop(ins6 c arg1 arg2 arg3 arg4 arg5 x0 x1 x2 x3 x4 ∗ owns c arg6 fullShare (k6_pay3 (k6_pay2 x1 x0 xs) x2 x3 x4)
            ∗ owns c arg7 fullShare (k6_pay2 x1 x0 xs)) -∗ K ⟨⟩))
      ⊢ wp frame (wpE (defs₀ (F := F)) Variants.none c none) E (cc6__pool_project_kernel i arg1 harg1 arg2 harg2 arg3 harg3 arg4 harg4 arg5 harg5 arg6 harg6 arg7 harg7) K := by
  simp only [cc6__pool_project_kernel_eq_skeleton]; unfold cc6__pool_project_kernel_skel
  unfold ins6 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    sl_unfold_run_names
    rw [readAt_zero_unread harg2 x1 zeros2, readAt_zero_unread harg1 x0 zeros2, readAt_zero_unread harg7 xs zeros2,
      readAt_zero_unread harg3 x2 zeros2, readAt_zero_unread harg4 x3 zeros2, readAt_zero_unread harg5 x4 zeros2,
      View.readCov_unit_zero arg7.view zeros2]
    exact read_writes_zero _ _ zeros2 _ _ _
  iexists _; isplitr
  swap; · iexact HS
  ipureintro
  sl_unfold_run_names
  rw [readAt_zero_unread harg2 x1 zeros2, readAt_zero_unread harg1 x0 zeros2, readAt_zero_unread harg7 xs zeros2]
  exact read_writes_zero _ _ zeros2 _ _ _

end

theorem after6 (c : Dev nD) (t : Fin cfg6.N) :
    (dat6 V c).after 0 t = iblk6 V c 0 t ∧ (dat6 V c).after 1 t = iblk6 V c 1 t ∧ (dat6 V c).after 2 t = iblk6 V c 2 t
      ∧ (dat6 V c).after 3 t = iblk6 V c 3 t ∧ (dat6 V c).after 4 t = iblk6 V c 4 t :=
  ⟨rfl, rfl, rfl, rfl, rfl⟩

theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t)
      ∧ ∀ d, (dat6 V c).before 4 t d = iblk6 V c 4 t := by
  refine ⟨?_, ?_, ?_, ?_, ?_⟩ <;> intro d <;>
    exact ((dat6 V c).before_in_eq_fetched _ rfl (fun _ => rfl) (fun _ _ _ => rfl) (fun _ => rfl) t d).trans rfl

theorem acc6_first (c : Dev nD) (t : Fin cfg6.N) (h0 : t.val = 0) :
    acc6 V c t.val t.isLt = k6_pay2 (iblk6 V c 1 t) (iblk6 V c 0 t) (k6_pay1 (F := F)) := by
  obtain ⟨n, hn⟩ := t
  cases n with
  | zero => rfl
  | succ n => exact absurd h0 (Nat.succ_ne_zero n)

set_option maxHeartbeats 4800000 in

theorem body_obligation6 (c : Dev nD) : BodyObligation (dat6 (F := F) V c) (defs₀ (F := F)) Variants.none () Set.univ := fun t => by
  obtain ⟨b0, b1, b2, b3, b4⟩ := before6 V c t
  obtain ⟨a0, a1, a2, a3, a4⟩ := after6 V c t
  rw [bigSep_W6, bigSep_W6]
  simp only [b0, b1, b2, b3, b4]
  rw [show (dat6 V c).owesAt () t.succ = (dat6 V c).owesAt () t.castSucc from rfl,
    show (dat6 V c).Φ t.succ = Phi6 V c (t.val + 1) t.isLt from rfl, Phi6_succ, a0, a1, a2, a3, a4, Phi6_castSucc V c t]
  change _ ⊢ wp _ _ _ (bodyAt6 t) _
  unfold bodyAt6
  have hN : t.val < 100 := lt_of_lt_of_eq t.isLt (show cfg6.N = 100 from N_6)
  by_cases h0 : t.val = 0
  · have hc0 : cond6_0 (grid6.coords t) := (hcond6_0 t).mpr h0
    have hc1 : ¬cond6_1 (grid6.coords t) := fun h => by have := (hcond6_1 t).mp h; omega
    simp only [idleAt6_5 t hc1, noFlush6_5 t hc1]
    rw [acc6_first V c t h0, Phi6_zero V c _ _ h0, PhiA6_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run6_A c (grid6.coords t) _ _ _ _ _ _ _ _ _ _ _ _ _ _ (iblk6 V c 0 t) (iblk6 V c 1 t) (iblk6 V c 2 t) (iblk6 V c 3 t) (iblk6 V c 4 t) ((dat6 V c).before 5 t d5) ds Set.univ _ hc0 hc1)
    unfold ins6
    iframe H0 H1 H2 H3 H4 H5 HS
    iintro ⟨⟨H0, H1, H2, H3, H4⟩, H5, HS⟩
    iframe HS HR Hg Ho H0 H1 H2 H3 H4
    iexists _; iexact H5
  · have hc0 : ¬cond6_0 (grid6.coords t) := fun h => h0 ((hcond6_0 t).mp h)
    rw [acc6_pos V c t h0, Phi6_pos V c _ _ h0]
    by_cases h1 : t.val = 99
    · have hc1 : cond6_1 (grid6.coords t) := (hcond6_1 t).mpr h1
      simp only [liveAt6_5 t hc1]
      rw [after6_5]
      unfold out6
      rw [acc6_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run6_C c (grid6.coords t) _ _ _ _ _ _ _ _ _ _ _ _ _ _ (iblk6 V c 0 t) (iblk6 V c 1 t) (iblk6 V c 2 t) (iblk6 V c 3 t) (iblk6 V c 4 t) (acc6 V c (t.val - 1) (Nat.lt_of_le_of_lt (Nat.sub_le _ _) t.isLt)) Set.univ _ hc0 hc1)
      unfold ins6
      iframe H0 H1 H2 H3 H4 HS
      isplitl [H5]; · iexists _; iexact H5
      iintro ⟨⟨H0, H1, H2, H3, H4⟩, H5, HS⟩
      iframe
    · have hc1 : ¬cond6_1 (grid6.coords t) := fun h => h1 ((hcond6_1 t).mp h)
      simp only [idleAt6_5 t hc1, noFlush6_5 t hc1]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run6_B c (grid6.coords t) _ _ _ _ _ _ _ _ _ _ _ _ _ _ (iblk6 V c 0 t) (iblk6 V c 1 t) (iblk6 V c 2 t) (iblk6 V c 3 t) (iblk6 V c 4 t) ((dat6 V c).before 5 t d5) (acc6 V c (t.val - 1) (Nat.lt_of_le_of_lt (Nat.sub_le _ _) t.isLt)) Set.univ _ hc0 hc1)
      unfold ins6
      iframe H0 H1 H2 H3 H4 H5 HS
      iintro ⟨⟨H0, H1, H2, H3, H4⟩, H5, HS⟩
      iframe HS HR Hg Ho H0 H1 H2 H3 H4
      iexists _; iexact H5

end Cert.Kernel.Rg

end
-- ==== Proof.K.Fold.lean ====
import proofs.«406370_j7258494730854_1_alg».proof.Proof.K.Rg0
import proofs.«406370_j7258494730854_1_alg».proof.Proof.K.Rg1
import proofs.«406370_j7258494730854_1_alg».proof.Proof.K.Rg2
import proofs.«406370_j7258494730854_1_alg».proof.Proof.K.Rg3
import proofs.«406370_j7258494730854_1_alg».proof.Proof.K.Rg4
import proofs.«406370_j7258494730854_1_alg».proof.Proof.K.Rg5
import proofs.«406370_j7258494730854_1_alg».proof.Proof.K.Rg6
import proofs.«406370_j7258494730854_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
  (c : Dev nD) (r : Ref sig .tc)

abbrev W0 : Dev nD → Valuation τ sig (Elt F) := fun c b => (⟨m, fun _ => 0, ρ⟩ : MemSt nD τ sig (Elt F)).mem ((c : Dev nD), b)

-- Off `l` no array is an output, and an input array ends as it began: overriding `V` at the arrays changes nothing at `r`.
theorem withArrays_keep {cfg : Cfg sig Λ₀} (hinj : Function.Injective (Pipeline.arrRef cfg.spec))
    (d : Dat τ (Elt F) Unit ℕ (UR sig nD τ) ℕ cfg c) (V : Valuation τ sig (Elt F))
    (hA : ∀ w, d.A w = V (Proc.devRef .tc (Pipeline.arrRef cfg.spec w))) (l : List (Ref sig .tc))
    (hl : ∀ w, Pipeline.arrRef cfg.spec w ∉ l → (cfg.win w).isOut = false) (h : r ∉ l) :
    Pipeline.withArrays cfg.spec c V (fun w => d.arrAt w cfg.N) (Proc.devRef .tc r) = V (Proc.devRef .tc r) := by
  by_cases he : ∃ w, Pipeline.arrRef cfg.spec w = r
  · obtain ⟨w, rfl⟩ := he
    exact (Pipeline.withArrays_arr _ hinj c _ _ w).trans ((d.arrAt_in w (hl w h) _).trans (hA w))
  · exact Pipeline.withArrays_of_ne _ c _ _ r fun w e => he ⟨w, e⟩

abbrev W1 : Dev nD → Valuation τ sig (Elt F) := fun c => StableHlo.after hostOps0 (W0 m ρ c)
theorem W1_keep (h : r ∉ hostOps0_W) : W1 m ρ c (Proc.devRef .tc r) = W0 m ρ c (Proc.devRef .tc r) :=
  StableHlo.after_of_writes_sub hostOps0 _ hostOps0_writes h
abbrev E1 : (c : Dev nD) → (b : Ref sig .tc) → Buf (Elt F) ((c : Thread nD τ).loc b) := fun c b => W1 m ρ c b
def W2 : Valuation τ sig (Elt F) :=
  Pipeline.withArrays spec0 c (W1 m ρ c) fun w => (dat0 (E1 m ρ) c).arrAt w cfg0.N
theorem W2_arr (w : Fin cfg0.W) :
    W2 m ρ c (Proc.devRef .tc (Pipeline.arrRef spec0 w)) = (dat0 (E1 m ρ) c).arrAt w cfg0.N :=
  Pipeline.withArrays_arr spec0 launch0.win.arr_inj c _ _ w
theorem W2_keep (h : r ∉ ([main_v17_0, main_v17_1, main_v17_2] : List (Ref sig .tc))) :
    W2 m ρ c (Proc.devRef .tc r) = W1 m ρ c (Proc.devRef .tc r) :=
  withArrays_keep c r launch0.win.arr_inj (dat0 (E1 m ρ) c) _ (A_eq0 (E1 m ρ) c) _ (by decide) h

abbrev W3 : Dev nD → Valuation τ sig (Elt F) := fun c => StableHlo.after hostOps1 (W2 m ρ c)
theorem W3_keep (h : r ∉ hostOps1_W) : W3 m ρ c (Proc.devRef .tc r) = W2 m ρ c (Proc.devRef .tc r) :=
  StableHlo.after_of_writes_sub hostOps1 _ hostOps1_writes h
abbrev E3 : (c : Dev nD) → (b : Ref sig .tc) → Buf (Elt F) ((c : Thread nD τ).loc b) := fun c b => W3 m ρ c b
def W4 : Valuation τ sig (Elt F) :=
  Pipeline.withArrays spec1 c (W3 m ρ c) fun w => (dat1 (E3 m ρ) c).arrAt w cfg1.N
theorem W4_arr (w : Fin cfg1.W) :
    W4 m ρ c (Proc.devRef .tc (Pipeline.arrRef spec1 w)) = (dat1 (E3 m ρ) c).arrAt w cfg1.N :=
  Pipeline.withArrays_arr spec1 launch1.win.arr_inj c _ _ w
theorem W4_keep (h : r ∉ ([main_v26] : List (Ref sig .tc))) :
    W4 m ρ c (Proc.devRef .tc r) = W3 m ρ c (Proc.devRef .tc r) :=
  withArrays_keep c r launch1.win.arr_inj (dat1 (E3 m ρ) c) _ (A_eq1 (E3 m ρ) c) _ (by decide) h

abbrev W5 : Dev nD → Valuation τ sig (Elt F) := fun c => StableHlo.after hostOps2 (W4 m ρ c)
theorem W5_keep (h : r ∉ hostOps2_W) : W5 m ρ c (Proc.devRef .tc r) = W4 m ρ c (Proc.devRef .tc r) :=
  StableHlo.after_of_writes_sub hostOps2 _ hostOps2_writes h
abbrev E5 : (c : Dev nD) → (b : Ref sig .tc) → Buf (Elt F) ((c : Thread nD τ).loc b) := fun c b => W5 m ρ c b
def W6 : Valuation τ sig (Elt F) :=
  Pipeline.withArrays spec2 c (W5 m ρ c) fun w => (dat2 (E5 m ρ) c).arrAt w cfg2.N
theorem W6_arr (w : Fin cfg2.W) :
    W6 m ρ c (Proc.devRef .tc (Pipeline.arrRef spec2 w)) = (dat2 (E5 m ρ) c).arrAt w cfg2.N :=
  Pipeline.withArrays_arr spec2 launch2.win.arr_inj c _ _ w
theorem W6_keep (h : r ∉ ([main_v40_0, main_v40_1, main_v40_2] : List (Ref sig .tc))) :
    W6 m ρ c (Proc.devRef .tc r) = W5 m ρ c (Proc.devRef .tc r) :=
  withArrays_keep c r launch2.win.arr_inj (dat2 (E5 m ρ) c) _ (A_eq2 (E5 m ρ) c) _ (by decide) h

abbrev W7 : Dev nD → Valuation τ sig (Elt F) := fun c => StableHlo.after hostOps3 (W6 m ρ c)
theorem W7_keep (h : r ∉ hostOps3_W) : W7 m ρ c (Proc.devRef .tc r) = W6 m ρ c (Proc.devRef .tc r) :=
  StableHlo.after_of_writes_sub hostOps3 _ hostOps3_writes h
abbrev E7 : (c : Dev nD) → (b : Ref sig .tc) → Buf (Elt F) ((c : Thread nD τ).loc b) := fun c b => W7 m ρ c b
def W8 : Valuation τ sig (Elt F) :=
  Pipeline.withArrays spec3 c (W7 m ρ c) fun w => (dat3 (E7 m ρ) c).arrAt w cfg3.N
theorem W8_arr (w : Fin cfg3.W) :
    W8 m ρ c (Proc.devRef .tc (Pipeline.arrRef spec3 w)) = (dat3 (E7 m ρ) c).arrAt w cfg3.N :=
  Pipeline.withArrays_arr spec3 launch3.win.arr_inj c _ _ w
theorem W8_keep (h : r ∉ ([main_v49] : List (Ref sig .tc))) :
    W8 m ρ c (Proc.devRef .tc r) = W7 m ρ c (Proc.devRef .tc r) :=
  withArrays_keep c r launch3.win.arr_inj (dat3 (E7 m ρ) c) _ (A_eq3 (E7 m ρ) c) _ (by decide) h

abbrev W9 : Dev nD → Valuation τ sig (Elt F) := fun c => StableHlo.after hostOps4 (W8 m ρ c)
theorem W9_keep (h : r ∉ hostOps4_W) : W9 m ρ c (Proc.devRef .tc r) = W8 m ρ c (Proc.devRef .tc r) :=
  StableHlo.after_of_writes_sub hostOps4 _ hostOps4_writes h
abbrev E9 : (c : Dev nD) → (b : Ref sig .tc) → Buf (Elt F) ((c : Thread nD τ).loc b) := fun c b => W9 m ρ c b
def W10 : Valuation τ sig (Elt F) :=
  Pipeline.withArrays spec4 c (W9 m ρ c) fun w => (dat4 (E9 m ρ) c).arrAt w cfg4.N
theorem W10_arr (w : Fin cfg4.W) :
    W10 m ρ c (Proc.devRef .tc (Pipeline.arrRef spec4 w)) = (dat4 (E9 m ρ) c).arrAt w cfg4.N :=
  Pipeline.withArrays_arr spec4 launch4.win.arr_inj c _ _ w
theorem W10_keep (h : r ∉ ([main_v63_0, main_v63_1, main_v63_2] : List (Ref sig .tc))) :
    W10 m ρ c (Proc.devRef .tc r) = W9 m ρ c (Proc.devRef .tc r) :=
  withArrays_keep c r launch4.win.arr_inj (dat4 (E9 m ρ) c) _ (A_eq4 (E9 m ρ) c) _ (by decide) h

abbrev W11 : Dev nD → Valuation τ sig (Elt F) := fun c => StableHlo.after hostOps5 (W10 m ρ c)
theorem W11_keep (h : r ∉ hostOps5_W) : W11 m ρ c (Proc.devRef .tc r) = W10 m ρ c (Proc.devRef .tc r) :=
  StableHlo.after_of_writes_sub hostOps5 _ hostOps5_writes h
abbrev E11 : (c : Dev nD) → (b : Ref sig .tc) → Buf (Elt F) ((c : Thread nD τ).loc b) := fun c b => W11 m ρ c b
def W12 : Valuation τ sig (Elt F) :=
  Pipeline.withArrays spec5 c (W11 m ρ c) fun w => (dat5 (E11 m ρ) c).arrAt w cfg5.N
theorem W12_arr (w : Fin cfg5.W) :
    W12 m ρ c (Proc.devRef .tc (Pipeline.arrRef spec5 w)) = (dat5 (E11 m ρ) c).arrAt w cfg5.N :=
  Pipeline.withArrays_arr spec5 launch5.win.arr_inj c _ _ w
theorem W12_keep (h : r ∉ ([main_v72] : List (Ref sig .tc))) :
    W12 m ρ c (Proc.devRef .tc r) = W11 m ρ c (Proc.devRef .tc r) :=
  withArrays_keep c r launch5.win.arr_inj (dat5 (E11 m ρ) c) _ (A_eq5 (E11 m ρ) c) _ (by decide) h

abbrev W13 : Dev nD → Valuation τ sig (Elt F) := fun c => StableHlo.after hostOps6 (W12 m ρ c)
theorem W13_keep (h : r ∉ hostOps6_W) : W13 m ρ c (Proc.devRef .tc r) = W12 m ρ c (Proc.devRef .tc r) :=
  StableHlo.after_of_writes_sub hostOps6 _ hostOps6_writes h
abbrev E13 : (c : Dev nD) → (b : Ref sig .tc) → Buf (Elt F) ((c : Thread nD τ).loc b) := fun c b => W13 m ρ c b
def W14 : Valuation τ sig (Elt F) :=
  Pipeline.withArrays spec6 c (W13 m ρ c) fun w => (dat6 (E13 m ρ) c).arrAt w cfg6.N
theorem W14_arr (w : Fin cfg6.W) :
    W14 m ρ c (Proc.devRef .tc (Pipeline.arrRef spec6 w)) = (dat6 (E13 m ρ) c).arrAt w cfg6.N :=
  Pipeline.withArrays_arr spec6 launch6.win.arr_inj c _ _ w
theorem W14_keep (h : r ∉ ([main_v80] : List (Ref sig .tc))) :
    W14 m ρ c (Proc.devRef .tc r) = W13 m ρ c (Proc.devRef .tc r) :=
  withArrays_keep c r launch6.win.arr_inj (dat6 (E13 m ρ) c) _ (A_eq6 (E13 m ρ) c) _ (by decide) h

-- A reference in none of the fourteen written lists holds at the end what it held at the start.
theorem W14_input : r ∉ hostOps0_W ∧ r ∉ ([main_v17_0, main_v17_1, main_v17_2] : List (Ref sig .tc)) ∧
    r ∉ hostOps1_W ∧ r ∉ ([main_v26] : List (Ref sig .tc)) ∧
    r ∉ hostOps2_W ∧ r ∉ ([main_v40_0, main_v40_1, main_v40_2] : List (Ref sig .tc)) ∧
    r ∉ hostOps3_W ∧ r ∉ ([main_v49] : List (Ref sig .tc)) ∧
    r ∉ hostOps4_W ∧ r ∉ ([main_v63_0, main_v63_1, main_v63_2] : List (Ref sig .tc)) ∧
    r ∉ hostOps5_W ∧ r ∉ ([main_v72] : List (Ref sig .tc)) ∧
    r ∉ hostOps6_W ∧ r ∉ ([main_v80] : List (Ref sig .tc)) →
    W14 m ρ c (Proc.devRef .tc r) = m ((c : Thread nD τ).loc r)
  | ⟨h1, h2, h3, h4, h5, h6, h7, h8, h9, h10, h11, h12, h13, h14⟩ =>
    (W14_keep m ρ c r h14).trans <| (W13_keep m ρ c r h13).trans <| (W12_keep m ρ c r h12).trans <| (W11_keep m ρ c r h11).trans <|
    (W10_keep m ρ c r h10).trans <| (W9_keep m ρ c r h9).trans <| (W8_keep m ρ c r h8).trans <| (W7_keep m ρ c r h7).trans <|
    (W6_keep m ρ c r h6).trans <| (W5_keep m ρ c r h5).trans <| (W4_keep m ρ c r h4).trans <| (W3_keep m ρ c r h3).trans <|
    (W2_keep m ρ c r h2).trans <| W1_keep m ρ c r h1

end Cert.Kernel.Rg

end
-- ==== Proof.K.Run.lean ====
import proofs.«406370_j7258494730854_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem owesAt_intro {cfg : Pipeline.Cfg sig Λ₀} {c : Dev nD} (d : Dat τ (Elt F) Unit ℕ (UR sig nD τ) ℕ cfg c) (t : Fin (cfg.N + 1))
    (ho : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound
  rw [ho, hr]
  iintro ⟨%W, HO⟩; iexists W; isplitr; · ipureintro; exact fun _ _ => Or.inl trivial
  iexact HO

theorem owesAt_elim {cfg : Pipeline.Cfg sig Λ₀} {c : Dev nD} (d : Dat τ (Elt F) Unit ℕ (UR sig nD τ) ℕ cfg c) (t : Fin (cfg.N + 1))
    (ho : d.owed t = 0) :
    d.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

def pdats : (p : Fin 7) → (c : Dev nD) → Dat τ (Elt F) Unit ℕ (UR sig nD τ) ℕ (cfgs p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

-- The seven regions differ only in their data: one segment for all, from the valuation `V` to `V` overridden at the region's arrays.
set_option backward.isDefEq.respectTransparency.types false in
def reg {p : Fin 7} (lf : Pipeline.LaunchFacts (nD := nD) (τ := τ) cfgs p) (V : Dev nD → Valuation τ sig (Elt F))
    (hb : ∀ c, BodyObligation (pdats m ρ p c) defs₀ 𝒱₀ () Set.univ)
    (ho : ∀ c t, (pdats m ρ p c).owed t = 0) (hr : ∀ c t, (pdats m ρ p c).recorded t = Set.univ)
    (hs : ∀ c w, (pdats m ρ p c).share w = fullShare)
    (hA : ∀ c w, (pdats m ρ p c).A w = V c (Pipeline.arrRef (cfgs p).spec w))
    (hi : ∀ c, Pipeline.ΦA (cfgs p).spec c ⊢ (pdats m ρ p c).Φ 0)
    (hu : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) lf.win lf.arr_whole c
      (hs c) (fun b => V c b) (hA c)
    rw [Pipeline.unscopedBufs_held] at hsplit
    have howes := owesAt_intro (pdats m ρ p c) 0 (ho c 0) (hr c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (hu c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) (hs c) (fun b => V c b)
      (fun b => Pipeline.withArrays (cfgs p).spec c (V c) (fun w => (pdats m ρ p c).arrAt w (cfgs p).N) b)
      ((pdats m ρ p c).arrAt · (cfgs p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    have howes := owesAt_elim (pdats m ρ p c) (Fin.last _) (ho c (Fin.last _))
    iintro ⟨Ha, HO, HY, Hrest⟩
    imodintro
    isplitl [Ha Hrest]
    · iapply hjoin; isplitl [Ha] <;> iassumption
    isplitl [HY]; · iexact HY
    iapply howes; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ launch0 (W1 m ρ) (body_obligation0 _) (owed0 _) (recorded0 _) (share0 _) (A_eq0 _) (hin0 _) (hout0 _)),
    .host (hseg hostOps1 hostOps1_sub hostOps1_fresh (W2 m ρ)),
    .region (reg m ρ launch1 (W3 m ρ) (body_obligation1 _) (owed1 _) (recorded1 _) (share1 _) (A_eq1 _) (hin1 _) (hout1 _)),
    .host (hseg hostOps2 hostOps2_sub hostOps2_fresh (W4 m ρ)),
    .region (reg m ρ launch2 (W5 m ρ) (body_obligation2 _) (owed2 _) (recorded2 _) (share2 _) (A_eq2 _) (hin2 _) (hout2 _)),
    .host (hseg hostOps3 hostOps3_sub hostOps3_fresh (W6 m ρ)),
    .region (reg m ρ launch3 (W7 m ρ) (body_obligation3 _) (owed3 _) (recorded3 _) (share3 _) (A_eq3 _) (hin3 _) (hout3 _)),
    .host (hseg hostOps4 hostOps4_sub hostOps4_fresh (W8 m ρ)),
    .region (reg m ρ launch4 (W9 m ρ) (body_obligation4 _) (owed4 _) (recorded4 _) (share4 _) (A_eq4 _) (hin4 _) (hout4 _)),
    .host (hseg hostOps5 hostOps5_sub hostOps5_fresh (W10 m ρ)),
    .region (reg m ρ launch5 (W11 m ρ) (body_obligation5 _) (owed5 _) (recorded5 _) (share5 _) (A_eq5 _) (hin5 _) (hout5 _)),
    .host (hseg hostOps6 hostOps6_sub hostOps6_fresh (W12 m ρ)),
    .region (reg m ρ launch6 (W13 m ρ) (body_obligation6 _) (owed6 _) (recorded6 _) (share6 _) (A_eq6 _) (hin6 _) (hout6 _)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

theorem run_val : θ_run defs (onTc (τ := τ) (main (F := F))) ⟨m, fun _ => 0, ρ⟩ (fun r => ∀ c : Dev nD,
      r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨h c _ (mem_uc main_v80 (by decide)), by
    and_intros <;> exact (h c _ (mem_uc _ (by decide))).trans (W14_input m ρ c _ (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => (h c).2) (run_val m ρ)

end Cert.Kernel.Rg

end
-- ==== Proof.KI.Rg0.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def h2At0 (c : Dev nD) (t : Fin cfg0.N) : Vec F S10000x64 .f32 :=
  k0_pay4 (iblk0 V c 0 t) (iblk0 V c 1 t) (iblk0 V c 2 t) (iblk0 V c 3 t) (iblk0 V c 4 t)

def sumAt0 (c : Dev nD) : (n : ℕ) → n < cfg0.N → Vec F S1x64 .f32
  | 0, hn => k0_pay5 (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := F))
  | n + 1, hn => k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (sumAt0 c n (Nat.lt_of_succ_lt hn))

def sqAt0 (c : Dev nD) : (n : ℕ) → n < cfg0.N → Vec F S1x64 .f32
  | 0, hn => k0_pay1 (h2At0 V c ⟨0, hn⟩) (k0_pay6 (k0_pay3 (F := F)))
  | n + 1, hn => k0_pay1 (h2At0 V c ⟨n + 1, hn⟩) (k0_pay6 (sqAt0 c n (Nat.lt_of_succ_lt hn)))

theorem sumAt0_zero (c : Dev nD) (hn : 0 < cfg0.N) :
    sumAt0 V c 0 hn = k0_pay5 (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := F)) := rfl

theorem sumAt0_succ (c : Dev nD) (n : ℕ) (hn : n + 1 < cfg0.N) :
    sumAt0 V c (n + 1) hn = k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (sumAt0 V c n (Nat.lt_of_succ_lt hn)) := rfl

theorem sqAt0_zero (c : Dev nD) (hn : 0 < cfg0.N) :
    sqAt0 V c 0 hn = k0_pay1 (h2At0 V c ⟨0, hn⟩) (k0_pay6 (k0_pay3 (F := F))) := rfl

theorem sqAt0_succ (c : Dev nD) (n : ℕ) (hn : n + 1 < cfg0.N) :
    sqAt0 V c (n + 1) hn = k0_pay1 (h2At0 V c ⟨n + 1, hn⟩) (k0_pay6 (sqAt0 V c n (Nat.lt_of_succ_lt hn))) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => h2At0 V c t
    | ⟨6, _⟩ => sumAt0 V c t.val t.isLt
    | ⟨7, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := rfl

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem recorded0 (c : Dev nD) (t : Fin (cfg0.N + 1)) : (dat0 V c).recorded t = Set.univ := rfl

theorem after0_5 (c : Dev nD) (t : Fin cfg0.N) : (dat0 V c).after 5 t = h2At0 V c t := rfl
theorem after0_6 (c : Dev nD) (t : Fin cfg0.N) : (dat0 V c).after 6 t = sumAt0 V c t.val t.isLt := rfl
theorem after0_7 (c : Dev nD) (t : Fin cfg0.N) : (dat0 V c).after 7 t = sqAt0 V c t.val t.isLt := rfl

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

theorem hz0 : (![0, 0] : Fin 2 → Nat) = fun _ => 0 := funext fun a => by fin_cases a <;> rfl

-- Owning a whole memref at `x` is holding its buffer at the contents that read `x`.
theorem owns_unread0 (c : Dev nD) {S : Shape} {m : Memref sig .tc .vmem S .f32} (h : m.IsWhole) (x : Vec F S .f32) :
    (owns c.tc m fullShare x : sProp 𝕄) = (m.view.loc c.tc ↦[m.view.set]{fullShare} h.unread (Val := Elt F) x) := by
  refine BI.equiv_iff.mp ⟨?_, ?_⟩ <;> change (_ : sProp 𝕄) ⊢ _ <;> unfold owns
  · iintro ⟨%f, %hf, H⟩; obtain rfl := h.eq_unread hf; iexact H
  · iintro H; iexists _; isplitr; · ipureintro; exact h.read_unread _
    iexact H

section
variable (c : Dev nD) {i : grid0.Coords}
  {arg1 : Memref sig .tc .vmem S10000x7 .f32} {harg1 : arg1.IsWhole} {arg2 : Memref sig .tc .vmem S7x64 .f32} {harg2 : arg2.IsWhole} {arg3 : Memref sig .tc .vmem S1x64 .f32} {harg3 : arg3.IsWhole} {arg4 : Memref sig .tc .vmem S64x64 .f32} {harg4 : arg4.IsWhole} {arg5 : Memref sig .tc .vmem S1x64 .f32} {harg5 : arg5.IsWhole} {arg6 : Memref sig .tc .vmem S10000x64 .f32} {harg6 : arg6.IsWhole} {arg7 : Memref sig .tc .vmem S1x64 .f32} {harg7 : arg7.IsWhole} {arg8 : Memref sig .tc .vmem S1x64 .f32} {harg8 : arg8.IsWhole}
  {x0 : Vec F S10000x7 .f32} {x1 : Vec F S7x64 .f32} {x2 : Vec F S1x64 .f32} {x3 : Vec F S64x64 .f32} {x4 : Vec F S1x64 .f32}

-- At a later point the two accumulators are carried on from `xo6`, `xo7`.
set_option maxHeartbeats 1000000 in
theorem kernelRun0_B {xo6 xo7 : Vec F S1x64 .f32} {E : Set ℕ} {K : PUnit → sProp 𝕄} (hc0 : ¬cond0_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ owns c.tc arg7 fullShare xo6 ∗ owns c.tc arg8 fullShare xo7
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k0_pay4 x0 x1 x2 x3 x4) ∗ owns c.tc arg7 fullShare (k0_pay5 x0 x1 x2 x3 x4 xo6)
            ∗ owns c.tc arg8 fullShare (k0_pay1 (k0_pay4 x0 x1 x2 x3 x4) (k0_pay6 xo7))) -∗ K ⟨⟩))
      ⊢ wp frame (wpE (defs₀ (F := F)) Variants.none c none) E (cc0__gin_dense_kernel i arg1 harg1 arg2 harg2 arg3 harg3 arg4 harg4 arg5 harg5 arg6 harg6 arg7 harg7 arg8 harg8) K := by
  simp only [cc0__gin_dense_kernel_eq_skeleton]; unfold cc0__gin_dense_kernel_skel
  simp only [k0_part1_eq_skeleton]
  rw [owns_unread0 c harg1, owns_unread0 c harg2, owns_unread0 c harg3, owns_unread0 c harg4, owns_unread0 c harg5, owns_unread0 c harg7 xo6, owns_unread0 c harg8 xo7]
  unfold owns
  iintro ⟨H0, H1, H2, H3, H4, ⟨%d5, %f5, -, H5⟩, H6, H7, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz0]
    simp only [View.readCov_unit_zero (S := S1x64) _ hz0, View.readAt_eq_ld, harg1.read_unread, harg2.read_unread, harg3.read_unread, harg4.read_unread, harg5.read_unread, harg7.read_unread, harg8.read_unread, View.ld_unit_zero (S := S10000x7) hz0, View.ld_unit_zero (S := S7x64) hz0, View.ld_unit_zero (S := S10000x64) hz0, View.ld_unit_zero (S := S64x64) hz0, View.ld_unit_zero (S := S1x64) hz0]

-- At the first point they start from their initial values.
set_option maxHeartbeats 1000000 in
theorem kernelRun0_A {E : Set ℕ} {K : PUnit → sProp 𝕄} (hc0 : cond0_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ (∃ d, owns c.tc arg7 fullShare d) ∗ (∃ d, owns c.tc arg8 fullShare d)
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k0_pay4 x0 x1 x2 x3 x4) ∗ owns c.tc arg7 fullShare (k0_pay5 x0 x1 x2 x3 x4 (k0_pay2 (F := F)))
            ∗ owns c.tc arg8 fullShare (k0_pay1 (k0_pay4 x0 x1 x2 x3 x4) (k0_pay6 (k0_pay3 (F := F))))) -∗ K ⟨⟩))
      ⊢ wp frame (wpE (defs₀ (F := F)) Variants.none c none) E (cc0__gin_dense_kernel i arg1 harg1 arg2 harg2 arg3 harg3 arg4 harg4 arg5 harg5 arg6 harg6 arg7 harg7 arg8 harg8) K := by
  simp only [cc0__gin_dense_kernel_eq_skeleton]; unfold cc0__gin_dense_kernel_skel
  simp only [k0_part1_eq_skeleton]
  rw [owns_unread0 c harg1, owns_unread0 c harg2, owns_unread0 c harg3, owns_unread0 c harg4, owns_unread0 c harg5]
  unfold owns
  iintro ⟨H0, H1, H2, H3, H4, ⟨%d5, %f5, -, H5⟩, ⟨%d6, %f6, -, H6⟩, ⟨%d7, %f7, -, H7⟩, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz0]
    simp only [View.readCov_unit_zero (S := S1x64) _ hz0, View.readAt_eq_ld, harg1.read_unread, harg2.read_unread, harg3.read_unread, harg4.read_unread, harg5.read_unread, View.ld_unit_zero (S := S10000x7) hz0, View.ld_unit_zero (S := S7x64) hz0, View.ld_unit_zero (S := S10000x64) hz0, View.ld_unit_zero (S := S64x64) hz0, View.ld_unit_zero (S := S1x64) hz0]

end

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem before0_6_B (c : Dev nD) (t : Fin cfg0.N) (h0 : ¬t.val % 10 = 0) (d) :
    (dat0 V c).before 6 t d = sumAt0 V c (t.val - 1) (Nat.lt_of_le_of_lt (Nat.sub_le _ _) t.isLt) := by
  have hN : t.val < 10 := lt_of_lt_of_eq t.isLt (show cfg0.N = 10 from N_0)
  rw [Dat.before_out_kept _ 6 rfl t (by omega) (Bool.eq_false_iff.mpr fun h => by have := (flush0_6 _).mp h; dsimp only at this; omega)
    (fun _ => rfl) (fun _ _ => rfl)]
  dsimp only [dat0]

theorem before0_7_B (c : Dev nD) (t : Fin cfg0.N) (h0 : ¬t.val % 10 = 0) (d) :
    (dat0 V c).before 7 t d = sqAt0 V c (t.val - 1) (Nat.lt_of_le_of_lt (Nat.sub_le _ _) t.isLt) := by
  have hN : t.val < 10 := lt_of_lt_of_eq t.isLt (show cfg0.N = 10 from N_0)
  rw [Dat.before_out_kept _ 7 rfl t (by omega) (Bool.eq_false_iff.mpr fun h => by have := (flush0_7 _).mp h; dsimp only at this; omega)
    (fun _ => rfl) (fun _ _ => rfl)]
  dsimp only [dat0]

abbrev ms0_0 (t : Fin cfg0.N) : Memref sig .tc .vmem S10000x7 .f32 := win0_0.stage (cfg0.slots t 0)
abbrev ms0_1 (t : Fin cfg0.N) : Memref sig .tc .vmem S7x64 .f32 := win0_1.stage (cfg0.slots t 1)
abbrev ms0_2 (t : Fin cfg0.N) : Memref sig .tc .vmem S1x64 .f32 := win0_2.stage (cfg0.slots t 2)
abbrev ms0_3 (t : Fin cfg0.N) : Memref sig .tc .vmem S64x64 .f32 := win0_3.stage (cfg0.slots t 3)
abbrev ms0_4 (t : Fin cfg0.N) : Memref sig .tc .vmem S1x64 .f32 := win0_4.stage (cfg0.slots t 4)
abbrev ms0_5 (t : Fin cfg0.N) : Memref sig .tc .vmem S10000x64 .f32 := win0_5.stage (cfg0.slots t 5)
abbrev ms0_6 (t : Fin cfg0.N) : Memref sig .tc .vmem S1x64 .f32 := win0_6.stage (cfg0.slots t 6)
abbrev ms0_7 (t : Fin cfg0.N) : Memref sig .tc .vmem S1x64 .f32 := win0_7.stage (cfg0.slots t 7)

def bodyPre0 (c : Dev nD) (t : Fin cfg0.N) : sProp 𝕄 :=
  iprop((dat0 V c).Φ t.castSucc ∗ (dat0 V c).owesAt () t.castSucc
    ∗ (∃ d, owns c.tc (ms0_0 t) fullShare ((dat0 V c).before 0 t d))
    ∗ (∃ d, owns c.tc (ms0_1 t) fullShare ((dat0 V c).before 1 t d))
    ∗ (∃ d, owns c.tc (ms0_2 t) fullShare ((dat0 V c).before 2 t d))
    ∗ (∃ d, owns c.tc (ms0_3 t) fullShare ((dat0 V c).before 3 t d))
    ∗ (∃ d, owns c.tc (ms0_4 t) fullShare ((dat0 V c).before 4 t d))
    ∗ (∃ d, owns c.tc (ms0_5 t) fullShare ((dat0 V c).before 5 t d))
    ∗ (∃ d, owns c.tc (ms0_6 t) fullShare ((dat0 V c).before 6 t d))
    ∗ (∃ d, owns c.tc (ms0_7 t) fullShare ((dat0 V c).before 7 t d)))

def bodyPost0 (c : Dev nD) (t : Fin cfg0.N) : sProp 𝕄 :=
  iprop((dat0 V c).Φ t.castSucc ∗ (dat0 V c).owesAt () t.castSucc
    ∗ owns c.tc (ms0_0 t) fullShare (iblk0 V c 0 t)
    ∗ owns c.tc (ms0_1 t) fullShare (iblk0 V c 1 t)
    ∗ owns c.tc (ms0_2 t) fullShare (iblk0 V c 2 t)
    ∗ owns c.tc (ms0_3 t) fullShare (iblk0 V c 3 t)
    ∗ owns c.tc (ms0_4 t) fullShare (iblk0 V c 4 t)
    ∗ owns c.tc (ms0_5 t) fullShare (h2At0 V c t)
    ∗ owns c.tc (ms0_6 t) fullShare (sumAt0 V c t.val t.isLt)
    ∗ owns c.tc (ms0_7 t) fullShare (sqAt0 V c t.val t.isLt))

-- Point 0 starts the accumulators; point `n + 1` continues from what point `n` left.
set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  obtain ⟨_ | n, hn⟩ := t
  · rw [sumAt0_zero, sqAt0_zero]
    unfold h2At0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun0_A c ((hcond0_0 ⟨0, hn⟩).mpr rfl)
    iframe H0 H1 H2 H3 H4
    isplitl [H5]; · iexists _; iexact H5
    isplitl [H6]; · iexists _; iexact H6
    isplitl [H7]; · iexists _; iexact H7
    iintro H
    iframe HΦ Ho
    iexact H
  · have h0 : ¬(n + 1) % 10 = 0 := by have := hn.trans_eq N_0; omega
    rw [sumAt0_succ, sqAt0_succ]
    simp only [before0_6_B V c ⟨n + 1, hn⟩ h0, before0_7_B V c ⟨n + 1, hn⟩ h0, Nat.add_sub_cancel]
    unfold h2At0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun0_B c (mt (hcond0_0 ⟨n + 1, hn⟩).mp h0)
    iframe H0 H1 H2 H3 H4 H6 H7
    isplitl [H5]; · iexists _; iexact H5
    iintro H
    iframe HΦ Ho
    iexact H

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.Rg1.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S10000x64 := Rect.unit (s := S10000x64) ![0, 0] S10000x64.size inb_S10000x64_S10000x64_0_0
abbrev r1_row : Rect S1x64 := Rect.unit (s := S1x64) ![0, 0] S1x64.size inb_S1x64_S1x64_0_0

def out1_5 (x0 : Vec F S10000x64 .f32) (x1 x2 x3 x4 : Vec F S1x64 .f32) : Vec F S10000x64 .f32 :=
  View.canon [⟨r1_big, k1_pay1 (View.ld x0 r1_big) (View.ld x2 r1_row) (View.ld x1 r1_row) (View.ld x3 r1_row) (View.ld x4 r1_row)⟩]

set_option maxHeartbeats 1000000 in

theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)) -∗ K ⟨⟩))
      ⊢ wp frame (wpE (defs₀ (F := F)) Variants.none c none) E
          (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem share1 (c : Dev nD) (w : Fin cfg1.W) : (dat1 V c).share w = fullShare := ite_self _

theorem owed1 (c : Dev nD) (t : Fin (cfg1.N + 1)) : (dat1 V c).owed t = 0 := rfl

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem after1 (c : Dev nD) (t : Fin cfg1.N) :
    (dat1 V c).after 0 t = iblk1 V c 0 t ∧ (dat1 V c).after 1 t = iblk1 V c 1 t ∧ (dat1 V c).after 2 t = iblk1 V c 2 t
      ∧ (dat1 V c).after 3 t = iblk1 V c 3 t ∧ (dat1 V c).after 4 t = iblk1 V c 4 t :=
  ⟨rfl, rfl, rfl, rfl, rfl⟩

theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ ∀ d, (dat1 V c).before 4 t d = iblk1 V c 4 t := by
  refine ⟨?_, ?_, ?_, ?_, ?_⟩ <;> intro d <;>
    exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d)))

def bodyPost1 (c : Dev nD) (t : Fin cfg1.N) : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  obtain ⟨b0, b1, b2, b3, b4⟩ := before1 V c t
  obtain ⟨a0, a1, a2, a3, a4⟩ := after1 V c t
  unfold bodyPre1 bodyPost1
  simp only [b0, b1, b2, b3, b4]
  rw [show (dat1 V c).Φ t.succ = (dat1 V c).Φ t.castSucc from rfl,
    show (dat1 V c).owesAt () t.succ = (dat1 V c).owesAt () t.castSucc from rfl, a0, a1, a2, a3, a4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

theorem recorded1 (c : Dev nD) (t : Fin (cfg1.N + 1)) : (dat1 V c).recorded t = Set.univ := rfl

end Cert.KernelIdeal.Rg

end
-- ==== Proof.KI.Rg2.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def h2At2 (c : Dev nD) (t : Fin cfg2.N) : Vec F S10000x64 .f32 :=
  k2_pay4 (iblk2 V c 0 t) (iblk2 V c 1 t) (iblk2 V c 2 t) (iblk2 V c 3 t) (iblk2 V c 4 t)

def sumAt2 (c : Dev nD) : (n : ℕ) → n < cfg2.N → Vec F S1x64 .f32
  | 0, hn => k2_pay5 (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := F))
  | n + 1, hn => k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (sumAt2 c n (Nat.lt_of_succ_lt hn))

def sqAt2 (c : Dev nD) : (n : ℕ) → n < cfg2.N → Vec F S1x64 .f32
  | 0, hn => k2_pay1 (h2At2 V c ⟨0, hn⟩) (k2_pay6 (k2_pay3 (F := F)))
  | n + 1, hn => k2_pay1 (h2At2 V c ⟨n + 1, hn⟩) (k2_pay6 (sqAt2 c n (Nat.lt_of_succ_lt hn)))

theorem sumAt2_zero (c : Dev nD) (hn : 0 < cfg2.N) :
    sumAt2 V c 0 hn = k2_pay5 (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := F)) := rfl

theorem sumAt2_succ (c : Dev nD) (n : ℕ) (hn : n + 1 < cfg2.N) :
    sumAt2 V c (n + 1) hn = k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (sumAt2 V c n (Nat.lt_of_succ_lt hn)) := rfl

theorem sqAt2_zero (c : Dev nD) (hn : 0 < cfg2.N) :
    sqAt2 V c 0 hn = k2_pay1 (h2At2 V c ⟨0, hn⟩) (k2_pay6 (k2_pay3 (F := F))) := rfl

theorem sqAt2_succ (c : Dev nD) (n : ℕ) (hn : n + 1 < cfg2.N) :
    sqAt2 V c (n + 1) hn = k2_pay1 (h2At2 V c ⟨n + 1, hn⟩) (k2_pay6 (sqAt2 V c n (Nat.lt_of_succ_lt hn))) := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => h2At2 V c t
    | ⟨6, _⟩ => sumAt2 V c t.val t.isLt
    | ⟨7, _⟩ => sqAt2 V c t.val t.isLt
  Φ _ := Pipeline.ΦA spec2 c
  q _ := fullShare
  owed _ := 0

theorem A_eq2 (c : Dev nD) (w : Fin cfg2.W) : (dat2 V c).A w = V c (Pipeline.arrRef spec2 w) := rfl

theorem share2 (c : Dev nD) (w : Fin cfg2.W) : (dat2 V c).share w = fullShare :=
  (dat2 V c).share_full (fun _ => rfl) w

theorem owed2 (c : Dev nD) (t : Fin (cfg2.N + 1)) : (dat2 V c).owed t = 0 := rfl

theorem recorded2 (c : Dev nD) (t : Fin (cfg2.N + 1)) : (dat2 V c).recorded t = Set.univ := rfl

theorem after2_5 (c : Dev nD) (t : Fin cfg2.N) : (dat2 V c).after 5 t = h2At2 V c t := rfl
theorem after2_6 (c : Dev nD) (t : Fin cfg2.N) : (dat2 V c).after 6 t = sumAt2 V c t.val t.isLt := rfl
theorem after2_7 (c : Dev nD) (t : Fin cfg2.N) : (dat2 V c).after 7 t = sqAt2 V c t.val t.isLt := rfl

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 10 = 0 :=
  (by decide +kernel : ∀ t : Fin grid2.N, cond2_0 (grid2.coords t) ↔ t.val % 10 = 0)

theorem hz2 : (![0, 0] : Fin 2 → Nat) = fun _ => 0 := funext fun a => by fin_cases a <;> rfl

-- Owning a whole memref at `x` is holding its buffer at the contents that read `x`.
theorem owns_unread2 (c : Dev nD) {S : Shape} {m : Memref sig .tc .vmem S .f32} (h : m.IsWhole) (x : Vec F S .f32) :
    (owns c.tc m fullShare x : sProp 𝕄) = (m.view.loc c.tc ↦[m.view.set]{fullShare} h.unread (Val := Elt F) x) := by
  refine BI.equiv_iff.mp ⟨?_, ?_⟩ <;> change (_ : sProp 𝕄) ⊢ _ <;> unfold owns
  · iintro ⟨%f, %hf, H⟩; obtain rfl := h.eq_unread hf; iexact H
  · iintro H; iexists _; isplitr; · ipureintro; exact h.read_unread _
    iexact H

section
variable (c : Dev nD) {i : grid2.Coords}
  {arg1 : Memref sig .tc .vmem S10000x64 .f32} {harg1 : arg1.IsWhole} {arg2 : Memref sig .tc .vmem S64x64 .f32} {harg2 : arg2.IsWhole} {arg3 : Memref sig .tc .vmem S1x64 .f32} {harg3 : arg3.IsWhole} {arg4 : Memref sig .tc .vmem S64x64 .f32} {harg4 : arg4.IsWhole} {arg5 : Memref sig .tc .vmem S1x64 .f32} {harg5 : arg5.IsWhole} {arg6 : Memref sig .tc .vmem S10000x64 .f32} {harg6 : arg6.IsWhole} {arg7 : Memref sig .tc .vmem S1x64 .f32} {harg7 : arg7.IsWhole} {arg8 : Memref sig .tc .vmem S1x64 .f32} {harg8 : arg8.IsWhole}
  {x0 : Vec F S10000x64 .f32} {x1 : Vec F S64x64 .f32} {x2 : Vec F S1x64 .f32} {x3 : Vec F S64x64 .f32} {x4 : Vec F S1x64 .f32}

-- At a later point the two accumulators are carried on from `xo6`, `xo7`.
set_option maxHeartbeats 1000000 in
theorem kernelRun2_B {xo6 xo7 : Vec F S1x64 .f32} {E : Set ℕ} {K : PUnit → sProp 𝕄} (hc0 : ¬cond2_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ owns c.tc arg7 fullShare xo6 ∗ owns c.tc arg8 fullShare xo7
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg7 fullShare (k2_pay5 x0 x1 x2 x3 x4 xo6)
            ∗ owns c.tc arg8 fullShare (k2_pay1 (k2_pay4 x0 x1 x2 x3 x4) (k2_pay6 xo7))) -∗ K ⟨⟩))
      ⊢ wp frame (wpE (defs₀ (F := F)) Variants.none c none) E (cc2__gin_dense_kernel i arg1 harg1 arg2 harg2 arg3 harg3 arg4 harg4 arg5 harg5 arg6 harg6 arg7 harg7 arg8 harg8) K := by
  simp only [cc2__gin_dense_kernel_eq_skeleton]; unfold cc2__gin_dense_kernel_skel
  simp only [k2_part1_eq_skeleton]
  rw [owns_unread2 c harg1, owns_unread2 c harg2, owns_unread2 c harg3, owns_unread2 c harg4, owns_unread2 c harg5, owns_unread2 c harg7 xo6, owns_unread2 c harg8 xo7]
  unfold owns
  iintro ⟨H0, H1, H2, H3, H4, ⟨%d5, %f5, -, H5⟩, H6, H7, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz2]
    simp only [View.readCov_unit_zero (S := S1x64) _ hz2, View.readAt_eq_ld, harg1.read_unread, harg2.read_unread, harg3.read_unread, harg4.read_unread, harg5.read_unread, harg7.read_unread, harg8.read_unread, View.ld_unit_zero (S := S10000x64) hz2, View.ld_unit_zero (S := S64x64) hz2, View.ld_unit_zero (S := S1x64) hz2]

-- At the first point they start from their initial values.
set_option maxHeartbeats 1000000 in
theorem kernelRun2_A {E : Set ℕ} {K : PUnit → sProp 𝕄} (hc0 : cond2_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ (∃ d, owns c.tc arg7 fullShare d) ∗ (∃ d, owns c.tc arg8 fullShare d)
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg7 fullShare (k2_pay5 x0 x1 x2 x3 x4 (k2_pay2 (F := F)))
            ∗ owns c.tc arg8 fullShare (k2_pay1 (k2_pay4 x0 x1 x2 x3 x4) (k2_pay6 (k2_pay3 (F := F))))) -∗ K ⟨⟩))
      ⊢ wp frame (wpE (defs₀ (F := F)) Variants.none c none) E (cc2__gin_dense_kernel i arg1 harg1 arg2 harg2 arg3 harg3 arg4 harg4 arg5 harg5 arg6 harg6 arg7 harg7 arg8 harg8) K := by
  simp only [cc2__gin_dense_kernel_eq_skeleton]; unfold cc2__gin_dense_kernel_skel
  simp only [k2_part1_eq_skeleton]
  rw [owns_unread2 c harg1, owns_unread2 c harg2, owns_unread2 c harg3, owns_unread2 c harg4, owns_unread2 c harg5]
  unfold owns
  iintro ⟨H0, H1, H2, H3, H4, ⟨%d5, %f5, -, H5⟩, ⟨%d6, %f6, -, H6⟩, ⟨%d7, %f7, -, H7⟩, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz2]
    simp only [View.readCov_unit_zero (S := S1x64) _ hz2, View.readAt_eq_ld, harg1.read_unread, harg2.read_unread, harg3.read_unread, harg4.read_unread, harg5.read_unread, View.ld_unit_zero (S := S10000x64) hz2, View.ld_unit_zero (S := S64x64) hz2, View.ld_unit_zero (S := S1x64) hz2]

end

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem before2_6_B (c : Dev nD) (t : Fin cfg2.N) (h0 : ¬t.val % 10 = 0) (d) :
    (dat2 V c).before 6 t d = sumAt2 V c (t.val - 1) (Nat.lt_of_le_of_lt (Nat.sub_le _ _) t.isLt) := by
  have hN : t.val < 10 := lt_of_lt_of_eq t.isLt (show cfg2.N = 10 from N_2)
  rw [Dat.before_out_kept _ 6 rfl t (by omega) (Bool.eq_false_iff.mpr fun h => by have := (flush2_6 _).mp h; dsimp only at this; omega)
    (fun _ => rfl) (fun _ _ => rfl)]
  dsimp only [dat2]

theorem before2_7_B (c : Dev nD) (t : Fin cfg2.N) (h0 : ¬t.val % 10 = 0) (d) :
    (dat2 V c).before 7 t d = sqAt2 V c (t.val - 1) (Nat.lt_of_le_of_lt (Nat.sub_le _ _) t.isLt) := by
  have hN : t.val < 10 := lt_of_lt_of_eq t.isLt (show cfg2.N = 10 from N_2)
  rw [Dat.before_out_kept _ 7 rfl t (by omega) (Bool.eq_false_iff.mpr fun h => by have := (flush2_7 _).mp h; dsimp only at this; omega)
    (fun _ => rfl) (fun _ _ => rfl)]
  dsimp only [dat2]

abbrev ms2_0 (t : Fin cfg2.N) : Memref sig .tc .vmem S10000x64 .f32 := win2_0.stage (cfg2.slots t 0)
abbrev ms2_1 (t : Fin cfg2.N) : Memref sig .tc .vmem S64x64 .f32 := win2_1.stage (cfg2.slots t 1)
abbrev ms2_2 (t : Fin cfg2.N) : Memref sig .tc .vmem S1x64 .f32 := win2_2.stage (cfg2.slots t 2)
abbrev ms2_3 (t : Fin cfg2.N) : Memref sig .tc .vmem S64x64 .f32 := win2_3.stage (cfg2.slots t 3)
abbrev ms2_4 (t : Fin cfg2.N) : Memref sig .tc .vmem S1x64 .f32 := win2_4.stage (cfg2.slots t 4)
abbrev ms2_5 (t : Fin cfg2.N) : Memref sig .tc .vmem S10000x64 .f32 := win2_5.stage (cfg2.slots t 5)
abbrev ms2_6 (t : Fin cfg2.N) : Memref sig .tc .vmem S1x64 .f32 := win2_6.stage (cfg2.slots t 6)
abbrev ms2_7 (t : Fin cfg2.N) : Memref sig .tc .vmem S1x64 .f32 := win2_7.stage (cfg2.slots t 7)

def bodyPre2 (c : Dev nD) (t : Fin cfg2.N) : sProp 𝕄 :=
  iprop((dat2 V c).Φ t.castSucc ∗ (dat2 V c).owesAt () t.castSucc
    ∗ (∃ d, owns c.tc (ms2_0 t) fullShare ((dat2 V c).before 0 t d))
    ∗ (∃ d, owns c.tc (ms2_1 t) fullShare ((dat2 V c).before 1 t d))
    ∗ (∃ d, owns c.tc (ms2_2 t) fullShare ((dat2 V c).before 2 t d))
    ∗ (∃ d, owns c.tc (ms2_3 t) fullShare ((dat2 V c).before 3 t d))
    ∗ (∃ d, owns c.tc (ms2_4 t) fullShare ((dat2 V c).before 4 t d))
    ∗ (∃ d, owns c.tc (ms2_5 t) fullShare ((dat2 V c).before 5 t d))
    ∗ (∃ d, owns c.tc (ms2_6 t) fullShare ((dat2 V c).before 6 t d))
    ∗ (∃ d, owns c.tc (ms2_7 t) fullShare ((dat2 V c).before 7 t d)))

def bodyPost2 (c : Dev nD) (t : Fin cfg2.N) : sProp 𝕄 :=
  iprop((dat2 V c).Φ t.castSucc ∗ (dat2 V c).owesAt () t.castSucc
    ∗ owns c.tc (ms2_0 t) fullShare (iblk2 V c 0 t)
    ∗ owns c.tc (ms2_1 t) fullShare (iblk2 V c 1 t)
    ∗ owns c.tc (ms2_2 t) fullShare (iblk2 V c 2 t)
    ∗ owns c.tc (ms2_3 t) fullShare (iblk2 V c 3 t)
    ∗ owns c.tc (ms2_4 t) fullShare (iblk2 V c 4 t)
    ∗ owns c.tc (ms2_5 t) fullShare (h2At2 V c t)
    ∗ owns c.tc (ms2_6 t) fullShare (sumAt2 V c t.val t.isLt)
    ∗ owns c.tc (ms2_7 t) fullShare (sqAt2 V c t.val t.isLt))

-- Point 0 starts the accumulators; point `n + 1` continues from what point `n` left.
set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  obtain ⟨_ | n, hn⟩ := t
  · rw [sumAt2_zero, sqAt2_zero]
    unfold h2At2
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun2_A c ((hcond2_0 ⟨0, hn⟩).mpr rfl)
    iframe H0 H1 H2 H3 H4
    isplitl [H5]; · iexists _; iexact H5
    isplitl [H6]; · iexists _; iexact H6
    isplitl [H7]; · iexists _; iexact H7
    iintro H
    iframe HΦ Ho
    iexact H
  · have h0 : ¬(n + 1) % 10 = 0 := by have := hn.trans_eq N_2; omega
    rw [sumAt2_succ, sqAt2_succ]
    simp only [before2_6_B V c ⟨n + 1, hn⟩ h0, before2_7_B V c ⟨n + 1, hn⟩ h0, Nat.add_sub_cancel]
    unfold h2At2
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun2_B c (mt (hcond2_0 ⟨n + 1, hn⟩).mp h0)
    iframe H0 H1 H2 H3 H4 H6 H7
    isplitl [H5]; · iexists _; iexact H5
    iintro H
    iframe HΦ Ho
    iexact H

theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.Rg3.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_big : Rect S10000x64 := Rect.unit (s := S10000x64) ![0, 0] S10000x64.size inb_S10000x64_S10000x64_0_0
abbrev r3_row : Rect S1x64 := Rect.unit (s := S1x64) ![0, 0] S1x64.size inb_S1x64_S1x64_0_0

def out3_5 (x0 : Vec F S10000x64 .f32) (x1 x2 x3 x4 : Vec F S1x64 .f32) : Vec F S10000x64 .f32 :=
  View.canon [⟨r3_big, k3_pay1 (View.ld x0 r3_big) (View.ld x2 r3_row) (View.ld x1 r3_row) (View.ld x3 r3_row) (View.ld x4 r3_row)⟩]

set_option maxHeartbeats 1000000 in

theorem sound_kernel3 (c : Dev nD) (E : Set ℕ) (i : grid3.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out3_5 x0 x1 x2 x3 x4)) -∗ K ⟨⟩))
      ⊢ wp frame (wpE (defs₀ (F := F)) Variants.none c none) E
          (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem share3 (c : Dev nD) (w : Fin cfg3.W) : (dat3 V c).share w = fullShare := ite_self _

theorem owed3 (c : Dev nD) (t : Fin (cfg3.N + 1)) : (dat3 V c).owed t = 0 := rfl

theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

theorem after3 (c : Dev nD) (t : Fin cfg3.N) :
    (dat3 V c).after 0 t = iblk3 V c 0 t ∧ (dat3 V c).after 1 t = iblk3 V c 1 t ∧ (dat3 V c).after 2 t = iblk3 V c 2 t
      ∧ (dat3 V c).after 3 t = iblk3 V c 3 t ∧ (dat3 V c).after 4 t = iblk3 V c 4 t :=
  ⟨rfl, rfl, rfl, rfl, rfl⟩

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ ∀ d, (dat3 V c).before 4 t d = iblk3 V c 4 t := by
  refine ⟨?_, ?_, ?_, ?_, ?_⟩ <;> intro d <;>
    exact ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns c (st3_0 t) fullShare ((dat3 V c).before 0 t d))
    ∗ (∃ d, owns c (st3_1 t) fullShare ((dat3 V c).before 1 t d))
    ∗ (∃ d, owns c (st3_2 t) fullShare ((dat3 V c).before 2 t d))
    ∗ (∃ d, owns c (st3_3 t) fullShare ((dat3 V c).before 3 t d))
    ∗ (∃ d, owns c (st3_4 t) fullShare ((dat3 V c).before 4 t d))
    ∗ (∃ d, owns c (st3_5 t) fullShare ((dat3 V c).before 5 t d)))

def bodyPost3 (c : Dev nD) (t : Fin cfg3.N) : sProp 𝕄 :=
  iprop((dat3 V c).Φ t.succ ∗ (dat3 V c).owesAt () t.succ
    ∗ owns c (st3_0 t) fullShare ((dat3 V c).after 0 t)
    ∗ owns c (st3_1 t) fullShare ((dat3 V c).after 1 t)
    ∗ owns c (st3_2 t) fullShare ((dat3 V c).after 2 t)
    ∗ owns c (st3_3 t) fullShare ((dat3 V c).after 3 t)
    ∗ owns c (st3_4 t) fullShare ((dat3 V c).after 4 t)
    ∗ owns c (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  obtain ⟨b0, b1, b2, b3, b4⟩ := before3 V c t
  obtain ⟨a0, a1, a2, a3, a4⟩ := after3 V c t
  unfold bodyPre3 bodyPost3
  simp only [b0, b1, b2, b3, b4]
  rw [show (dat3 V c).Φ t.succ = (dat3 V c).Φ t.castSucc from rfl,
    show (dat3 V c).owesAt () t.succ = (dat3 V c).owesAt () t.castSucc from rfl, a0, a1, a2, a3, a4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

theorem recorded3 (c : Dev nD) (t : Fin (cfg3.N + 1)) : (dat3 V c).recorded t = Set.univ := rfl

end Cert.KernelIdeal.Rg

end
-- ==== Proof.KI.Rg4.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def h2At4 (c : Dev nD) (t : Fin cfg4.N) : Vec F S10000x64 .f32 :=
  k4_pay4 (iblk4 V c 0 t) (iblk4 V c 1 t) (iblk4 V c 2 t) (iblk4 V c 3 t) (iblk4 V c 4 t)

def sumAt4 (c : Dev nD) : (n : ℕ) → n < cfg4.N → Vec F S1x64 .f32
  | 0, hn => k4_pay5 (iblk4 V c 0 ⟨0, hn⟩) (iblk4 V c 1 ⟨0, hn⟩) (iblk4 V c 2 ⟨0, hn⟩) (iblk4 V c 3 ⟨0, hn⟩) (iblk4 V c 4 ⟨0, hn⟩) (k4_pay2 (F := F))
  | n + 1, hn => k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)
      (sumAt4 c n (Nat.lt_of_succ_lt hn))

def sqAt4 (c : Dev nD) : (n : ℕ) → n < cfg4.N → Vec F S1x64 .f32
  | 0, hn => k4_pay1 (h2At4 V c ⟨0, hn⟩) (k4_pay6 (k4_pay3 (F := F)))
  | n + 1, hn => k4_pay1 (h2At4 V c ⟨n + 1, hn⟩) (k4_pay6 (sqAt4 c n (Nat.lt_of_succ_lt hn)))

theorem sumAt4_zero (c : Dev nD) (hn : 0 < cfg4.N) :
    sumAt4 V c 0 hn = k4_pay5 (iblk4 V c 0 ⟨0, hn⟩) (iblk4 V c 1 ⟨0, hn⟩) (iblk4 V c 2 ⟨0, hn⟩) (iblk4 V c 3 ⟨0, hn⟩) (iblk4 V c 4 ⟨0, hn⟩) (k4_pay2 (F := F)) := rfl

theorem sumAt4_succ (c : Dev nD) (n : ℕ) (hn : n + 1 < cfg4.N) :
    sumAt4 V c (n + 1) hn = k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)
      (sumAt4 V c n (Nat.lt_of_succ_lt hn)) := rfl

theorem sqAt4_zero (c : Dev nD) (hn : 0 < cfg4.N) :
    sqAt4 V c 0 hn = k4_pay1 (h2At4 V c ⟨0, hn⟩) (k4_pay6 (k4_pay3 (F := F))) := rfl

theorem sqAt4_succ (c : Dev nD) (n : ℕ) (hn : n + 1 < cfg4.N) :
    sqAt4 V c (n + 1) hn = k4_pay1 (h2At4 V c ⟨n + 1, hn⟩) (k4_pay6 (sqAt4 V c n (Nat.lt_of_succ_lt hn))) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => h2At4 V c t
    | ⟨6, _⟩ => sumAt4 V c t.val t.isLt
    | ⟨7, _⟩ => sqAt4 V c t.val t.isLt
  Φ _ := Pipeline.ΦA spec4 c
  q _ := fullShare
  owed _ := 0

theorem A_eq4 (c : Dev nD) (w : Fin cfg4.W) : (dat4 V c).A w = V c (Pipeline.arrRef spec4 w) := rfl

theorem share4 (c : Dev nD) (w : Fin cfg4.W) : (dat4 V c).share w = fullShare :=
  (dat4 V c).share_full (fun _ => rfl) w

theorem owed4 (c : Dev nD) (t : Fin (cfg4.N + 1)) : (dat4 V c).owed t = 0 := rfl

theorem recorded4 (c : Dev nD) (t : Fin (cfg4.N + 1)) : (dat4 V c).recorded t = Set.univ := rfl

theorem after4_5 (c : Dev nD) (t : Fin cfg4.N) : (dat4 V c).after 5 t = h2At4 V c t := rfl
theorem after4_6 (c : Dev nD) (t : Fin cfg4.N) : (dat4 V c).after 6 t = sumAt4 V c t.val t.isLt := rfl
theorem after4_7 (c : Dev nD) (t : Fin cfg4.N) : (dat4 V c).after 7 t = sqAt4 V c t.val t.isLt := rfl

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

theorem hz4 : (![0, 0] : Fin 2 → Nat) = fun _ => 0 := funext fun a => by fin_cases a <;> rfl

-- Owning a whole memref at `x` is holding its buffer at the contents that read `x`.
theorem owns_unread4 (c : Dev nD) {S : Shape} {m : Memref sig .tc .vmem S .f32} (h : m.IsWhole) (x : Vec F S .f32) :
    (owns c.tc m fullShare x : sProp 𝕄) = (m.view.loc c.tc ↦[m.view.set]{fullShare} h.unread (Val := Elt F) x) := by
  refine BI.equiv_iff.mp ⟨?_, ?_⟩ <;> change (_ : sProp 𝕄) ⊢ _ <;> unfold owns
  · iintro ⟨%f, %hf, H⟩; obtain rfl := h.eq_unread hf; iexact H
  · iintro H; iexists _; isplitr; · ipureintro; exact h.read_unread _
    iexact H

section
variable (c : Dev nD) {i : grid4.Coords}
  {arg1 : Memref sig .tc .vmem S10000x64 .f32} {harg1 : arg1.IsWhole} {arg2 : Memref sig .tc .vmem S64x64 .f32} {harg2 : arg2.IsWhole} {arg3 : Memref sig .tc .vmem S1x64 .f32} {harg3 : arg3.IsWhole} {arg4 : Memref sig .tc .vmem S64x64 .f32} {harg4 : arg4.IsWhole} {arg5 : Memref sig .tc .vmem S1x64 .f32} {harg5 : arg5.IsWhole} {arg6 : Memref sig .tc .vmem S10000x64 .f32} {harg6 : arg6.IsWhole} {arg7 : Memref sig .tc .vmem S1x64 .f32} {harg7 : arg7.IsWhole} {arg8 : Memref sig .tc .vmem S1x64 .f32} {harg8 : arg8.IsWhole}
  {x0 : Vec F S10000x64 .f32} {x1 : Vec F S64x64 .f32} {x2 : Vec F S1x64 .f32} {x3 : Vec F S64x64 .f32} {x4 : Vec F S1x64 .f32}

-- At a later point the two accumulators are carried on from `xo6`, `xo7`.
set_option maxHeartbeats 1000000 in
theorem kernelRun4_B {xo6 xo7 : Vec F S1x64 .f32} {E : Set ℕ} {K : PUnit → sProp 𝕄} (hc0 : ¬cond4_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ owns c.tc arg7 fullShare xo6 ∗ owns c.tc arg8 fullShare xo7
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k4_pay4 x0 x1 x2 x3 x4) ∗ owns c.tc arg7 fullShare (k4_pay5 x0 x1 x2 x3 x4 xo6)
            ∗ owns c.tc arg8 fullShare (k4_pay1 (k4_pay4 x0 x1 x2 x3 x4) (k4_pay6 xo7))) -∗ K ⟨⟩))
      ⊢ wp frame (wpE (defs₀ (F := F)) Variants.none c none) E (cc4__gin_dense_kernel i arg1 harg1 arg2 harg2 arg3 harg3 arg4 harg4 arg5 harg5 arg6 harg6 arg7 harg7 arg8 harg8) K := by
  simp only [cc4__gin_dense_kernel_eq_skeleton]; unfold cc4__gin_dense_kernel_skel
  simp only [k4_part1_eq_skeleton]
  rw [owns_unread4 c harg1, owns_unread4 c harg2, owns_unread4 c harg3, owns_unread4 c harg4, owns_unread4 c harg5, owns_unread4 c harg7 xo6, owns_unread4 c harg8 xo7]
  unfold owns
  iintro ⟨H0, H1, H2, H3, H4, ⟨%d5, %f5, -, H5⟩, H6, H7, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz4]
    simp only [View.readCov_unit_zero (S := S1x64) _ hz4, View.readAt_eq_ld, harg1.read_unread, harg2.read_unread, harg3.read_unread, harg4.read_unread, harg5.read_unread, harg7.read_unread, harg8.read_unread, View.ld_unit_zero (S := S10000x64) hz4, View.ld_unit_zero (S := S64x64) hz4, View.ld_unit_zero (S := S1x64) hz4]

-- At the first point they start from their initial values.
set_option maxHeartbeats 1000000 in
theorem kernelRun4_A {E : Set ℕ} {K : PUnit → sProp 𝕄} (hc0 : cond4_0 i) :
    iprop(owns c.tc arg1 fullShare x0 ∗ owns c.tc arg2 fullShare x1 ∗ owns c.tc arg3 fullShare x2 ∗ owns c.tc arg4 fullShare x3 ∗ owns c.tc arg5 fullShare x4
        ∗ (∃ d, owns c.tc arg6 fullShare d) ∗ (∃ d, owns c.tc arg7 fullShare d) ∗ (∃ d, owns c.tc arg8 fullShare d)
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k4_pay4 x0 x1 x2 x3 x4) ∗ owns c.tc arg7 fullShare (k4_pay5 x0 x1 x2 x3 x4 (k4_pay2 (F := F)))
            ∗ owns c.tc arg8 fullShare (k4_pay1 (k4_pay4 x0 x1 x2 x3 x4) (k4_pay6 (k4_pay3 (F := F))))) -∗ K ⟨⟩))
      ⊢ wp frame (wpE (defs₀ (F := F)) Variants.none c none) E (cc4__gin_dense_kernel i arg1 harg1 arg2 harg2 arg3 harg3 arg4 harg4 arg5 harg5 arg6 harg6 arg7 harg7 arg8 harg8) K := by
  simp only [cc4__gin_dense_kernel_eq_skeleton]; unfold cc4__gin_dense_kernel_skel
  simp only [k4_part1_eq_skeleton]
  rw [owns_unread4 c harg1, owns_unread4 c harg2, owns_unread4 c harg3, owns_unread4 c harg4, owns_unread4 c harg5]
  unfold owns
  iintro ⟨H0, H1, H2, H3, H4, ⟨%d5, %f5, -, H5⟩, ⟨%d6, %f6, -, H6⟩, ⟨%d7, %f7, -, H7⟩, Hk⟩
  sl_exec (disch := first | exact hc0)
  sl_step
  iapply Hk
  iframe H0 H1 H2 H3 H4
  isplitl [H5]; iexists _; isplitr; swap; iexact H5; swap
  isplitl [H6]; iexists _; isplitr; swap; iexact H6; swap
  iexists _; isplitr; swap; iexact H7
  all_goals
    ipureintro; refine (View.read_writes_eq_canon _ _ _ (View.cover_of_tiledL _ (Shape.size _) (by sl_kernel_rfl))).trans ?_
    sl_unfold_words
    rw [View.canon_cons_unit_zero hz4]
    simp only [View.readCov_unit_zero (S := S1x64) _ hz4, View.readAt_eq_ld, harg1.read_unread, harg2.read_unread, harg3.read_unread, harg4.read_unread, harg5.read_unread, View.ld_unit_zero (S := S10000x64) hz4, View.ld_unit_zero (S := S64x64) hz4, View.ld_unit_zero (S := S1x64) hz4]

end

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

theorem before4_6_B (c : Dev nD) (t : Fin cfg4.N) (h0 : ¬t.val % 10 = 0) (d) :
    (dat4 V c).before 6 t d = sumAt4 V c (t.val - 1) (Nat.lt_of_le_of_lt (Nat.sub_le _ _) t.isLt) := by
  have hN : t.val < 10 := lt_of_lt_of_eq t.isLt (show cfg4.N = 10 from N_4)
  rw [Dat.before_out_kept _ 6 rfl t (by omega) (Bool.eq_false_iff.mpr fun h => by have := (flush4_6 _).mp h; dsimp only at this; omega)
    (fun _ => rfl) (fun _ _ => rfl)]
  dsimp only [dat4]

theorem before4_7_B (c : Dev nD) (t : Fin cfg4.N) (h0 : ¬t.val % 10 = 0) (d) :
    (dat4 V c).before 7 t d = sqAt4 V c (t.val - 1) (Nat.lt_of_le_of_lt (Nat.sub_le _ _) t.isLt) := by
  have hN : t.val < 10 := lt_of_lt_of_eq t.isLt (show cfg4.N = 10 from N_4)
  rw [Dat.before_out_kept _ 7 rfl t (by omega) (Bool.eq_false_iff.mpr fun h => by have := (flush4_7 _).mp h; dsimp only at this; omega)
    (fun _ => rfl) (fun _ _ => rfl)]
  dsimp only [dat4]

abbrev ms4_0 (t : Fin cfg4.N) : Memref sig .tc .vmem S10000x64 .f32 := win4_0.stage (cfg4.slots t 0)
abbrev ms4_1 (t : Fin cfg4.N) : Memref sig .tc .vmem S64x64 .f32 := win4_1.stage (cfg4.slots t 1)
abbrev ms4_2 (t : Fin cfg4.N) : Memref sig .tc .vmem S1x64 .f32 := win4_2.stage (cfg4.slots t 2)
abbrev ms4_3 (t : Fin cfg4.N) : Memref sig .tc .vmem S64x64 .f32 := win4_3.stage (cfg4.slots t 3)
abbrev ms4_4 (t : Fin cfg4.N) : Memref sig .tc .vmem S1x64 .f32 := win4_4.stage (cfg4.slots t 4)
abbrev ms4_5 (t : Fin cfg4.N) : Memref sig .tc .vmem S10000x64 .f32 := win4_5.stage (cfg4.slots t 5)
abbrev ms4_6 (t : Fin cfg4.N) : Memref sig .tc .vmem S1x64 .f32 := win4_6.stage (cfg4.slots t 6)
abbrev ms4_7 (t : Fin cfg4.N) : Memref sig .tc .vmem S1x64 .f32 := win4_7.stage (cfg4.slots t 7)

def bodyPre4 (c : Dev nD) (t : Fin cfg4.N) : sProp 𝕄 :=
  iprop((dat4 V c).Φ t.castSucc ∗ (dat4 V c).owesAt () t.castSucc
    ∗ (∃ d, owns c.tc (ms4_0 t) fullShare ((dat4 V c).before 0 t d))
    ∗ (∃ d, owns c.tc (ms4_1 t) fullShare ((dat4 V c).before 1 t d))
    ∗ (∃ d, owns c.tc (ms4_2 t) fullShare ((dat4 V c).before 2 t d))
    ∗ (∃ d, owns c.tc (ms4_3 t) fullShare ((dat4 V c).before 3 t d))
    ∗ (∃ d, owns c.tc (ms4_4 t) fullShare ((dat4 V c).before 4 t d))
    ∗ (∃ d, owns c.tc (ms4_5 t) fullShare ((dat4 V c).before 5 t d))
    ∗ (∃ d, owns c.tc (ms4_6 t) fullShare ((dat4 V c).before 6 t d))
    ∗ (∃ d, owns c.tc (ms4_7 t) fullShare ((dat4 V c).before 7 t d)))

def bodyPost4 (c : Dev nD) (t : Fin cfg4.N) : sProp 𝕄 :=
  iprop((dat4 V c).Φ t.castSucc ∗ (dat4 V c).owesAt () t.castSucc
    ∗ owns c.tc (ms4_0 t) fullShare (iblk4 V c 0 t)
    ∗ owns c.tc (ms4_1 t) fullShare (iblk4 V c 1 t)
    ∗ owns c.tc (ms4_2 t) fullShare (iblk4 V c 2 t)
    ∗ owns c.tc (ms4_3 t) fullShare (iblk4 V c 3 t)
    ∗ owns c.tc (ms4_4 t) fullShare (iblk4 V c 4 t)
    ∗ owns c.tc (ms4_5 t) fullShare (h2At4 V c t)
    ∗ owns c.tc (ms4_6 t) fullShare (sumAt4 V c t.val t.isLt)
    ∗ owns c.tc (ms4_7 t) fullShare (sqAt4 V c t.val t.isLt))

-- Point 0 starts the accumulators; point `n + 1` continues from what point `n` left.
set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  obtain ⟨_ | n, hn⟩ := t
  · rw [sumAt4_zero, sqAt4_zero]
    unfold h2At4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun4_A c ((hcond4_0 ⟨0, hn⟩).mpr rfl)
    iframe H0 H1 H2 H3 H4
    isplitl [H5]; · iexists _; iexact H5
    isplitl [H6]; · iexists _; iexact H6
    isplitl [H7]; · iexists _; iexact H7
    iintro H
    iframe HΦ Ho
    iexact H
  · have h0 : ¬(n + 1) % 10 = 0 := by have := hn.trans_eq N_4; omega
    rw [sumAt4_succ, sqAt4_succ]
    simp only [before4_6_B V c ⟨n + 1, hn⟩ h0, before4_7_B V c ⟨n + 1, hn⟩ h0, Nat.add_sub_cancel]
    unfold h2At4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply kernelRun4_B c (mt (hcond4_0 ⟨n + 1, hn⟩).mp h0)
    iframe H0 H1 H2 H3 H4 H6 H7
    isplitl [H5]; · iexists _; iexact H5
    iintro H
    iframe HΦ Ho
    iexact H

theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KI.Rg5.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_big : Rect S10000x64 := Rect.unit (s := S10000x64) ![0, 0] S10000x64.size inb_S10000x64_S10000x64_0_0
abbrev r5_row : Rect S1x64 := Rect.unit (s := S1x64) ![0, 0] S1x64.size inb_S1x64_S1x64_0_0

def out5_5 (x0 : Vec F S10000x64 .f32) (x1 x2 x3 x4 : Vec F S1x64 .f32) : Vec F S10000x64 .f32 :=
  View.canon [⟨r5_big, k5_pay1 (View.ld x0 r5_big) (View.ld x2 r5_row) (View.ld x1 r5_row) (View.ld x3 r5_row) (View.ld x4 r5_row)⟩]

set_option maxHeartbeats 1000000 in

theorem sound_kernel5 (c : Dev nD) (E : Set ℕ) (i : grid5.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out5_5 x0 x1 x2 x3 x4)) -∗ K ⟨⟩))
      ⊢ wp frame (wpE (defs₀ (F := F)) Variants.none c none) E
          (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem share5 (c : Dev nD) (w : Fin cfg5.W) : (dat5 V c).share w = fullShare := ite_self _

theorem owed5 (c : Dev nD) (t : Fin (cfg5.N + 1)) : (dat5 V c).owed t = 0 := rfl

theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

theorem after5 (c : Dev nD) (t : Fin cfg5.N) :
    (dat5 V c).after 0 t = iblk5 V c 0 t ∧ (dat5 V c).after 1 t = iblk5 V c 1 t ∧ (dat5 V c).after 2 t = iblk5 V c 2 t
      ∧ (dat5 V c).after 3 t = iblk5 V c 3 t ∧ (dat5 V c).after 4 t = iblk5 V c 4 t :=
  ⟨rfl, rfl, rfl, rfl, rfl⟩

theorem before5 (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) ∧ (∀ d, (dat5 V c).before 3 t d = iblk5 V c 3 t)
      ∧ ∀ d, (dat5 V c).before 4 t d = iblk5 V c 4 t := by
  refine ⟨?_, ?_, ?_, ?_, ?_⟩ <;> intro d <;>
    exact ((dat5 V c).before_in_eq_fetched _ rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d))
    ∗ (∃ d, owns c (st5_4 t) fullShare ((dat5 V c).before 4 t d))
    ∗ (∃ d, owns c (st5_5 t) fullShare ((dat5 V c).before 5 t d)))

def bodyPost5 (c : Dev nD) (t : Fin cfg5.N) : sProp 𝕄 :=
  iprop((dat5 V c).Φ t.succ ∗ (dat5 V c).owesAt () t.succ
    ∗ owns c (st5_0 t) fullShare ((dat5 V c).after 0 t)
    ∗ owns c (st5_1 t) fullShare ((dat5 V c).after 1 t)
    ∗ owns c (st5_2 t) fullShare ((dat5 V c).after 2 t)
    ∗ owns c (st5_3 t) fullShare ((dat5 V c).after 3 t)
    ∗ owns c (st5_4 t) fullShare ((dat5 V c).after 4 t)
    ∗ owns c (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  obtain ⟨b0, b1, b2, b3, b4⟩ := before5 V c t
  obtain ⟨a0, a1, a2, a3, a4⟩ := after5 V c t
  unfold bodyPre5 bodyPost5
  simp only [b0, b1, b2, b3, b4]
  rw [show (dat5 V c).Φ t.succ = (dat5 V c).Φ t.castSucc from rfl,
    show (dat5 V c).owesAt () t.succ = (dat5 V c).owesAt () t.castSucc from rfl, a0, a1, a2, a3, a4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

theorem recorded5 (c : Dev nD) (t : Fin (cfg5.N + 1)) : (dat5 V c).recorded t = Set.univ := rfl

end Cert.KernelIdeal.Rg

end
-- ==== Proof.KI.Rg6.lean ====
import proofs.«406370_j7258494730854_1_alg».proof.Proof.Gen.KernelIdeal.Launch
import proofs.«406370_j7258494730854_1_alg».proof.Proof.Gen.KernelIdeal.Skeleton
import proofs.«406370_j7258494730854_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S1024x64 .f32 := Memref.whole cc6_scratch0

def acc6 (c : Dev nD) : (n : ℕ) → n < cfg6.N → Vec F S1024x64 .f32
  | 0, hn => k6_pay2 (iblk6 V c 1 ⟨0, hn⟩) (iblk6 V c 0 ⟨0, hn⟩) (k6_pay1 (F := F))
  | n + 1, hn => k6_pay2 (iblk6 V c 1 ⟨n + 1, hn⟩) (iblk6 V c 0 ⟨n + 1, hn⟩) (acc6 c n (Nat.lt_of_succ_lt hn))

theorem acc6_zero (c : Dev nD) (hn : 0 < cfg6.N) :
    acc6 V c 0 hn = k6_pay2 (iblk6 V c 1 ⟨0, hn⟩) (iblk6 V c 0 ⟨0, hn⟩) (k6_pay1 (F := F)) := rfl

theorem acc6_succ (c : Dev nD) (n : ℕ) (hn : n + 1 < cfg6.N) :
    acc6 V c (n + 1) hn = k6_pay2 (iblk6 V c 1 ⟨n + 1, hn⟩) (iblk6 V c 0 ⟨n + 1, hn⟩) (acc6 V c n (Nat.lt_of_succ_lt hn)) := rfl

theorem acc6_pos (c : Dev nD) (t : Fin cfg6.N) (ht : t.val ≠ 0) :
    acc6 V c t.val t.isLt = k6_pay2 (iblk6 V c 1 t) (iblk6 V c 0 t) (acc6 V c (t.val - 1) (Nat.lt_of_le_of_lt (Nat.sub_le _ _) t.isLt)) := by
  obtain ⟨n, hn⟩ := t
  cases n with
  | zero => exact absurd rfl ht
  | succ n => rfl

def out6 (c : Dev nD) (t : Fin cfg6.N) : Vec F S1024x64 .f32 :=
  k6_pay3 (acc6 V c t.val t.isLt) (iblk6 V c 2 t) (iblk6 V c 3 t) (iblk6 V c 4 t)

def Phi6 (c : Dev nD) : (n : ℕ) → n ≤ cfg6.N → sProp 𝕄
  | 0, _ => Pipeline.ΦA spec6 c
  | n + 1, hn => iprop(iprop(owns c scM6 fullShare (acc6 V c n hn) ∗ Pipeline.scopedRestBut spec6 c [cc6_scratch0]) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns c scM6 fullShare (acc6 V c n hn) ∗ Pipeline.scopedRestBut spec6 c [cc6_scratch0]) ∗ (∃ r, prngReg c r)) := rfl

theorem Phi6_pos (c : Dev nD) (n : ℕ) (h : n ≤ cfg6.N) (hz : n ≠ 0) :
    Phi6 V c n h = iprop(iprop(owns c scM6 fullShare (acc6 V c (n - 1) (by omega)) ∗ Pipeline.scopedRestBut spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 V c t
  Φ t := Phi6 V c t.val (Nat.le_of_lt_succ t.isLt)
  q _ := fullShare
  owed _ := 0

theorem A_eq6 (c : Dev nD) (w : Fin cfg6.W) : (dat6 V c).A w = V c (Pipeline.arrRef spec6 w) := rfl

theorem share6 (c : Dev nD) (w : Fin cfg6.W) : (dat6 V c).share w = fullShare :=
  (dat6 V c).share_full (fun _ => rfl) w

theorem owed6 (c : Dev nD) (t : Fin (cfg6.N + 1)) : (dat6 V c).owed t = 0 := rfl

theorem recorded6 (c : Dev nD) (t : Fin (cfg6.N + 1)) : (dat6 V c).recorded t = Set.univ := rfl

theorem after6_5 (c : Dev nD) (t : Fin cfg6.N) : (dat6 V c).after 5 t = out6 V c t := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem PhiA6_eq (c : Dev nD) :
    (Pipeline.ΦA spec6 c : sProp 𝕄)
      = iprop(iprop((∃ d, owns c scM6 fullShare d) ∗ Pipeline.scopedRestBut spec6 c [cc6_scratch0]) ∗ (∃ r, prngReg c r)) := by
  unfold Pipeline.ΦA; rw [scopedRest6_split]; simp only [scM6, owns_whole]; try rfl

theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

theorem Phi6_out (c : Dev nD) (t : Fin (cfg6.N + 1)) (ht : t.val ≠ 0) : (dat6 V c).Φ t ⊢ Pipeline.ΦA spec6 c := by
  rw [show (dat6 V c).Φ t = Phi6 V c t.val (Nat.le_of_lt_succ t.isLt) from rfl, Phi6_pos V c _ _ ht, PhiA6_eq]
  iintro ⟨⟨HS, HR⟩, Hg⟩
  iframe HR Hg
  iexists _; iexact HS

theorem hout6 (c : Dev nD) : (dat6 V c).Φ (Fin.last cfg6.N) ⊢ Pipeline.ΦA spec6 c :=
  Phi6_out V c _ (by rw [Fin.val_last]; have : cfg6.N = 100 := N_6; omega)

theorem zeros2 : (![0, 0] : Fin 2 → ℕ) = fun _ => 0 := by
  funext a; fin_cases a <;> rfl

theorem readAt_zero_unread {sp : Space} {s : Shape} {e : EltTy} {m : Memref sig .tc sp s e} (h : m.IsWhole)
    (X : s.Idx → Elt F e) {off : Fin s.rank → ℕ} (hz : off = fun _ => 0) (inb : ∀ a, off a + s.size a ≤ s.size a) :
    View.readAt (Elt F) m.view (Rect.unit off s.size inb).toLoadRect (h.unread X) = X :=
  funext fun x => (h.readAt_unread X _ x).trans (congrFun (View.ld_unit_zero hz inb X) x)

theorem read_writes_zero {sp : Space} {s : Shape} {e : EltTy} (v : View sig .tc sp s e) (f : v.ty.Contents (Elt F))
    {off : Fin s.rank → ℕ} (hz : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero hz inb y⟩),
    View.canon_cons_unit_zero hz inb w L]

abbrev cond6_0 (i : grid6.Coords) : Prop := (Scalar.cmpi .ne (Scalar.extui (Scalar.cmpi .eq (BitVec.ofNat 32 (i 0).val) 0#32)) 0#32) = 1#1

abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)

theorem hcond6_1 : ∀ t : Fin cfg6.N, cond6_1 (grid6.coords t) ↔ t.val = 99 :=
  (by decide +kernel : ∀ t : Fin grid6.N, cond6_1 (grid6.coords t) ↔ t.val = 99)

theorem idleAt6_5 : ∀ t : Fin cfg6.N, ¬cond6_1 (grid6.coords t) → idle6 5 (grid6.coords t) = true := by decide +kernel

theorem noFlush6_5 : ∀ t : Fin cfg6.N, ¬cond6_1 (grid6.coords t) → (cfg6.win 5).flush t = false := by decide +kernel

theorem liveAt6_5 : ∀ t : Fin cfg6.N, cond6_1 (grid6.coords t) → idle6 5 (grid6.coords t) = false := by decide +kernel

section

variable (c : Dev nD) (i : grid6.Coords)
    (arg1 : Memref sig .tc .vmem S1000x64 .f32) (harg1 : arg1.IsWhole) (arg2 : Memref sig .tc .vmem S1000x1 .i32) (harg2 : arg2.IsWhole)
    (arg3 : Memref sig .tc .vmem S1024x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1024x64 .f32) (harg6 : arg6.IsWhole)
    (arg7 : Memref sig .tc .vmem S1024x64 .f32) (harg7 : arg7.IsWhole)
    (x0 : Vec F S1000x64 .f32) (x1 : Vec F S1000x1 .i32) (x2 : Vec F S1024x1 .f32) (x3 : Vec F S64x64 .f32) (x4 : Vec F S1x64 .f32)
    (xi5 : Vec F S1024x64 .f32) (xs : Vec F S1024x64 .f32)

def ins6 : sProp 𝕄 :=
  iprop(owns c arg1 fullShare x0 ∗ owns c arg2 fullShare x1 ∗ owns c arg3 fullShare x2
    ∗ owns c arg4 fullShare x3 ∗ owns c arg5 fullShare x4)

set_option maxHeartbeats 1000000 in

theorem run6_A (E : Set ℕ) (K : PUnit → sProp 𝕄) (hc0 : cond6_0 i) (hc1 : ¬cond6_1 i) :
    iprop(ins6 c arg1 arg2 arg3 arg4 arg5 x0 x1 x2 x3 x4 ∗ owns c arg6 fullShare xi5
        ∗ owns c arg7 fullShare xs
        ∗ (iprop(ins6 c arg1 arg2 arg3 arg4 arg5 x0 x1 x2 x3 x4 ∗ owns c arg6 fullShare xi5
            ∗ owns c arg7 fullShare (k6_pay2 x1 x0 (k6_pay1 (F := F)))) -∗ K ⟨⟩))
      ⊢ wp frame (wpE (defs₀ (F := F)) Variants.none c none) E (cc6__pool_project_kernel i arg1 harg1 arg2 harg2 arg3 harg3 arg4 harg4 arg5 harg5 arg6 harg6 arg7 harg7) K := by
  simp only [cc6__pool_project_kernel_eq_skeleton]; unfold cc6__pool_project_kernel_skel
  unfold ins6 owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; · ipureintro; exact harg6.read_unread _
    iexact H5
  iexists _; isplitr
  swap; · iexact HS
  ipureintro
  sl_unfold_run_names
  rw [readAt_zero_unread harg2 x1 zeros2, readAt_zero_unread harg1 x0 zeros2, View.readCov_unit_zero arg7.view zeros2]
  exact read_writes_zero _ _ zeros2 _ _ _

set_option maxHeartbeats 1000000 in

theorem run6_B (E : Set ℕ) (K : PUnit → sProp 𝕄) (hc0 : ¬cond6_0 i) (hc1 : ¬cond6_1 i) :
    iprop(ins6 c arg1 arg2 arg3 arg4 arg5 x0 x1 x2 x3 x4 ∗ owns c arg6 fullShare xi5
        ∗ owns c arg7 fullShare xs
        ∗ (iprop(ins6 c arg1 arg2 arg3 arg4 arg5 x0 x1 x2 x3 x4 ∗ owns c arg6 fullShare xi5
            ∗ owns c arg7 fullShare (k6_pay2 x1 x0 xs)) -∗ K ⟨⟩))
      ⊢ wp frame (wpE (defs₀ (F := F)) Variants.none c none) E (cc6__pool_project_kernel i arg1 harg1 arg2 harg2 arg3 harg3 arg4 harg4 arg5 harg5 arg6 harg6 arg7 harg7) K := by
  simp only [cc6__pool_project_kernel_eq_skeleton]; unfold cc6__pool_project_kernel_skel
  unfold ins6 owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr; · ipureintro; exact harg6.read_unread _
    iexact H5
  iexists _; isplitr
  swap; · iexact HS
  ipureintro
  sl_unfold_run_names
  rw [readAt_zero_unread harg2 x1 zeros2, readAt_zero_unread harg1 x0 zeros2, readAt_zero_unread harg7 xs zeros2]
  exact read_writes_zero _ _ zeros2 _ _ _

set_option maxHeartbeats 1000000 in

theorem run6_C (E : Set ℕ) (K : PUnit → sProp 𝕄) (hc0 : ¬cond6_0 i) (hc1 : cond6_1 i) :
    iprop(ins6 c arg1 arg2 arg3 arg4 arg5 x0 x1 x2 x3 x4 ∗ (∃ d, owns c arg6 fullShare d)
        ∗ owns c arg7 fullShare xs
        ∗ (iprop(ins6 c arg1 arg2 arg3 arg4 arg5 x0 x1 x2 x3 x4 ∗ owns c arg6 fullShare (k6_pay3 (k6_pay2 x1 x0 xs) x2 x3 x4)
            ∗ owns c arg7 fullShare (k6_pay2 x1 x0 xs)) -∗ K ⟨⟩))
      ⊢ wp frame (wpE (defs₀ (F := F)) Variants.none c none) E (cc6__pool_project_kernel i arg1 harg1 arg2 harg2 arg3 harg3 arg4 harg4 arg5 harg5 arg6 harg6 arg7 harg7) K := by
  simp only [cc6__pool_project_kernel_eq_skeleton]; unfold cc6__pool_project_kernel_skel
  unfold ins6 owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    sl_unfold_run_names
    rw [readAt_zero_unread harg2 x1 zeros2, readAt_zero_unread harg1 x0 zeros2, readAt_zero_unread harg7 xs zeros2,
      readAt_zero_unread harg3 x2 zeros2, readAt_zero_unread harg4 x3 zeros2, readAt_zero_unread harg5 x4 zeros2,
      View.readCov_unit_zero arg7.view zeros2]
    exact read_writes_zero _ _ zeros2 _ _ _
  iexists _; isplitr
  swap; · iexact HS
  ipureintro
  sl_unfold_run_names
  rw [readAt_zero_unread harg2 x1 zeros2, readAt_zero_unread harg1 x0 zeros2, readAt_zero_unread harg7 xs zeros2]
  exact read_writes_zero _ _ zeros2 _ _ _

end

theorem after6 (c : Dev nD) (t : Fin cfg6.N) :
    (dat6 V c).after 0 t = iblk6 V c 0 t ∧ (dat6 V c).after 1 t = iblk6 V c 1 t ∧ (dat6 V c).after 2 t = iblk6 V c 2 t
      ∧ (dat6 V c).after 3 t = iblk6 V c 3 t ∧ (dat6 V c).after 4 t = iblk6 V c 4 t :=
  ⟨rfl, rfl, rfl, rfl, rfl⟩

theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t)
      ∧ ∀ d, (dat6 V c).before 4 t d = iblk6 V c 4 t := by
  refine ⟨?_, ?_, ?_, ?_, ?_⟩ <;> intro d <;>
    exact ((dat6 V c).before_in_eq_fetched _ rfl (fun _ => rfl) (fun _ _ _ => rfl) (fun _ => rfl) t d).trans rfl

theorem acc6_first (c : Dev nD) (t : Fin cfg6.N) (h0 : t.val = 0) :
    acc6 V c t.val t.isLt = k6_pay2 (iblk6 V c 1 t) (iblk6 V c 0 t) (k6_pay1 (F := F)) := by
  obtain ⟨n, hn⟩ := t
  cases n with
  | zero => rfl
  | succ n => exact absurd h0 (Nat.succ_ne_zero n)

set_option maxHeartbeats 4800000 in

theorem body_obligation6 (c : Dev nD) : BodyObligation (dat6 (F := F) V c) (defs₀ (F := F)) Variants.none () Set.univ := fun t => by
  obtain ⟨b0, b1, b2, b3, b4⟩ := before6 V c t
  obtain ⟨a0, a1, a2, a3, a4⟩ := after6 V c t
  rw [bigSep_W6, bigSep_W6]
  simp only [b0, b1, b2, b3, b4]
  rw [show (dat6 V c).owesAt () t.succ = (dat6 V c).owesAt () t.castSucc from rfl,
    show (dat6 V c).Φ t.succ = Phi6 V c (t.val + 1) t.isLt from rfl, Phi6_succ, a0, a1, a2, a3, a4, Phi6_castSucc V c t]
  change _ ⊢ wp _ _ _ (bodyAt6 t) _
  unfold bodyAt6
  have hN : t.val < 100 := lt_of_lt_of_eq t.isLt (show cfg6.N = 100 from N_6)
  by_cases h0 : t.val = 0
  · have hc0 : cond6_0 (grid6.coords t) := (hcond6_0 t).mpr h0
    have hc1 : ¬cond6_1 (grid6.coords t) := fun h => by have := (hcond6_1 t).mp h; omega
    simp only [idleAt6_5 t hc1, noFlush6_5 t hc1]
    rw [acc6_first V c t h0, Phi6_zero V c _ _ h0, PhiA6_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run6_A c (grid6.coords t) _ _ _ _ _ _ _ _ _ _ _ _ _ _ (iblk6 V c 0 t) (iblk6 V c 1 t) (iblk6 V c 2 t) (iblk6 V c 3 t) (iblk6 V c 4 t) ((dat6 V c).before 5 t d5) ds Set.univ _ hc0 hc1)
    unfold ins6
    iframe H0 H1 H2 H3 H4 H5 HS
    iintro ⟨⟨H0, H1, H2, H3, H4⟩, H5, HS⟩
    iframe HS HR Hg Ho H0 H1 H2 H3 H4
    iexists _; iexact H5
  · have hc0 : ¬cond6_0 (grid6.coords t) := fun h => h0 ((hcond6_0 t).mp h)
    rw [acc6_pos V c t h0, Phi6_pos V c _ _ h0]
    by_cases h1 : t.val = 99
    · have hc1 : cond6_1 (grid6.coords t) := (hcond6_1 t).mpr h1
      simp only [liveAt6_5 t hc1]
      rw [after6_5]
      unfold out6
      rw [acc6_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run6_C c (grid6.coords t) _ _ _ _ _ _ _ _ _ _ _ _ _ _ (iblk6 V c 0 t) (iblk6 V c 1 t) (iblk6 V c 2 t) (iblk6 V c 3 t) (iblk6 V c 4 t) (acc6 V c (t.val - 1) (Nat.lt_of_le_of_lt (Nat.sub_le _ _) t.isLt)) Set.univ _ hc0 hc1)
      unfold ins6
      iframe H0 H1 H2 H3 H4 HS
      isplitl [H5]; · iexists _; iexact H5
      iintro ⟨⟨H0, H1, H2, H3, H4⟩, H5, HS⟩
      iframe
    · have hc1 : ¬cond6_1 (grid6.coords t) := fun h => h1 ((hcond6_1 t).mp h)
      simp only [idleAt6_5 t hc1, noFlush6_5 t hc1]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run6_B c (grid6.coords t) _ _ _ _ _ _ _ _ _ _ _ _ _ _ (iblk6 V c 0 t) (iblk6 V c 1 t) (iblk6 V c 2 t) (iblk6 V c 3 t) (iblk6 V c 4 t) ((dat6 V c).before 5 t d5) (acc6 V c (t.val - 1) (Nat.lt_of_le_of_lt (Nat.sub_le _ _) t.isLt)) Set.univ _ hc0 hc1)
      unfold ins6
      iframe H0 H1 H2 H3 H4 H5 HS
      iintro ⟨⟨H0, H1, H2, H3, H4⟩, H5, HS⟩
      iframe HS HR Hg Ho H0 H1 H2 H3 H4
      iexists _; iexact H5

end Cert.KernelIdeal.Rg

end
-- ==== Proof.KI.Fold.lean ====
import proofs.«406370_j7258494730854_1_alg».proof.Proof.KI.Rg0
import proofs.«406370_j7258494730854_1_alg».proof.Proof.KI.Rg1
import proofs.«406370_j7258494730854_1_alg».proof.Proof.KI.Rg2
import proofs.«406370_j7258494730854_1_alg».proof.Proof.KI.Rg3
import proofs.«406370_j7258494730854_1_alg».proof.Proof.KI.Rg4
import proofs.«406370_j7258494730854_1_alg».proof.Proof.KI.Rg5
import proofs.«406370_j7258494730854_1_alg».proof.Proof.KI.Rg6
import proofs.«406370_j7258494730854_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
  (c : Dev nD) (r : Ref sig .tc)

abbrev W0 : Dev nD → Valuation τ sig (Elt F) := fun c b => (⟨m, fun _ => 0, ρ⟩ : MemSt nD τ sig (Elt F)).mem ((c : Dev nD), b)

-- Off `l` no array is an output, and an input array ends as it began: overriding `V` at the arrays changes nothing at `r`.
theorem withArrays_keep {cfg : Cfg sig Λ₀} (hinj : Function.Injective (Pipeline.arrRef cfg.spec))
    (d : Dat τ (Elt F) Unit ℕ (UR sig nD τ) ℕ cfg c) (V : Valuation τ sig (Elt F))
    (hA : ∀ w, d.A w = V (Proc.devRef .tc (Pipeline.arrRef cfg.spec w))) (l : List (Ref sig .tc))
    (hl : ∀ w, Pipeline.arrRef cfg.spec w ∉ l → (cfg.win w).isOut = false) (h : r ∉ l) :
    Pipeline.withArrays cfg.spec c V (fun w => d.arrAt w cfg.N) (Proc.devRef .tc r) = V (Proc.devRef .tc r) := by
  by_cases he : ∃ w, Pipeline.arrRef cfg.spec w = r
  · obtain ⟨w, rfl⟩ := he
    exact (Pipeline.withArrays_arr _ hinj c _ _ w).trans ((d.arrAt_in w (hl w h) _).trans (hA w))
  · exact Pipeline.withArrays_of_ne _ c _ _ r fun w e => he ⟨w, e⟩

abbrev W1 : Dev nD → Valuation τ sig (Elt F) := fun c => StableHlo.after hostOps0 (W0 m ρ c)
theorem W1_keep (h : r ∉ hostOps0_W) : W1 m ρ c (Proc.devRef .tc r) = W0 m ρ c (Proc.devRef .tc r) :=
  StableHlo.after_of_writes_sub hostOps0 _ hostOps0_writes h
abbrev E1 : (c : Dev nD) → (b : Ref sig .tc) → Buf (Elt F) ((c : Thread nD τ).loc b) := fun c b => W1 m ρ c b
def W2 : Valuation τ sig (Elt F) :=
  Pipeline.withArrays spec0 c (W1 m ρ c) fun w => (dat0 (E1 m ρ) c).arrAt w cfg0.N
theorem W2_arr (w : Fin cfg0.W) :
    W2 m ρ c (Proc.devRef .tc (Pipeline.arrRef spec0 w)) = (dat0 (E1 m ρ) c).arrAt w cfg0.N :=
  Pipeline.withArrays_arr spec0 launch0.win.arr_inj c _ _ w
theorem W2_keep (h : r ∉ ([main_v17_0, main_v17_1, main_v17_2] : List (Ref sig .tc))) :
    W2 m ρ c (Proc.devRef .tc r) = W1 m ρ c (Proc.devRef .tc r) :=
  withArrays_keep c r launch0.win.arr_inj (dat0 (E1 m ρ) c) _ (A_eq0 (E1 m ρ) c) _ (by decide) h

abbrev W3 : Dev nD → Valuation τ sig (Elt F) := fun c => StableHlo.after hostOps1 (W2 m ρ c)
theorem W3_keep (h : r ∉ hostOps1_W) : W3 m ρ c (Proc.devRef .tc r) = W2 m ρ c (Proc.devRef .tc r) :=
  StableHlo.after_of_writes_sub hostOps1 _ hostOps1_writes h
abbrev E3 : (c : Dev nD) → (b : Ref sig .tc) → Buf (Elt F) ((c : Thread nD τ).loc b) := fun c b => W3 m ρ c b
def W4 : Valuation τ sig (Elt F) :=
  Pipeline.withArrays spec1 c (W3 m ρ c) fun w => (dat1 (E3 m ρ) c).arrAt w cfg1.N
theorem W4_arr (w : Fin cfg1.W) :
    W4 m ρ c (Proc.devRef .tc (Pipeline.arrRef spec1 w)) = (dat1 (E3 m ρ) c).arrAt w cfg1.N :=
  Pipeline.withArrays_arr spec1 launch1.win.arr_inj c _ _ w
theorem W4_keep (h : r ∉ ([main_v26] : List (Ref sig .tc))) :
    W4 m ρ c (Proc.devRef .tc r) = W3 m ρ c (Proc.devRef .tc r) :=
  withArrays_keep c r launch1.win.arr_inj (dat1 (E3 m ρ) c) _ (A_eq1 (E3 m ρ) c) _ (by decide) h

abbrev W5 : Dev nD → Valuation τ sig (Elt F) := fun c => StableHlo.after hostOps2 (W4 m ρ c)
theorem W5_keep (h : r ∉ hostOps2_W) : W5 m ρ c (Proc.devRef .tc r) = W4 m ρ c (Proc.devRef .tc r) :=
  StableHlo.after_of_writes_sub hostOps2 _ hostOps2_writes h
abbrev E5 : (c : Dev nD) → (b : Ref sig .tc) → Buf (Elt F) ((c : Thread nD τ).loc b) := fun c b => W5 m ρ c b
def W6 : Valuation τ sig (Elt F) :=
  Pipeline.withArrays spec2 c (W5 m ρ c) fun w => (dat2 (E5 m ρ) c).arrAt w cfg2.N
theorem W6_arr (w : Fin cfg2.W) :
    W6 m ρ c (Proc.devRef .tc (Pipeline.arrRef spec2 w)) = (dat2 (E5 m ρ) c).arrAt w cfg2.N :=
  Pipeline.withArrays_arr spec2 launch2.win.arr_inj c _ _ w
theorem W6_keep (h : r ∉ ([main_v40_0, main_v40_1, main_v40_2] : List (Ref sig .tc))) :
    W6 m ρ c (Proc.devRef .tc r) = W5 m ρ c (Proc.devRef .tc r) :=
  withArrays_keep c r launch2.win.arr_inj (dat2 (E5 m ρ) c) _ (A_eq2 (E5 m ρ) c) _ (by decide) h

abbrev W7 : Dev nD → Valuation τ sig (Elt F) := fun c => StableHlo.after hostOps3 (W6 m ρ c)
theorem W7_keep (h : r ∉ hostOps3_W) : W7 m ρ c (Proc.devRef .tc r) = W6 m ρ c (Proc.devRef .tc r) :=
  StableHlo.after_of_writes_sub hostOps3 _ hostOps3_writes h
abbrev E7 : (c : Dev nD) → (b : Ref sig .tc) → Buf (Elt F) ((c : Thread nD τ).loc b) := fun c b => W7 m ρ c b
def W8 : Valuation τ sig (Elt F) :=
  Pipeline.withArrays spec3 c (W7 m ρ c) fun w => (dat3 (E7 m ρ) c).arrAt w cfg3.N
theorem W8_arr (w : Fin cfg3.W) :
    W8 m ρ c (Proc.devRef .tc (Pipeline.arrRef spec3 w)) = (dat3 (E7 m ρ) c).arrAt w cfg3.N :=
  Pipeline.withArrays_arr spec3 launch3.win.arr_inj c _ _ w
theorem W8_keep (h : r ∉ ([main_v49] : List (Ref sig .tc))) :
    W8 m ρ c (Proc.devRef .tc r) = W7 m ρ c (Proc.devRef .tc r) :=
  withArrays_keep c r launch3.win.arr_inj (dat3 (E7 m ρ) c) _ (A_eq3 (E7 m ρ) c) _ (by decide) h

abbrev W9 : Dev nD → Valuation τ sig (Elt F) := fun c => StableHlo.after hostOps4 (W8 m ρ c)
theorem W9_keep (h : r ∉ hostOps4_W) : W9 m ρ c (Proc.devRef .tc r) = W8 m ρ c (Proc.devRef .tc r) :=
  StableHlo.after_of_writes_sub hostOps4 _ hostOps4_writes h
abbrev E9 : (c : Dev nD) → (b : Ref sig .tc) → Buf (Elt F) ((c : Thread nD τ).loc b) := fun c b => W9 m ρ c b
def W10 : Valuation τ sig (Elt F) :=
  Pipeline.withArrays spec4 c (W9 m ρ c) fun w => (dat4 (E9 m ρ) c).arrAt w cfg4.N
theorem W10_arr (w : Fin cfg4.W) :
    W10 m ρ c (Proc.devRef .tc (Pipeline.arrRef spec4 w)) = (dat4 (E9 m ρ) c).arrAt w cfg4.N :=
  Pipeline.withArrays_arr spec4 launch4.win.arr_inj c _ _ w
theorem W10_keep (h : r ∉ ([main_v63_0, main_v63_1, main_v63_2] : List (Ref sig .tc))) :
    W10 m ρ c (Proc.devRef .tc r) = W9 m ρ c (Proc.devRef .tc r) :=
  withArrays_keep c r launch4.win.arr_inj (dat4 (E9 m ρ) c) _ (A_eq4 (E9 m ρ) c) _ (by decide) h

abbrev W11 : Dev nD → Valuation τ sig (Elt F) := fun c => StableHlo.after hostOps5 (W10 m ρ c)
theorem W11_keep (h : r ∉ hostOps5_W) : W11 m ρ c (Proc.devRef .tc r) = W10 m ρ c (Proc.devRef .tc r) :=
  StableHlo.after_of_writes_sub hostOps5 _ hostOps5_writes h
abbrev E11 : (c : Dev nD) → (b : Ref sig .tc) → Buf (Elt F) ((c : Thread nD τ).loc b) := fun c b => W11 m ρ c b
def W12 : Valuation τ sig (Elt F) :=
  Pipeline.withArrays spec5 c (W11 m ρ c) fun w => (dat5 (E11 m ρ) c).arrAt w cfg5.N
theorem W12_arr (w : Fin cfg5.W) :
    W12 m ρ c (Proc.devRef .tc (Pipeline.arrRef spec5 w)) = (dat5 (E11 m ρ) c).arrAt w cfg5.N :=
  Pipeline.withArrays_arr spec5 launch5.win.arr_inj c _ _ w
theorem W12_keep (h : r ∉ ([main_v72] : List (Ref sig .tc))) :
    W12 m ρ c (Proc.devRef .tc r) = W11 m ρ c (Proc.devRef .tc r) :=
  withArrays_keep c r launch5.win.arr_inj (dat5 (E11 m ρ) c) _ (A_eq5 (E11 m ρ) c) _ (by decide) h

abbrev W13 : Dev nD → Valuation τ sig (Elt F) := fun c => StableHlo.after hostOps6 (W12 m ρ c)
theorem W13_keep (h : r ∉ hostOps6_W) : W13 m ρ c (Proc.devRef .tc r) = W12 m ρ c (Proc.devRef .tc r) :=
  StableHlo.after_of_writes_sub hostOps6 _ hostOps6_writes h
abbrev E13 : (c : Dev nD) → (b : Ref sig .tc) → Buf (Elt F) ((c : Thread nD τ).loc b) := fun c b => W13 m ρ c b
def W14 : Valuation τ sig (Elt F) :=
  Pipeline.withArrays spec6 c (W13 m ρ c) fun w => (dat6 (E13 m ρ) c).arrAt w cfg6.N
theorem W14_arr (w : Fin cfg6.W) :
    W14 m ρ c (Proc.devRef .tc (Pipeline.arrRef spec6 w)) = (dat6 (E13 m ρ) c).arrAt w cfg6.N :=
  Pipeline.withArrays_arr spec6 launch6.win.arr_inj c _ _ w
theorem W14_keep (h : r ∉ ([main_v80] : List (Ref sig .tc))) :
    W14 m ρ c (Proc.devRef .tc r) = W13 m ρ c (Proc.devRef .tc r) :=
  withArrays_keep c r launch6.win.arr_inj (dat6 (E13 m ρ) c) _ (A_eq6 (E13 m ρ) c) _ (by decide) h

-- A reference in none of the fourteen written lists holds at the end what it held at the start.
theorem W14_input : r ∉ hostOps0_W ∧ r ∉ ([main_v17_0, main_v17_1, main_v17_2] : List (Ref sig .tc)) ∧
    r ∉ hostOps1_W ∧ r ∉ ([main_v26] : List (Ref sig .tc)) ∧
    r ∉ hostOps2_W ∧ r ∉ ([main_v40_0, main_v40_1, main_v40_2] : List (Ref sig .tc)) ∧
    r ∉ hostOps3_W ∧ r ∉ ([main_v49] : List (Ref sig .tc)) ∧
    r ∉ hostOps4_W ∧ r ∉ ([main_v63_0, main_v63_1, main_v63_2] : List (Ref sig .tc)) ∧
    r ∉ hostOps5_W ∧ r ∉ ([main_v72] : List (Ref sig .tc)) ∧
    r ∉ hostOps6_W ∧ r ∉ ([main_v80] : List (Ref sig .tc)) →
    W14 m ρ c (Proc.devRef .tc r) = m ((c : Thread nD τ).loc r)
  | ⟨h1, h2, h3, h4, h5, h6, h7, h8, h9, h10, h11, h12, h13, h14⟩ =>
    (W14_keep m ρ c r h14).trans <| (W13_keep m ρ c r h13).trans <| (W12_keep m ρ c r h12).trans <| (W11_keep m ρ c r h11).trans <|
    (W10_keep m ρ c r h10).trans <| (W9_keep m ρ c r h9).trans <| (W8_keep m ρ c r h8).trans <| (W7_keep m ρ c r h7).trans <|
    (W6_keep m ρ c r h6).trans <| (W5_keep m ρ c r h5).trans <| (W4_keep m ρ c r h4).trans <| (W3_keep m ρ c r h3).trans <|
    (W2_keep m ρ c r h2).trans <| W1_keep m ρ c r h1

end Cert.KernelIdeal.Rg

end
-- ==== Proof.KI.Run.lean ====
import proofs.«406370_j7258494730854_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem owesAt_intro {cfg : Pipeline.Cfg sig Λ₀} {c : Dev nD} (d : Dat τ (Elt F) Unit ℕ (UR sig nD τ) ℕ cfg c) (t : Fin (cfg.N + 1))
    (ho : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound
  rw [ho, hr]
  iintro ⟨%W, HO⟩; iexists W; isplitr; · ipureintro; exact fun _ _ => Or.inl trivial
  iexact HO

theorem owesAt_elim {cfg : Pipeline.Cfg sig Λ₀} {c : Dev nD} (d : Dat τ (Elt F) Unit ℕ (UR sig nD τ) ℕ cfg c) (t : Fin (cfg.N + 1))
    (ho : d.owed t = 0) :
    d.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

def pdats : (p : Fin 7) → (c : Dev nD) → Dat τ (Elt F) Unit ℕ (UR sig nD τ) ℕ (cfgs p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

-- The seven regions differ only in their data: one segment for all, from the valuation `V` to `V` overridden at the region's arrays.
set_option backward.isDefEq.respectTransparency.types false in
def reg {p : Fin 7} (lf : Pipeline.LaunchFacts (nD := nD) (τ := τ) cfgs p) (V : Dev nD → Valuation τ sig (Elt F))
    (hb : ∀ c, BodyObligation (pdats m ρ p c) defs₀ 𝒱₀ () Set.univ)
    (ho : ∀ c t, (pdats m ρ p c).owed t = 0) (hr : ∀ c t, (pdats m ρ p c).recorded t = Set.univ)
    (hs : ∀ c w, (pdats m ρ p c).share w = fullShare)
    (hA : ∀ c w, (pdats m ρ p c).A w = V c (Pipeline.arrRef (cfgs p).spec w))
    (hi : ∀ c, Pipeline.ΦA (cfgs p).spec c ⊢ (pdats m ρ p c).Φ 0)
    (hu : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) lf.win lf.arr_whole c
      (hs c) (fun b => V c b) (hA c)
    rw [Pipeline.unscopedBufs_held] at hsplit
    have howes := owesAt_intro (pdats m ρ p c) 0 (ho c 0) (hr c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (hu c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) (hs c) (fun b => V c b)
      (fun b => Pipeline.withArrays (cfgs p).spec c (V c) (fun w => (pdats m ρ p c).arrAt w (cfgs p).N) b)
      ((pdats m ρ p c).arrAt · (cfgs p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    have howes := owesAt_elim (pdats m ρ p c) (Fin.last _) (ho c (Fin.last _))
    iintro ⟨Ha, HO, HY, Hrest⟩
    imodintro
    isplitl [Ha Hrest]
    · iapply hjoin; isplitl [Ha] <;> iassumption
    isplitl [HY]; · iexact HY
    iapply howes; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ launch0 (W1 m ρ) (body_obligation0 _) (owed0 _) (recorded0 _) (share0 _) (A_eq0 _) (hin0 _) (hout0 _)),
    .host (hseg hostOps1 hostOps1_sub hostOps1_fresh (W2 m ρ)),
    .region (reg m ρ launch1 (W3 m ρ) (body_obligation1 _) (owed1 _) (recorded1 _) (share1 _) (A_eq1 _) (hin1 _) (hout1 _)),
    .host (hseg hostOps2 hostOps2_sub hostOps2_fresh (W4 m ρ)),
    .region (reg m ρ launch2 (W5 m ρ) (body_obligation2 _) (owed2 _) (recorded2 _) (share2 _) (A_eq2 _) (hin2 _) (hout2 _)),
    .host (hseg hostOps3 hostOps3_sub hostOps3_fresh (W6 m ρ)),
    .region (reg m ρ launch3 (W7 m ρ) (body_obligation3 _) (owed3 _) (recorded3 _) (share3 _) (A_eq3 _) (hin3 _) (hout3 _)),
    .host (hseg hostOps4 hostOps4_sub hostOps4_fresh (W8 m ρ)),
    .region (reg m ρ launch4 (W9 m ρ) (body_obligation4 _) (owed4 _) (recorded4 _) (share4 _) (A_eq4 _) (hin4 _) (hout4 _)),
    .host (hseg hostOps5 hostOps5_sub hostOps5_fresh (W10 m ρ)),
    .region (reg m ρ launch5 (W11 m ρ) (body_obligation5 _) (owed5 _) (recorded5 _) (share5 _) (A_eq5 _) (hin5 _) (hout5 _)),
    .host (hseg hostOps6 hostOps6_sub hostOps6_fresh (W12 m ρ)),
    .region (reg m ρ launch6 (W13 m ρ) (body_obligation6 _) (owed6 _) (recorded6 _) (share6 _) (A_eq6 _) (hin6 _) (hout6 _)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

theorem run_val : θ_run defs (onTc (τ := τ) (main (F := F))) ⟨m, fun _ => 0, ρ⟩ (fun r => ∀ c : Dev nD,
      r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨h c _ (mem_uc main_v80 (by decide)), by
    and_intros <;> exact (h c _ (mem_uc _ (by decide))).trans (W14_input m ρ c _ (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => (h c).2) (run_val m ρ)

end Cert.KernelIdeal.Rg

end
-- ==== Proof.Spec.lean ====
import Idealize.ShloMosaic.PureOps.Ideal

noncomputable section

namespace Cert.Spec

open Idealize.ShloMosaic

abbrev Nn : ℕ := 100000

def cN : EReal := Ideal.ofBits .f32 0x47C35000#32
def cEps : EReal := Ideal.ofBits .f32 0x3727C5AC#32
def cTiny : EReal := Ideal.ofBits .f32 0x2B8CBCCC#32
def cOne : EReal := Ideal.ofBits .f32 0x3F800000#32

def IsFin {α β : Type} (h : α → β → EReal) : Prop := ∀ a b, ∃ r : ℝ, h a b = (r : EReal)
def IsFin1 {α : Type} (v : α → EReal) : Prop := ∀ a, ∃ r : ℝ, v a = (r : EReal)

structure Params (K : ℕ) where
  w1 : Fin K → Fin 64 → EReal
  b1 : Fin 64 → EReal
  w2 : Fin 64 → Fin 64 → EReal
  b2 : Fin 64 → EReal
  g : Fin 64 → EReal
  be : Fin 64 → EReal

def Params.IsFin {K : ℕ} (p : Params K) : Prop :=
  Spec.IsFin p.w1 ∧ IsFin1 p.b1 ∧ Spec.IsFin p.w2 ∧ IsFin1 p.b2 ∧ IsFin1 p.g ∧ IsFin1 p.be

/-- The two-layer perceptron applied to every row. -/
def mlp {K : ℕ} (p : Params K) (a : Fin Nn → Fin K → EReal) : Fin Nn → Fin 64 → EReal :=
  fun n d => (∑ k : Fin 64, max ((∑ j : Fin K, a n j * p.w1 j k) + p.b1 k) 0 * p.w2 k d) + p.b2 d

/-- A column's mean over the nodes. -/
def meanOf (h : Fin Nn → Fin 64 → EReal) (d : Fin 64) : EReal := Ideal.div (∑ n : Fin Nn, h n d) cN

/-- A column's variance as the mean of squares minus the squared mean. -/
def varK (h : Fin Nn → Fin 64 → EReal) (d : Fin 64) : EReal :=
  Ideal.div (∑ n : Fin Nn, h n d * h n d) cN - meanOf h d * meanOf h d

/-- A column's variance as the mean of squared deviations from the mean. -/
def varR (h : Fin Nn → Fin 64 → EReal) (d : Fin 64) : EReal :=
  Ideal.div (∑ n : Fin Nn, (h n d - meanOf h d) * (h n d - meanOf h d)) cN

/-- Normalise each column by its mean and the given variance, scale, shift, clamp at zero. -/
def bn (v : Fin 64 → EReal) (g be : Fin 64 → EReal) (h : Fin Nn → Fin 64 → EReal) : Fin Nn → Fin 64 → EReal :=
  fun n d => max ((((h n d - meanOf h d) * Ideal.rsqrt (v d + cEps)) * g d) + be d) 0

def layerK {K : ℕ} (A : (Fin Nn → Fin K → EReal) → Fin Nn → Fin K → EReal) (p : Params K) (x : Fin Nn → Fin K → EReal) :
    Fin Nn → Fin 64 → EReal :=
  bn (varK (mlp p (A x))) p.g p.be (mlp p (A x))
def layerR {K : ℕ} (A : (Fin Nn → Fin K → EReal) → Fin Nn → Fin K → EReal) (p : Params K) (x : Fin Nn → Fin K → EReal) :
    Fin Nn → Fin 64 → EReal :=
  bn (varR (mlp p (A x))) p.g p.be (mlp p (A x))

/-- Per-graph sums of the rows. -/
def pool (h : Fin Nn → Fin 64 → EReal) (bt : Fin Nn → BitVec 32) : Fin 1024 → Fin 64 → EReal :=
  fun g d => ∑ n : Fin Nn, if (bt n).toInt = (g.val : ℤ) then h n d else 0

def proj (P : Fin 1024 → Fin 64 → EReal) (cnt : Fin 1024 → EReal) (pw : Fin 64 → Fin 64 → EReal) (pb : Fin 64 → EReal) :
    Fin 1024 → Fin 64 → EReal :=
  fun g d => (∑ k : Fin 64, Ideal.div (P g k) (max (cnt g) cOne) * pw k d) + pb d

/-- Divide the pooled rows by the graph sizes, project, and scale each row to unit length. -/
def head (P : Fin 1024 → Fin 64 → EReal) (cnt : Fin 1024 → EReal) (pw : Fin 64 → Fin 64 → EReal) (pb : Fin 64 → EReal) :
    Fin 1024 → Fin 64 → EReal :=
  fun g d => Ideal.div (proj P cnt pw pb g d) (max (Ideal.sqrt (∑ e : Fin 64, proj P cnt pw pb g e * proj P cnt pw pb g e)) cTiny)

def outK (A7 : (Fin Nn → Fin 7 → EReal) → Fin Nn → Fin 7 → EReal) (A64 : (Fin Nn → Fin 64 → EReal) → Fin Nn → Fin 64 → EReal)
    (p0 : Params 7) (p1 p2 : Params 64) (x : Fin Nn → Fin 7 → EReal) (bt : Fin Nn → BitVec 32) (cnt : Fin 1024 → EReal)
    (pw : Fin 64 → Fin 64 → EReal) (pb : Fin 64 → EReal) : Fin 1024 → Fin 64 → EReal :=
  head (pool (layerK A64 p2 (layerK A64 p1 (layerK A7 p0 x))) bt) cnt pw pb
def outR (A7 : (Fin Nn → Fin 7 → EReal) → Fin Nn → Fin 7 → EReal) (A64 : (Fin Nn → Fin 64 → EReal) → Fin Nn → Fin 64 → EReal)
    (p0 : Params 7) (p1 p2 : Params 64) (x : Fin Nn → Fin 7 → EReal) (bt : Fin Nn → BitVec 32) (cnt : Fin 1024 → EReal)
    (pw : Fin 64 → Fin 64 → EReal) (pb : Fin 64 → EReal) : Fin 1024 → Fin 64 → EReal :=
  head (pool (layerR A64 p2 (layerR A64 p1 (layerR A7 p0 x))) bt) cnt pw pb

end Cert.Spec

end
-- ==== Proof.SpecLaws.lean ====
import proofs.«406370_j7258494730854_1_alg».proof.Proof.Spec

noncomputable section

namespace Cert.Spec

open Idealize.ShloMosaic

theorem cN_eq : cN = ((100000 : ℝ) : EReal) := by
  simp [cN, Ideal.ofBits, Ideal.ieee, -EReal.coe_mul]; norm_num

theorem cEps_pos : ∃ e : ℝ, 0 < e ∧ cEps = (e : EReal) := by
  refine ⟨(10995116 : ℝ) * (2:ℝ)^(-40 : ℤ), by positivity, ?_⟩
  simp [cEps, Ideal.ofBits, Ideal.ieee, -EReal.coe_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsFin.exists_real {α β : Type} {h : α → β → EReal} (hf : IsFin h) :
    ∃ r : α → β → ℝ, h = fun a b => (r a b : EReal) := by
  choose r hr using hf
  exact ⟨r, funext fun a => funext fun b => hr a b⟩

theorem IsFin1.exists_real {α : Type} {v : α → EReal} (hv : IsFin1 v) : ∃ r : α → ℝ, v = fun a => (r a : EReal) := by
  choose r hr using hv
  exact ⟨r, funext fun a => hr a⟩

theorem meanOf_coe (r : Fin Nn → Fin 64 → ℝ) (d : Fin 64) :
    meanOf (fun n d => (r n d : EReal)) d = (((∑ n : Fin Nn, r n d) * (1 / 100000) : ℝ) : EReal) := by
  unfold meanOf
  rw [cN_eq, Ideal.div_coe (by norm_num), ← coe_sum, ← EReal.coe_mul]

theorem varK_coe (r : Fin Nn → Fin 64 → ℝ) (d : Fin 64) :
    varK (fun n d => (r n d : EReal)) d =
      (((∑ n : Fin Nn, r n d * r n d) * (1 / 100000)
        - ((∑ n : Fin Nn, r n d) * (1 / 100000)) * ((∑ n : Fin Nn, r n d) * (1 / 100000)) : ℝ) : EReal) := by
  unfold varK
  rw [meanOf_coe, cN_eq, Ideal.div_coe (by norm_num)]
  simp only [← EReal.coe_mul, ← coe_sum, ← EReal.coe_sub]

theorem varR_coe (r : Fin Nn → Fin 64 → ℝ) (d : Fin 64) :
    varR (fun n d => (r n d : EReal)) d =
      (((∑ n : Fin Nn, (r n d - (∑ n : Fin Nn, r n d) * (1 / 100000)) * (r n d - (∑ n : Fin Nn, r n d) * (1 / 100000)))
          * (1 / 100000) : ℝ) : EReal) := by
  unfold varR
  rw [meanOf_coe, cN_eq, Ideal.div_coe (by norm_num)]
  simp only [← EReal.coe_mul, ← coe_sum, ← EReal.coe_sub]

/-- Over the reals the mean of squared deviations is the mean of squares minus the squared mean. -/
theorem var_real (f : Fin Nn → ℝ) :
    (∑ n : Fin Nn, (f n - (∑ n : Fin Nn, f n) * (1 / 100000)) * (f n - (∑ n : Fin Nn, f n) * (1 / 100000))) * (1 / 100000)
      = (∑ n : Fin Nn, f n * f n) * (1 / 100000)
        - ((∑ n : Fin Nn, f n) * (1 / 100000)) * ((∑ n : Fin Nn, f n) * (1 / 100000)) := by
  generalize hμ : (∑ n : Fin Nn, f n) * (1 / 100000) = μ
  have h1 : ∀ n : Fin Nn, (f n - μ) * (f n - μ) = f n * f n - 2 * μ * f n + μ * μ := fun n => by ring
  simp only [h1]
  rw [Finset.sum_add_distrib, Finset.sum_sub_distrib, ← Finset.mul_sum, Finset.sum_const, Finset.card_univ,
    Fintype.card_fin, nsmul_eq_mul]
  have hS : (∑ n : Fin Nn, f n) = 100000 * μ := by rw [← hμ]; ring
  rw [hS]
  simp only [Nn]
  push_cast
  ring

/-- So the two variances agree on an entrywise real array. -/
theorem var_eq (h : Fin Nn → Fin 64 → EReal) (hf : IsFin h) : varK h = varR h := by
  obtain ⟨r, rfl⟩ := hf.exists_real
  funext d
  rw [varK_coe, varR_coe, var_real (fun n => r n d)]

theorem isR_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem isR_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem isR_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem isR_zero : ∃ r : ℝ, (0 : EReal) = (r : EReal) := ⟨0, EReal.coe_zero.symm⟩

theorem isR_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

theorem isR_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact isR_add (hf a (Finset.mem_insert_self a s)) (ih fun i hi => hf i (Finset.mem_insert_of_mem hi))

theorem isR_div_cN {x : EReal} (hx : ∃ r : ℝ, x = (r : EReal)) : ∃ r : ℝ, Ideal.div x cN = (r : EReal) := by
  rw [cN_eq, Ideal.div_coe (by norm_num)]
  exact isR_mul hx ⟨_, rfl⟩

theorem isR_rsqrt {r : ℝ} (hr : 0 < r) : ∃ s : ℝ, Ideal.rsqrt (r : EReal) = (s : EReal) :=
  ⟨(Real.sqrt r)⁻¹, by rw [Ideal.rsqrt_coe, if_neg (not_lt.2 hr.le), if_neg hr.ne']⟩

theorem isFin_mlp {K : ℕ} (p : Params K) (hp : p.IsFin) (a : Fin Nn → Fin K → EReal) (ha : IsFin a) : IsFin (mlp p a) := by
  obtain ⟨hw1, hb1, hw2, hb2, -, -⟩ := hp
  intro n d
  exact isR_add (isR_sum _ _ fun k _ =>
    isR_mul (isR_max (isR_add (isR_sum _ _ fun j _ => isR_mul (ha n j) (hw1 j k)) (hb1 k)) isR_zero) (hw2 k d)) (hb2 d)

theorem isR_meanOf (h : Fin Nn → Fin 64 → EReal) (hf : IsFin h) (d : Fin 64) : ∃ r : ℝ, meanOf h d = (r : EReal) :=
  isR_div_cN (isR_sum _ _ fun n _ => hf n d)

theorem varR_nonneg (h : Fin Nn → Fin 64 → EReal) (hf : IsFin h) (d : Fin 64) :
    ∃ r : ℝ, 0 ≤ r ∧ varR h d = (r : EReal) := by
  obtain ⟨r, rfl⟩ := hf.exists_real
  refine ⟨_, ?_, varR_coe r d⟩
  exact mul_nonneg (Finset.sum_nonneg fun n _ => mul_self_nonneg _) (by norm_num)

theorem isFin_bn (v : Fin 64 → EReal) (hv : ∀ d, ∃ r : ℝ, 0 ≤ r ∧ v d = (r : EReal)) (g be : Fin 64 → EReal)
    (hg : IsFin1 g) (hbe : IsFin1 be) (h : Fin Nn → Fin 64 → EReal) (hf : IsFin h) : IsFin (bn v g be h) := by
  intro n d
  obtain ⟨r, hr0, hr⟩ := hv d
  obtain ⟨e, he0, he⟩ := cEps_pos
  have hrs : ∃ s : ℝ, Ideal.rsqrt (v d + cEps) = (s : EReal) := by
    rw [hr, he, ← EReal.coe_add]; exact isR_rsqrt (by linarith)
  exact isR_max (isR_add (isR_mul (isR_mul (isR_sub (hf n d) (isR_meanOf h hf d)) hrs) (hg d)) (hbe d)) isR_zero

theorem isFin_bn_varR (g be : Fin 64 → EReal) (hg : IsFin1 g) (hbe : IsFin1 be) (h : Fin Nn → Fin 64 → EReal)
    (hf : IsFin h) : IsFin (bn (varR h) g be h) :=
  isFin_bn (varR h) (varR_nonneg h hf) g be hg hbe h hf

/-- A layer computed either way is the same on real inputs, and stays real. -/
theorem layer_eq {K : ℕ} (A : (Fin Nn → Fin K → EReal) → Fin Nn → Fin K → EReal) (hA : ∀ x, IsFin x → IsFin (A x))
    (p : Params K) (hp : p.IsFin) (x : Fin Nn → Fin K → EReal) (hx : IsFin x) :
    layerK A p x = layerR A p x ∧ IsFin (layerR A p x) := by
  have hm : IsFin (mlp p (A x)) := isFin_mlp p hp (A x) (hA x hx)
  refine ⟨?_, ?_⟩
  · unfold layerK layerR; rw [var_eq _ hm]
  · exact isFin_bn_varR p.g p.be hp.2.2.2.2.1 hp.2.2.2.2.2 _ hm

theorem out_eq (A7 : (Fin Nn → Fin 7 → EReal) → Fin Nn → Fin 7 → EReal)
    (A64 : (Fin Nn → Fin 64 → EReal) → Fin Nn → Fin 64 → EReal)
    (hA7 : ∀ x, IsFin x → IsFin (A7 x)) (hA64 : ∀ x, IsFin x → IsFin (A64 x))
    (p0 : Params 7) (p1 p2 : Params 64) (hp0 : p0.IsFin) (hp1 : p1.IsFin) (hp2 : p2.IsFin)
    (x : Fin Nn → Fin 7 → EReal) (hx : IsFin x) (bt : Fin Nn → BitVec 32) (cnt : Fin 1024 → EReal)
    (pw : Fin 64 → Fin 64 → EReal) (pb : Fin 64 → EReal) :
    outK A7 A64 p0 p1 p2 x bt cnt pw pb = outR A7 A64 p0 p1 p2 x bt cnt pw pb := by
  obtain ⟨e0, f0⟩ := layer_eq A7 hA7 p0 hp0 x hx
  obtain ⟨e1, f1⟩ := layer_eq A64 hA64 p1 hp1 _ f0
  obtain ⟨e2, -⟩ := layer_eq A64 hA64 p2 hp2 _ f1
  unfold outK outR
  rw [e0, e1, e2]

theorem isFin_gather {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx _

theorem isFin_scatterAdd {s si u : Shape} {w : Nat} {φ : FTy} (d : ScatterDims s si u) (x : FVec Ideal s φ)
    (idx : IVec si w) (upd : FVec Ideal u φ) (hx : ∀ i, ∃ r : ℝ, (x i : EReal) = (r : EReal))
    (hu : ∀ j, ∃ r : ℝ, (upd j : EReal) = (r : EReal)) :
    ∀ i, ∃ r : ℝ, (Host.scatterAdd (F := Ideal) d x idx upd i : EReal) = (r : EReal) := by
  intro i
  rw [Host.scatterAdd, Ideal.hostScatterAdd_def, Ideal.hostScatterAdd]
  exact isR_add (hx i) (isR_sum _ _ fun j _ => hu j)

end Cert.Spec

end
-- ==== Proof.SpecIdx.lean ====
import proofs.«406370_j7258494730854_1_alg».proof.Proof.SpecLaws
import Idealize.ShloMosaic.Lib.ValueIdx

noncomputable section

namespace Cert.Spec

open Idealize.ShloMosaic Idealize.ShloMosaic.ValueIdx

def cur {a b : ℕ} (v : (⟨2, ![a, b]⟩ : Shape).Idx → EReal) : Fin a → Fin b → EReal := fun i j => v (ix2 i j)

def cur1 {a : ℕ} (v : (⟨1, ![a]⟩ : Shape).Idx → EReal) : Fin a → EReal := fun i => v (ix1 i)

def unc {a b : ℕ} (f : Fin a → Fin b → EReal) : (⟨2, ![a, b]⟩ : Shape).Idx → EReal := fun j => f (j 0) (j 1)

theorem unc_cur {a b : ℕ} (v : (⟨2, ![a, b]⟩ : Shape).Idx → EReal) : unc (cur v) = v := by
  funext j; unfold unc cur; exact congrArg v (eq_ix2 j).symm

/-- An operation on arrays indexed by tuples, carried to arrays indexed by coordinates. -/
def liftA {a b : ℕ} (G : ((⟨2, ![a, b]⟩ : Shape).Idx → EReal) → (⟨2, ![a, b]⟩ : Shape).Idx → EReal) :
    (Fin a → Fin b → EReal) → Fin a → Fin b → EReal := fun f => cur (G (unc f))

theorem liftA_cur {a b : ℕ} (G : ((⟨2, ![a, b]⟩ : Shape).Idx → EReal) → (⟨2, ![a, b]⟩ : Shape).Idx → EReal)
    (v : (⟨2, ![a, b]⟩ : Shape).Idx → EReal) : liftA G (cur v) = cur (G v) := by
  unfold liftA; rw [unc_cur]

theorem isFin_liftA {a b : ℕ} (G : ((⟨2, ![a, b]⟩ : Shape).Idx → EReal) → (⟨2, ![a, b]⟩ : Shape).Idx → EReal)
    (hG : ∀ v, (∀ i, ∃ r : ℝ, v i = (r : EReal)) → ∀ i, ∃ r : ℝ, G v i = (r : EReal))
    (f : Fin a → Fin b → EReal) (hf : IsFin f) : IsFin (liftA G f) :=
  fun i j => hG (unc f) (fun k => hf (k 0) (k 1)) (ix2 i j)

theorem isFin_cur {a b : ℕ} (v : (⟨2, ![a, b]⟩ : Shape).Idx → EReal) (hv : ∀ i, ∃ r : ℝ, v i = (r : EReal)) : IsFin (cur v) :=
  fun i j => hv (ix2 i j)

theorem isFin1_cur1 {a : ℕ} (v : (⟨1, ![a]⟩ : Shape).Idx → EReal) (hv : ∀ i, ∃ r : ℝ, v i = (r : EReal)) : IsFin1 (cur1 v) :=
  fun i => hv (ix1 i)

def params {K : ℕ} (w1 : (⟨2, ![K, 64]⟩ : Shape).Idx → EReal) (b1 : (⟨1, ![64]⟩ : Shape).Idx → EReal)
    (w2 : (⟨2, ![64, 64]⟩ : Shape).Idx → EReal) (b2 g be : (⟨1, ![64]⟩ : Shape).Idx → EReal) : Params K :=
  ⟨cur w1, cur1 b1, cur w2, cur1 b2, cur1 g, cur1 be⟩

theorem params_isFin {K : ℕ} (w1 : (⟨2, ![K, 64]⟩ : Shape).Idx → EReal) (b1 : (⟨1, ![64]⟩ : Shape).Idx → EReal)
    (w2 : (⟨2, ![64, 64]⟩ : Shape).Idx → EReal) (b2 g be : (⟨1, ![64]⟩ : Shape).Idx → EReal)
    (h1 : ∀ i, ∃ r : ℝ, w1 i = (r : EReal)) (h2 : ∀ i, ∃ r : ℝ, b1 i = (r : EReal)) (h3 : ∀ i, ∃ r : ℝ, w2 i = (r : EReal))
    (h4 : ∀ i, ∃ r : ℝ, b2 i = (r : EReal)) (h5 : ∀ i, ∃ r : ℝ, g i = (r : EReal)) (h6 : ∀ i, ∃ r : ℝ, be i = (r : EReal)) :
    (params w1 b1 w2 b2 g be).IsFin :=
  ⟨isFin_cur w1 h1, isFin1_cur1 b1 h2, isFin_cur w2 h3, isFin1_cur1 b2 h4, isFin1_cur1 g h5, isFin1_cur1 be h6⟩

end Cert.Spec

end
-- ==== Proof.KI.HostVal.lean ====
import proofs.«406370_j7258494730854_1_alg».proof.Proof.Gen.KernelIdeal.Regions
import proofs.«406370_j7258494730854_1_alg».proof.Proof.SpecIdx
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

def srcIds (e : IVec S2x1600000 32) : IVec S1600000 32 :=
  shapeCast S1600000 (extractStridedSlice S1x1600000 ![0, 0] e slices_S2x1600000_S1x1600000_0_0) shapeCasts_S1x1600000_S1600000
def dstIds (e : IVec S2x1600000 32) : IVec S1600000 32 :=
  shapeCast S1600000 (extractStridedSlice S1x1600000 ![1, 0] e slices_S2x1600000_S1x1600000_1_0) shapeCasts_S1x1600000_S1600000

def wrapIds (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def aggOf7 (s t : IVec S1600000 32) (x : FVec Ideal S100000x7 .f32) : FVec Ideal S100000x7 .f32 :=
  addf (Host.scatterAdd scatter_S100000x7_S1600000x1_S1600000x7_1_0_0_1
      (broadcastInDim S100000x7 ![] bcast_S_S100000x7 (constant (F := Ideal) S_ .f32 0x00000000#32))
      (broadcastInDim S1600000x1 ![0] bcast_S1600000_S1600000x1_0 t)
      (Host.gather gather_S100000x7_S1600000x1_S1600000x7_1_0_n_n_0_1_17 x (wrapIds s))) x

def aggOf64 (s t : IVec S1600000 32) (h : FVec Ideal S100000x64 .f32) : FVec Ideal S100000x64 .f32 :=
  addf (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 t)
      (Host.gather gather_S100000x64_S1600000x1_S1600000x64_1_0_n_n_0_1_164 h (wrapIds s))) h

def aggK7 (e : IVec S2x1600000 32) (x : FVec Ideal S100000x7 .f32) : FVec Ideal S100000x7 .f32 :=
  aggOf7 (srcIds e) (dstIds e) x

def aggK64 (e : IVec S2x1600000 32) (h : FVec Ideal S100000x64 .f32) : FVec Ideal S100000x64 .f32 :=
  aggOf64 (srcIds e) (dstIds e) h

def countsK (batch : IVec S100000 32) : FVec Ideal S1024 .f32 :=
  Host.scatterAdd scatter_S1024_S100000x1_S100000_n_0_0_1
    (broadcastInDim S1024 ![] bcast_S_S1024 (constant (F := Ideal) S_ .f32 0x00000000#32))
    (broadcastInDim S100000x1 ![0] bcast_S100000_S100000x1_0 batch)
    (broadcastInDim S100000 ![] bcast_S_S100000 (constant (F := Ideal) S_ .f32 0x3F800000#32))

variable (V : Valuation τ sig (Elt Ideal))

private abbrev cNrow : FVec Ideal S1x64 .f32 := broadcastInDim S1x64 ![] bcast_S_S1x64 (constant (F := Ideal) S_ .f32 0x47C35000#32)

private theorem bcN (d : Fin 64) : cNrow (ix2 0 d) = Cert.Spec.cN := by
  unfold Cert.Spec.cN; rfl

-- a vector recast as a one-column matrix, read in that column
private theorem col_of {α : Type} {a : ℕ} {x : (⟨2, ![a, 1]⟩ : Shape).Idx → α} {y : (⟨1, ![a]⟩ : Shape).Idx → α}
    {h : (⟨1, ![a]⟩ : Shape).ShapeCasts ⟨2, ![a, 1]⟩} (e : x = shapeCast ⟨2, ![a, 1]⟩ y h) (i : Fin a) :
    x (ix2 i 0) = y (ix1 i) :=
  e ▸ shapeCast_apply y h _ _ (by
    rw [Shape.rowMajor_val_two, Shape.rowMajor_val_one]
    show i.val = i.val * 1 + 0
    omega)

-- a vector recast as a one-row matrix, read in that row
private theorem row_of {x : Vec Ideal S1x64 .f32} {y : Vec Ideal S64 .f32} (e : x = shapeCast S1x64 y shapeCasts_S64_S1x64) (k : Fin 64) :
    x (ix2 0 k) = y (ix1 k) := e ▸ shapeCast_a_1a_apply y _ 0 k

private theorem mean_of {x s : FVec Ideal S1x64 .f32} (e : x = Host.divf s cNrow) (d : Fin 64) :
    x (ix2 0 d) = Ideal.div (s (ix2 0 d)) Cert.Spec.cN := by
  rw [e, hostDivf_apply, bcN]

private theorem var_of {x s q : FVec Ideal S1x64 .f32}
    (e : x = subf (Host.divf q cNrow) (mulf (Host.divf s cNrow) (Host.divf s cNrow))) (d : Fin 64) :
    x (ix2 0 d) = Ideal.div (q (ix2 0 d)) Cert.Spec.cN
      - Ideal.div (s (ix2 0 d)) Cert.Spec.cN * Ideal.div (s (ix2 0 d)) Cert.Spec.cN := by
  rw [e, subf_apply, mulf_apply, hostDivf_apply, hostDivf_apply, bcN]

theorem h0_v1 : (StableHlo.after hostOps0 V (Proc.devRef .tc main_v1) : IVec S1600000 32) = srcIds (V (Proc.devRef .tc main_arg1)) := by
  after_results; rfl
theorem h0_v3 : (StableHlo.after hostOps0 V (Proc.devRef .tc main_v3) : IVec S1600000 32) = dstIds (V (Proc.devRef .tc main_arg1)) := by
  after_results; rfl

theorem h0_v14 : (StableHlo.after hostOps0 V (Proc.devRef .tc main_v14) : Vec Ideal S100000x7 .f32)
    = aggK7 (V (Proc.devRef .tc main_arg1)) (V (Proc.devRef .tc main_arg0)) := by
  after_results_simp
  rfl

theorem h0_v15 (k : Fin 64) : (StableHlo.after hostOps0 V (Proc.devRef .tc main_v15) : Vec Ideal S1x64 .f32) (ix2 0 k)
    = (V (Proc.devRef .tc main_arg4) : Vec Ideal S64 .f32) (ix1 k) := row_of (by after_results; rfl) k
theorem h0_v16 (k : Fin 64) : (StableHlo.after hostOps0 V (Proc.devRef .tc main_v16) : Vec Ideal S1x64 .f32) (ix2 0 k)
    = (V (Proc.devRef .tc main_arg6) : Vec Ideal S64 .f32) (ix1 k) := row_of (by after_results; rfl) k

theorem h1_v19 (d : Fin 64) : (StableHlo.after hostOps1 V (Proc.devRef .tc main_v19) : Vec Ideal S1x64 .f32) (ix2 0 d)
    = Ideal.div ((V (Proc.devRef .tc main_v17_1) : Vec Ideal S1x64 .f32) (ix2 0 d)) Cert.Spec.cN := mean_of (by after_results) d
theorem h1_v23 (d : Fin 64) : (StableHlo.after hostOps1 V (Proc.devRef .tc main_v23) : Vec Ideal S1x64 .f32) (ix2 0 d)
    = Ideal.div ((V (Proc.devRef .tc main_v17_2) : Vec Ideal S1x64 .f32) (ix2 0 d)) Cert.Spec.cN
      - Ideal.div ((V (Proc.devRef .tc main_v17_1) : Vec Ideal S1x64 .f32) (ix2 0 d)) Cert.Spec.cN
        * Ideal.div ((V (Proc.devRef .tc main_v17_1) : Vec Ideal S1x64 .f32) (ix2 0 d)) Cert.Spec.cN := var_of (by after_results) d
theorem h1_v24 (d : Fin 64) : (StableHlo.after hostOps1 V (Proc.devRef .tc main_v24) : Vec Ideal S1x64 .f32) (ix2 0 d)
    = (V (Proc.devRef .tc main_arg7) : Vec Ideal S64 .f32) (ix1 d) := row_of (by after_results; rfl) d
theorem h1_v25 (d : Fin 64) : (StableHlo.after hostOps1 V (Proc.devRef .tc main_v25) : Vec Ideal S1x64 .f32) (ix2 0 d)
    = (V (Proc.devRef .tc main_arg8) : Vec Ideal S64 .f32) (ix1 d) := row_of (by after_results; rfl) d

theorem h2_v37 : (StableHlo.after hostOps2 V (Proc.devRef .tc main_v37) : Vec Ideal S100000x64 .f32)
    = aggOf64 (V (Proc.devRef .tc main_v1)) (V (Proc.devRef .tc main_v3)) (V (Proc.devRef .tc main_v26)) := by
  after_results_simp
  rfl
theorem h2_v38 (k : Fin 64) : (StableHlo.after hostOps2 V (Proc.devRef .tc main_v38) : Vec Ideal S1x64 .f32) (ix2 0 k)
    = (V (Proc.devRef .tc main_arg10) : Vec Ideal S64 .f32) (ix1 k) := row_of (by after_results; rfl) k
theorem h2_v39 (k : Fin 64) : (StableHlo.after hostOps2 V (Proc.devRef .tc main_v39) : Vec Ideal S1x64 .f32) (ix2 0 k)
    = (V (Proc.devRef .tc main_arg12) : Vec Ideal S64 .f32) (ix1 k) := row_of (by after_results; rfl) k

theorem h3_v42 (d : Fin 64) : (StableHlo.after hostOps3 V (Proc.devRef .tc main_v42) : Vec Ideal S1x64 .f32) (ix2 0 d)
    = Ideal.div ((V (Proc.devRef .tc main_v40_1) : Vec Ideal S1x64 .f32) (ix2 0 d)) Cert.Spec.cN := mean_of (by after_results) d
theorem h3_v46 (d : Fin 64) : (StableHlo.after hostOps3 V (Proc.devRef .tc main_v46) : Vec Ideal S1x64 .f32) (ix2 0 d)
    = Ideal.div ((V (Proc.devRef .tc main_v40_2) : Vec Ideal S1x64 .f32) (ix2 0 d)) Cert.Spec.cN
      - Ideal.div ((V (Proc.devRef .tc main_v40_1) : Vec Ideal S1x64 .f32) (ix2 0 d)) Cert.Spec.cN
        * Ideal.div ((V (Proc.devRef .tc main_v40_1) : Vec Ideal S1x64 .f32) (ix2 0 d)) Cert.Spec.cN := var_of (by after_results) d
theorem h3_v47 (d : Fin 64) : (StableHlo.after hostOps3 V (Proc.devRef .tc main_v47) : Vec Ideal S1x64 .f32) (ix2 0 d)
    = (V (Proc.devRef .tc main_arg13) : Vec Ideal S64 .f32) (ix1 d) := row_of (by after_results; rfl) d
theorem h3_v48 (d : Fin 64) : (StableHlo.after hostOps3 V (Proc.devRef .tc main_v48) : Vec Ideal S1x64 .f32) (ix2 0 d)
    = (V (Proc.devRef .tc main_arg14) : Vec Ideal S64 .f32) (ix1 d) := row_of (by after_results; rfl) d

theorem h4_v60 : (StableHlo.after hostOps4 V (Proc.devRef .tc main_v60) : Vec Ideal S100000x64 .f32)
    = aggOf64 (V (Proc.devRef .tc main_v1)) (V (Proc.devRef .tc main_v3)) (V (Proc.devRef .tc main_v49)) := by
  after_results_simp
  rfl
theorem h4_v61 (k : Fin 64) : (StableHlo.after hostOps4 V (Proc.devRef .tc main_v61) : Vec Ideal S1x64 .f32) (ix2 0 k)
    = (V (Proc.devRef .tc main_arg16) : Vec Ideal S64 .f32) (ix1 k) := row_of (by after_results; rfl) k
theorem h4_v62 (k : Fin 64) : (StableHlo.after hostOps4 V (Proc.devRef .tc main_v62) : Vec Ideal S1x64 .f32) (ix2 0 k)
    = (V (Proc.devRef .tc main_arg18) : Vec Ideal S64 .f32) (ix1 k) := row_of (by after_results; rfl) k

theorem h5_v65 (d : Fin 64) : (StableHlo.after hostOps5 V (Proc.devRef .tc main_v65) : Vec Ideal S1x64 .f32) (ix2 0 d)
    = Ideal.div ((V (Proc.devRef .tc main_v63_1) : Vec Ideal S1x64 .f32) (ix2 0 d)) Cert.Spec.cN := mean_of (by after_results) d
theorem h5_v69 (d : Fin 64) : (StableHlo.after hostOps5 V (Proc.devRef .tc main_v69) : Vec Ideal S1x64 .f32) (ix2 0 d)
    = Ideal.div ((V (Proc.devRef .tc main_v63_2) : Vec Ideal S1x64 .f32) (ix2 0 d)) Cert.Spec.cN
      - Ideal.div ((V (Proc.devRef .tc main_v63_1) : Vec Ideal S1x64 .f32) (ix2 0 d)) Cert.Spec.cN
        * Ideal.div ((V (Proc.devRef .tc main_v63_1) : Vec Ideal S1x64 .f32) (ix2 0 d)) Cert.Spec.cN := var_of (by after_results) d
theorem h5_v70 (d : Fin 64) : (StableHlo.after hostOps5 V (Proc.devRef .tc main_v70) : Vec Ideal S1x64 .f32) (ix2 0 d)
    = (V (Proc.devRef .tc main_arg19) : Vec Ideal S64 .f32) (ix1 d) := row_of (by after_results; rfl) d
theorem h5_v71 (d : Fin 64) : (StableHlo.after hostOps5 V (Proc.devRef .tc main_v71) : Vec Ideal S1x64 .f32) (ix2 0 d)
    = (V (Proc.devRef .tc main_arg20) : Vec Ideal S64 .f32) (ix1 d) := row_of (by after_results; rfl) d

theorem h6_v77 (n : Fin 100000) : (StableHlo.after hostOps6 V (Proc.devRef .tc main_v77) : IVec S100000x1 32) (ix2 n 0)
    = (V (Proc.devRef .tc main_arg2) : IVec S100000 32) (ix1 n) := col_of (by after_results; rfl) n
theorem h6_v78 (g : Fin 1024) : (StableHlo.after hostOps6 V (Proc.devRef .tc main_v78) : Vec Ideal S1024x1 .f32) (ix2 g 0)
    = countsK (V (Proc.devRef .tc main_arg2)) (ix1 g) := col_of (by after_results; rfl) g
theorem h6_v79 (d : Fin 64) : (StableHlo.after hostOps6 V (Proc.devRef .tc main_v79) : Vec Ideal S1x64 .f32) (ix2 0 d)
    = (V (Proc.devRef .tc main_arg22) : Vec Ideal S64 .f32) (ix1 d) := row_of (by after_results; rfl) d

end Cert.KernelIdeal.Val

end
-- ==== Proof.LibPlainDot.lean ====
import Idealize.ShloMosaic.Lib.ValueIdx
import Idealize.ShloMosaic.PureOps.Ideal.Laws

noncomputable section

namespace Cert.Lib.PlainDot

open Idealize.ShloMosaic Idealize.ShloMosaic.ValueIdx

variable {M K N : Nat}

abbrev kEquiv (M K N : Nat) : (DotDims.plain M K N).contr.Idx ≃ Fin K :=
  contrEquiv1 (DotDims.plain M K N) K rfl rfl

theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KI.Val0.lean ====
import proofs.«406370_j7258494730854_1_alg».proof.Proof.KI.Rg0
import proofs.«406370_j7258494730854_1_alg».proof.Proof.Spec
import proofs.«406370_j7258494730854_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.ShloMosaic.Pipeline (Dat)

theorem r0_matmulA_apply (x : FVec Ideal S10000x7 .bf16) (w : FVec Ideal S7x64 .bf16) (p : Fin 10000) (q : Fin 64) :
    matmul dot_S10000x7_S7x64_S10000x64_1_0_0_1_n_n none x w (constant (F := Ideal) S10000x64 .f32 0x00000000#32) (ix2 p q)
      = ∑ k : Fin 7, x (ix2 p k) * w (ix2 k q) :=
  Cert.Lib.PlainDot.matmul_zero_apply (M := 10000) (K := 7) (N := 64) none x w p q

theorem r0_matmulB_apply (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) :=
  Cert.Lib.PlainDot.matmul_zero_apply (M := 10000) (K := 64) (N := 64) none x w p q

theorem r0_pay4_apply (x : Vec Ideal S10000x7 .f32) (w1 : Vec Ideal S7x64 .f32) (b1 : Vec Ideal S1x64 .f32)
    (w2 : Vec Ideal S64x64 .f32) (b2 : Vec Ideal S1x64 .f32) (p : Fin 10000) (q : Fin 64) :
    k0_pay4 x w1 b1 w2 b2 (ix2 p q)
      = (∑ k : Fin 64, max ((∑ j : Fin 7, x (ix2 p j) * w1 (ix2 j k)) + b1 (ix2 0 k)) 0 * w2 (ix2 k q)) + b2 (ix2 0 q) := by
  unfold k0_pay4
  simp only [shapeCast_self, addf_apply, maximumf_apply, truncf_apply, broadcast_apply, r0_matmulA_apply, r0_matmulB_apply,
    broadcastTo_1b_ab_apply]
  rw [show (FloatOps.ofBits (F := Ideal) .f32 0x00000000#32 : EReal) = 0 from Ideal.ofBits_zero_f32]

-- One accumulation step: the running row plus the column sums of the block.
theorem r0_colStep (acc : Vec Ideal S1x64 .f32) (h : S1x64.ShapeCasts S1x64) (v : FVec Ideal S10000x64 .f32) (hφ : FKind.Formats FTy.f32)
    (hacc : (0x00000000#32 : BitVec 32) = 0x00000000#32) (q : Fin 64) :
    addf (shapeCast S1x64 acc h) (shapeCast S1x64 (multiReduction (F := Ideal) .add [0] S64 v 0x00000000#32 reduces_S10000x64_S64 hφ hacc) shapeCasts_S64_S1x64) (ix2 0 q)
      = acc (ix2 0 q) + ∑ r : Fin 10000, v (ix2 r q) := by
  rw [shapeCast_self]
  exact (addf_apply _ _ _).trans (congrArg (acc (ix2 0 q) + ·) ((shapeCast_a_1a_apply _ shapeCasts_S64_S1x64 0 q).trans
    ((Ideal.multiReduction_add_single v _ reduces_S10000x64_S64 hφ hacc (ix1 q)).trans
      (Finset.sum_congr rfl fun r _ => congrArg v (Shape.idx_ext₂ rfl rfl)))))

theorem r0_idx_0 : ∀ (t : Fin grid0.N) (k : Fin 8) (a : Fin (win0 k).shape.rank),
    k ≠ 0 ∧ k ≠ 5 ∨ a.val ≠ 0 → (win0 k).index t a = 0 := by decide +kernel

theorem r0_off_t : ∀ t : Fin grid0.N, win0_0.index t (0 : Fin 2) * win0_0.size (0 : Fin 2) = 10000 * t.val
    ∧ win0_5.index t (0 : Fin 2) * win0_5.size (0 : Fin 2) = 10000 * t.val := by decide +kernel

theorem r0_emb_0 (t : Fin cfg0.N) (k : Fin 8) (a : Fin (win0 k).shape.rank) (h : k ≠ 0 ∧ k ≠ 5 ∨ a.val ≠ 0)
    (y : ((win0 k).xblock (grid0.coords t)).Idx) : (((win0 k).rect t).emb y a : ℕ) = y a :=
  (win0 k).rect_emb_val_of_index_zero t a (r0_idx_0 t k a h) y

section Blocks

variable {F : FTy → Type} [FloatOps F]
variable (V : (c : Dev nD) → (b : Ref sig .tc) → Buf (Elt F) ((c : Thread nD τ).loc b)) (c : Dev nD) (t : Fin cfg0.N)

abbrev r0_A : Vec F S100000x7 .f32 := V c (Pipeline.arrRef spec0 0)
abbrev r0_W1 : Vec F S7x64 .f32 := V c (Pipeline.arrRef spec0 1)
abbrev r0_B1 : Vec F S1x64 .f32 := V c (Pipeline.arrRef spec0 2)
abbrev r0_W2 : Vec F S64x64 .f32 := V c (Pipeline.arrRef spec0 3)
abbrev r0_B2 : Vec F S1x64 .f32 := V c (Pipeline.arrRef spec0 4)

abbrev r0_xblk : Vec F S10000x7 .f32 := iblk0 V c 0 t

theorem r0_xblk_apply (p : Fin 10000) (q : Fin 7) (n : Fin 100000) (hn : n.val = 10000 * t.val + p.val) :
    r0_xblk V c t (ix2 p q) = r0_A V c (ix2 n q) :=
  congrArg (r0_A V c) (Shape.idx_ext₂
    (((win0_0.rect_emb_val t _ 0).trans (congrArg (· + p.val) (r0_off_t t).1)).trans hn.symm) (r0_emb_0 t 0 1 (by decide) _))

theorem r0_w1blk_eq : (iblk0 V c 1 t : Vec F S7x64 .f32) = r0_W1 V c :=
  funext fun j => congrArg (r0_W1 V c) (Shape.idx_ext₂ (r0_emb_0 t 1 0 (by decide) j) (r0_emb_0 t 1 1 (by decide) j))
theorem r0_b1blk_eq : (iblk0 V c 2 t : Vec F S1x64 .f32) = r0_B1 V c :=
  funext fun j => congrArg (r0_B1 V c) (Shape.idx_ext₂ (r0_emb_0 t 2 0 (by decide) j) (r0_emb_0 t 2 1 (by decide) j))
theorem r0_w2blk_eq : (iblk0 V c 3 t : Vec F S64x64 .f32) = r0_W2 V c :=
  funext fun j => congrArg (r0_W2 V c) (Shape.idx_ext₂ (r0_emb_0 t 3 0 (by decide) j) (r0_emb_0 t 3 1 (by decide) j))
theorem r0_b2blk_eq : (iblk0 V c 4 t : Vec F S1x64 .f32) = r0_B2 V c :=
  funext fun j => congrArg (r0_B2 V c) (Shape.idx_ext₂ (r0_emb_0 t 4 0 (by decide) j) (r0_emb_0 t 4 1 (by decide) j))

end Blocks

variable (V : (c : Dev nD) → (b : Ref sig .tc) → Buf (Elt Ideal) ((c : Thread nD τ).loc b)) (c : Dev nD)

-- If every written block agrees with G where it lands, and these blocks cover all indices, the array is G.
theorem r0_arr_eq (k : Fin cfg0.W) (G : Buf (Elt Ideal) ((cfg0.win k).arr.view.loc (c.tc : Thread nD τ)))
    (hG : ∀ t, (cfg0.win k).flush t = true → ∀ y,
      HEq ((dat0 V c).after k t ((cfg0.win k).xinj (grid0.coords t) y)) (G (((cfg0.win k).blk t).view.emb y)))
    (hc : ∀ i : ((cfg0.win k).arr.view.loc (c.tc : Thread nD τ)).2.ty.Idx,
      ∃ t, (cfg0.win k).flush t = true ∧ i ∈ ((cfg0.win k).blk t).view.set) : (dat0 V c).arrAt k cfg0.N = G :=
  (dat0 V c).arrAt_eq_of_cover k G (fun t hf => funext fun y => eq_of_heq ((hG t hf y).trans (cast_heq _ _).symm)) hc

section Values

variable (t : Fin cfg0.N)

def r0_hval (n : Fin 100000) (d : Fin 64) : EReal :=
  (∑ k : Fin 64, max ((∑ j : Fin 7, r0_A V c (ix2 n j) * r0_W1 V c (ix2 j k)) + r0_B1 V c (ix2 0 k)) 0
    * r0_W2 V c (ix2 k d)) + r0_B2 V c (ix2 0 d)

def r0_H : Vec Ideal S100000x64 .f32 := fun i => r0_hval V c (i 0) (i 1)

-- Block t of the layer's output is rows 10000 t, …, 10000 t + 9999 of H.
theorem r0_h2At_idx (j : S10000x64.Idx) (i : S100000x64.Idx)
    (h0 : (i 0).val = 10000 * t.val + (j 0).val) (h1 : (i 1).val = (j 1).val) : h2At0 V c t j = r0_H V c i := by
  obtain ⟨p, q, rfl⟩ : ∃ (p : Fin 10000) (q : Fin 64), j = ix2 p q := ⟨j 0, j 1, eq_ix2 j⟩
  unfold h2At0
  rw [r0_w1blk_eq, r0_b1blk_eq, r0_w2blk_eq, r0_b2blk_eq, r0_pay4_apply]
  show _ = r0_hval V c (i 0) (i 1)
  rw [show i 1 = q from Fin.ext h1]
  unfold r0_hval
  simp only [fun j => r0_xblk_apply V c t p j (i 0) h0]

-- The ten row blocks tile the array.
theorem arrAt0_5_eq : (dat0 V c).arrAt 5 cfg0.N = r0_H V c :=
  r0_arr_eq V c 5 (r0_H V c)
    (fun t _ y => heq_of_eq (by
      rw [after0_5]
      exact r0_h2At_idx V c t _ _
        ((win0_5.rect_emb_val t y 0).trans (congrArg (· + _) (r0_off_t t).2)) (r0_emb_0 t 5 1 (by decide) y)))
    fun (i : S100000x64.Idx) => by
      have hi : (i 0).val < 100000 := (i 0).isLt
      have hN : cfg0.N = 10 := N_0
      obtain ⟨t, ht⟩ : ∃ t : Fin cfg0.N, t.val = (i 0).val / 10000 := ⟨⟨_, by omega⟩, rfl⟩
      exact ⟨t, flush0_5 t, Finset.mem_map.mpr ⟨ix2 ⟨(i 0).val % 10000, by omega⟩ (i 1), Finset.mem_univ _, Shape.idx_ext₂
        (((win0_5.rect_emb_val t _ 0).trans (congrArg (· + _) (r0_off_t t).2)).trans (by rw [ht]; exact Nat.div_add_mod _ _))
        (r0_emb_0 t 5 1 (by decide) _)⟩⟩

end Values

section Sums

variable (d : Fin 64) (f : EReal → EReal)

def r0_hcol (i : ℕ) : EReal := if h : i < 100000 then r0_hval V c ⟨i, h⟩ d else 0

theorem r0_h2At_hcol (t : Fin cfg0.N) (r : Fin 10000) :
    h2At0 V c t (ix2 r d) = r0_hcol V c d (10000 * t.val + r.val) := by
  have ht : t.val < 10 := N_0 ▸ t.isLt
  have hlt : 10000 * t.val + r.val < 100000 := by have := r.isLt; omega
  rw [r0_hcol, dif_pos hlt]
  exact r0_h2At_idx V c t (ix2 r d) (ix2 ⟨_, hlt⟩ d) rfl rfl

theorem r0_blockSum (t : Fin cfg0.N) :
    ∑ r : Fin 10000, f (h2At0 V c t (ix2 r d)) = ∑ r ∈ Finset.range 10000, f (r0_hcol V c d (10000 * t.val + r)) := by
  rw [Finset.sum_range]
  exact Finset.sum_congr rfl fun r _ => by rw [r0_h2At_hcol]

theorem r0_sum_hcol : ∑ i ∈ Finset.range 100000, f (r0_hcol V c d i) = ∑ n : Fin 100000, f (r0_hval V c n d) := by
  rw [Finset.sum_range]
  exact Finset.sum_congr rfl fun n _ => by rw [r0_hcol, dif_pos n.isLt]

def r0_F : Vec Ideal S1x64 .f32 := fun i => ∑ n : Fin 100000, f (r0_hval V c n (i 1))

variable (X : (n : ℕ) → n < cfg0.N → Vec Ideal S1x64 .f32)
  (h0 : ∀ d hn, X 0 hn (ix2 0 d) = 0 + ∑ r : Fin 10000, f (h2At0 V c ⟨0, hn⟩ (ix2 r d)))
  (hs : ∀ d n hn, X (n + 1) hn (ix2 0 d)
    = X n (Nat.lt_of_succ_lt hn) (ix2 0 d) + ∑ r : Fin 10000, f (h2At0 V c ⟨n + 1, hn⟩ (ix2 r d)))
include h0 hs

-- A row accumulated block by block holds, after block n, the sum of f over the first 10000 (n + 1) rows of H.
theorem r0_run : ∀ n hn, X n hn (ix2 0 d) = ∑ i ∈ Finset.range (10000 * (n + 1)), f (r0_hcol V c d i)
  | 0, hn => by
    rw [h0, zero_add, r0_blockSum]
    simp only [Nat.mul_zero, Nat.zero_add, Nat.mul_one]
  | n + 1, hn => by
    rw [hs, r0_run n, r0_blockSum, show 10000 * (n + 1 + 1) = 10000 * (n + 1) + 10000 from by omega, Finset.sum_range_add]

theorem r0_run_idx (t : Fin cfg0.N) (h9 : t.val % 10 = 9) (j i : S1x64.Idx) (h1 : (i 1).val = (j 1).val) :
    X t.val t.isLt j = r0_F V c f i := by
  obtain ⟨p, q, rfl⟩ : ∃ (p : Fin 1) (q : Fin 64), j = ix2 p q := ⟨j 0, j 1, eq_ix2 j⟩
  obtain rfl : p = 0 := Subsingleton.elim _ _
  obtain rfl : i 1 = q := Fin.ext h1
  have hN : cfg0.N = 10 := N_0
  have h9 : t.val = 9 := by have := t.isLt; omega
  rw [r0_run V c (i 1) f X h0 hs, h9]
  exact r0_sum_hcol V c (i 1) f

end Sums

theorem arrAt0_6_eq : (dat0 V c).arrAt 6 cfg0.N = r0_F V c id :=
  r0_arr_eq V c 6 _
    (fun t hf y => heq_of_eq (by
      rw [after0_6]
      exact r0_run_idx V c id (sumAt0 V c)
        (fun d hn => by rw [sumAt0_zero]; exact (r0_colStep (k0_pay2 (F := Ideal)) _ _ _ _ d).trans (congrArg (· + _) Ideal.ofBits_zero_f32))
        (fun d n hn => by rw [sumAt0_succ]; exact r0_colStep _ _ _ _ _ d)
        t ((flush0_6 t).mp hf) _ _ (r0_emb_0 t 6 1 (by decide) y)))
    fun i => ⟨t0_9, (flush0_6 t0_9).mpr rfl, Finset.mem_map.mpr ⟨i, Finset.mem_univ _,
      Shape.idx_ext₂ (r0_emb_0 t0_9 6 0 (by decide) i) (r0_emb_0 t0_9 6 1 (by decide) i)⟩⟩

theorem arrAt0_7_eq : (dat0 V c).arrAt 7 cfg0.N = r0_F V c fun x => x * x :=
  r0_arr_eq V c 7 _
    (fun t hf y => heq_of_eq (by
      rw [after0_7]
      exact r0_run_idx V c (fun x => x * x) (sqAt0 V c)
        (fun d hn => by rw [sqAt0_zero]; exact (r0_colStep (k0_pay3 (F := Ideal)) _ (mulf _ _) _ _ d).trans (congrArg (· + _) Ideal.ofBits_zero_f32))
        (fun d n hn => by rw [sqAt0_succ]; exact r0_colStep _ _ (mulf _ _) _ _ d)
        t ((flush0_7 t).mp hf) _ _ (r0_emb_0 t 7 1 (by decide) y)))
    fun i => ⟨t0_9, (flush0_7 t0_9).mpr rfl, Finset.mem_map.mpr ⟨i, Finset.mem_univ _,
      Shape.idx_ext₂ (r0_emb_0 t0_9 7 0 (by decide) i) (r0_emb_0 t0_9 7 1 (by decide) i)⟩⟩

abbrev r0_out5 : Vec Ideal S100000x64 .f32 := (dat0 V c).arrAt 5 cfg0.N
abbrev r0_out6 : Vec Ideal S1x64 .f32 := (dat0 V c).arrAt 6 cfg0.N
abbrev r0_out7 : Vec Ideal S1x64 .f32 := (dat0 V c).arrAt 7 cfg0.N

theorem arrAt0_5 (n : Fin 100000) (d : Fin 64) :
    r0_out5 V c (ix2 n d)
      = (∑ k : Fin 64, max ((∑ j : Fin 7, r0_A V c (ix2 n j) * r0_W1 V c (ix2 j k)) + r0_B1 V c (ix2 0 k)) 0
          * r0_W2 V c (ix2 k d)) + r0_B2 V c (ix2 0 d) :=
  congrFun (arrAt0_5_eq V c) (ix2 n d)

theorem arrAt0_6 (d : Fin 64) : r0_out6 V c (ix2 0 d) = ∑ n : Fin 100000, r0_out5 V c (ix2 n d) := by
  rw [r0_out6, arrAt0_6_eq, r0_out5, arrAt0_5_eq]
  rfl

theorem arrAt0_7 (d : Fin 64) :
    r0_out7 V c (ix2 0 d) = ∑ n : Fin 100000, r0_out5 V c (ix2 n d) * r0_out5 V c (ix2 n d) := by
  rw [r0_out7, arrAt0_7_eq, r0_out5, arrAt0_5_eq]
  rfl

end Cert.KernelIdeal.Val

end
-- ==== Proof.KI.Val1.lean ====
import proofs.«406370_j7258494730854_1_alg».proof.Proof.KI.Rg1
import proofs.«406370_j7258494730854_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Rg
open Idealize.ShloMosaic Idealize.ShloMosaic.TcCoe Idealize.SL.Sem
open Idealize.ShloMosaic.Pipeline (Dat)
open Idealize.ShloMosaic.ValueIdx

theorem hz1 : (![0, 0] : Fin 2 → Nat) = fun _ => 0 := funext fun a => by fin_cases a <;> rfl

theorem out1_5_apply (x0 : Vec Ideal S10000x64 .f32) (x1 x2 x3 x4 : Vec Ideal S1x64 .f32) (p : Fin 10000) (q : Fin 64) :
    out1_5 (F := Ideal) x0 x1 x2 x3 x4 (ix2 p q)
      = max ((((x0 (ix2 p q) - x1 (ix2 0 q)) * Ideal.rsqrt (x2 (ix2 0 q) + Cert.Spec.cEps)) * x3 (ix2 0 q)) + x4 (ix2 0 q)) 0 := by
  unfold out1_5
  rw [View.canon_unit_zero hz1]
  simp only [View.ld_unit_zero (S := S10000x64) hz1, View.ld_unit_zero (S := S1x64) hz1]
  unfold k1_pay1
  simp only [shapeCast_self, maximumf_apply, addf_apply, mulf_apply, subf_apply, broadcast_apply, broadcastTo_1b_ab_apply,
    Ideal.ofBits_def, Ideal.ofBits_zero_f32]
  rfl

theorem idx1_0 : ∀ (t : Fin grid1.N) (k : Fin 6) (a : Fin (win1 k).shape.rank),
    k ≠ 0 ∧ k ≠ 5 ∨ a.val ≠ 0 → (win1 k).index t a = 0 := by decide +kernel

theorem off1_t : ∀ t : Fin grid1.N, win1_0.index t (0 : Fin 2) * win1_0.size (0 : Fin 2) = 10000 * t.val
    ∧ win1_5.index t (0 : Fin 2) * win1_5.size (0 : Fin 2) = 10000 * t.val := by decide +kernel

theorem emb1_0 (t : Fin cfg1.N) (k : Fin 6) (a : Fin (win1 k).shape.rank) (h : k ≠ 0 ∧ k ≠ 5 ∨ a.val ≠ 0)
    (y : ((win1 k).xblock (grid1.coords t)).Idx) : (((win1 k).rect t).emb y a : ℕ) = y a :=
  (win1 k).rect_emb_val_of_index_zero t a (idx1_0 t k a h) y

section Blocks

variable {F : FTy → Type} [FloatOps F]
variable (V : (c : Dev nD) → (b : Ref sig .tc) → Buf (Elt F) ((c : Thread nD τ).loc b)) (c : Dev nD) (t : Fin cfg1.N)

abbrev xarr1 : Vec F S100000x64 .f32 := V c (Pipeline.arrRef spec1 0)
abbrev mean1 : Vec F S1x64 .f32 := V c (Pipeline.arrRef spec1 1)
abbrev var1 : Vec F S1x64 .f32 := V c (Pipeline.arrRef spec1 2)
abbrev scale1 : Vec F S1x64 .f32 := V c (Pipeline.arrRef spec1 3)
abbrev shift1 : Vec F S1x64 .f32 := V c (Pipeline.arrRef spec1 4)

theorem iblk1_0_apply (p : Fin 10000) (q : Fin 64) (n : Fin 100000) (hn : n.val = 10000 * t.val + p.val) :
    (iblk1 V c 0 t : Vec F S10000x64 .f32) (ix2 p q) = xarr1 V c (ix2 n q) :=
  congrArg (xarr1 V c) (Shape.idx_ext₂
    (((win1_0.rect_emb_val t _ 0).trans (congrArg (· + p.val) (off1_t t).1)).trans hn.symm) (emb1_0 t 0 1 (by decide) _))

theorem iblk1_1_eq : (iblk1 V c 1 t : Vec F S1x64 .f32) = mean1 V c :=
  funext fun j => congrArg (mean1 V c) (Shape.idx_ext₂ (emb1_0 t 1 0 (by decide) j) (emb1_0 t 1 1 (by decide) j))
theorem iblk1_2_eq : (iblk1 V c 2 t : Vec F S1x64 .f32) = var1 V c :=
  funext fun j => congrArg (var1 V c) (Shape.idx_ext₂ (emb1_0 t 2 0 (by decide) j) (emb1_0 t 2 1 (by decide) j))
theorem iblk1_3_eq : (iblk1 V c 3 t : Vec F S1x64 .f32) = scale1 V c :=
  funext fun j => congrArg (scale1 V c) (Shape.idx_ext₂ (emb1_0 t 3 0 (by decide) j) (emb1_0 t 3 1 (by decide) j))
theorem iblk1_4_eq : (iblk1 V c 4 t : Vec F S1x64 .f32) = shift1 V c :=
  funext fun j => congrArg (shift1 V c) (Shape.idx_ext₂ (emb1_0 t 4 0 (by decide) j) (emb1_0 t 4 1 (by decide) j))

end Blocks

variable (W : (c : Dev nD) → (b : Ref sig .tc) → Buf (Elt Ideal) ((c : Thread nD τ).loc b)) (c : Dev nD)

abbrev bn1 : Vec Ideal S100000x64 .f32 := fun i =>
  max ((((xarr1 W c i - mean1 W c (ix2 0 (i 1))) * Ideal.rsqrt (var1 W c (ix2 0 (i 1)) + Cert.Spec.cEps))
    * scale1 W c (ix2 0 (i 1))) + shift1 W c (ix2 0 (i 1))) 0

-- The ten row blocks tile the array, and block t holds the normalised rows 10000 t, …, 10000 t + 9999.
theorem arr1_5 : (dat1 (F := Ideal) W c).arrAt 5 cfg1.N = bn1 W c :=
  (dat1 (F := Ideal) W c).arrAt_eq_of_cover 5 _
    (fun t _ => by
      show (cfg1.win 5).cut (grid1.coords t) ((dat1 W c).after 5 t) = _
      rw [after1_5]
      funext j
      obtain ⟨p, q, rfl⟩ : ∃ (p : Fin 10000) (q : Fin 64), j = ix2 p q := ⟨j 0, j 1, eq_ix2 j⟩
      have ht : t.val < 10 := lt_of_lt_of_eq t.isLt N_1
      have hn : 10000 * t.val + p.val < 100000 := by have := p.isLt; omega
      show out1_5 (F := Ideal) (iblk1 W c 0 t) (iblk1 W c 1 t) (iblk1 W c 2 t) (iblk1 W c 3 t) (iblk1 W c 4 t) (ix2 p q)
        = bn1 W c (((cfg1.win 5).blk t).view.emb (ix2 p q))
      rw [show ((cfg1.win 5).blk t).view.emb (ix2 p q) = ix2 (⟨10000 * t.val + p.val, hn⟩ : Fin 100000) q from
          Shape.idx_ext₂ ((win1_5.rect_emb_val t _ 0).trans (congrArg (· + p.val) (off1_t t).2)) (emb1_0 t 5 1 (by decide) _),
        out1_5_apply, iblk1_0_apply W c t p q ⟨_, hn⟩ rfl, iblk1_1_eq, iblk1_2_eq, iblk1_3_eq, iblk1_4_eq])
    fun (i : S100000x64.Idx) => by
      have hi : (i 0).val < 100000 := (i 0).isLt
      have hN : cfg1.N = 10 := N_1
      obtain ⟨t, ht⟩ : ∃ t : Fin cfg1.N, t.val = (i 0).val / 10000 := ⟨⟨_, by omega⟩, rfl⟩
      exact ⟨t, flush1_5 t, Finset.mem_map.mpr ⟨ix2 ⟨(i 0).val % 10000, by omega⟩ (i 1), Finset.mem_univ _, Shape.idx_ext₂
        (((win1_5.rect_emb_val t _ 0).trans (congrArg (· + _) (off1_t t).2)).trans (by rw [ht]; exact Nat.div_add_mod _ _))
        (emb1_0 t 5 1 (by decide) _)⟩⟩

theorem arrAt1_5 (n : Fin 100000) (d : Fin 64) :
    (dat1 (F := Ideal) W c).arrAt 5 cfg1.N (ix2 n d)
      = max ((((xarr1 W c (ix2 n d) - mean1 W c (ix2 0 d)) * Ideal.rsqrt (var1 W c (ix2 0 d) + Cert.Spec.cEps))
          * scale1 W c (ix2 0 d)) + shift1 W c (ix2 0 d)) 0 := by
  rw [arr1_5]

end Cert.KernelIdeal.Val

end
-- ==== Proof.KI.Val2.lean ====
import proofs.«406370_j7258494730854_1_alg».proof.Proof.KI.Rg2
import proofs.«406370_j7258494730854_1_alg».proof.Proof.Spec
import proofs.«406370_j7258494730854_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.ShloMosaic.Pipeline (Dat)

theorem r2_matmul_apply (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) :=
  Cert.Lib.PlainDot.matmul_zero_apply (M := 10000) (K := 64) (N := 64) none x w p q

theorem r2_pay4_apply (x : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k2_pay4 x w1 b1 w2 b2 (ix2 p q)
      = (∑ k : Fin 64, max ((∑ j : Fin 64, x (ix2 p j) * w1 (ix2 j k)) + b1 (ix2 0 k)) 0 * w2 (ix2 k q)) + b2 (ix2 0 q) := by
  unfold k2_pay4
  simp only [shapeCast_self, addf_apply, maximumf_apply, truncf_apply, broadcast_apply, r2_matmul_apply, broadcastTo_1b_ab_apply]
  rw [show (FloatOps.ofBits (F := Ideal) .f32 0x00000000#32 : EReal) = 0 from Ideal.ofBits_zero_f32]

-- One accumulation step: the running row plus the column sums of the block.
theorem r2_colStep (acc : Vec Ideal S1x64 .f32) (h : S1x64.ShapeCasts S1x64) (v : FVec Ideal S10000x64 .f32) (hφ : FKind.Formats FTy.f32)
    (hacc : (0x00000000#32 : BitVec 32) = 0x00000000#32) (q : Fin 64) :
    addf (shapeCast S1x64 acc h) (shapeCast S1x64 (multiReduction (F := Ideal) .add [0] S64 v 0x00000000#32 reduces_S10000x64_S64 hφ hacc) shapeCasts_S64_S1x64) (ix2 0 q)
      = acc (ix2 0 q) + ∑ r : Fin 10000, v (ix2 r q) := by
  rw [shapeCast_self]
  exact (addf_apply _ _ _).trans (congrArg (acc (ix2 0 q) + ·) ((shapeCast_a_1a_apply _ shapeCasts_S64_S1x64 0 q).trans
    ((Ideal.multiReduction_add_single v _ reduces_S10000x64_S64 hφ hacc (ix1 q)).trans
      (Finset.sum_congr rfl fun r _ => congrArg v (Shape.idx_ext₂ rfl rfl)))))

theorem r2_idx_0 : ∀ (t : Fin grid2.N) (k : Fin 8) (a : Fin (win2 k).shape.rank),
    k ≠ 0 ∧ k ≠ 5 ∨ a.val ≠ 0 → (win2 k).index t a = 0 := by decide +kernel

theorem r2_off_t : ∀ t : Fin grid2.N, win2_0.index t (0 : Fin 2) * win2_0.size (0 : Fin 2) = 10000 * t.val
    ∧ win2_5.index t (0 : Fin 2) * win2_5.size (0 : Fin 2) = 10000 * t.val := by decide +kernel

theorem r2_emb_0 (t : Fin cfg2.N) (k : Fin 8) (a : Fin (win2 k).shape.rank) (h : k ≠ 0 ∧ k ≠ 5 ∨ a.val ≠ 0)
    (y : ((win2 k).xblock (grid2.coords t)).Idx) : (((win2 k).rect t).emb y a : ℕ) = y a :=
  (win2 k).rect_emb_val_of_index_zero t a (r2_idx_0 t k a h) y

section Blocks

variable {F : FTy → Type} [FloatOps F]
variable (V : (c : Dev nD) → (b : Ref sig .tc) → Buf (Elt F) ((c : Thread nD τ).loc b)) (c : Dev nD) (t : Fin cfg2.N)

abbrev r2_A : Vec F S100000x64 .f32 := V c (Pipeline.arrRef spec2 0)
abbrev r2_W1 : Vec F S64x64 .f32 := V c (Pipeline.arrRef spec2 1)
abbrev r2_B1 : Vec F S1x64 .f32 := V c (Pipeline.arrRef spec2 2)
abbrev r2_W2 : Vec F S64x64 .f32 := V c (Pipeline.arrRef spec2 3)
abbrev r2_B2 : Vec F S1x64 .f32 := V c (Pipeline.arrRef spec2 4)

abbrev r2_xblk : Vec F S10000x64 .f32 := iblk2 V c 0 t

theorem r2_xblk_apply (p : Fin 10000) (q : Fin 64) (n : Fin 100000) (hn : n.val = 10000 * t.val + p.val) :
    r2_xblk V c t (ix2 p q) = r2_A V c (ix2 n q) :=
  congrArg (r2_A V c) (Shape.idx_ext₂
    (((win2_0.rect_emb_val t _ 0).trans (congrArg (· + p.val) (r2_off_t t).1)).trans hn.symm) (r2_emb_0 t 0 1 (by decide) _))

theorem r2_w1blk_eq : (iblk2 V c 1 t : Vec F S64x64 .f32) = r2_W1 V c :=
  funext fun j => congrArg (r2_W1 V c) (Shape.idx_ext₂ (r2_emb_0 t 1 0 (by decide) j) (r2_emb_0 t 1 1 (by decide) j))
theorem r2_b1blk_eq : (iblk2 V c 2 t : Vec F S1x64 .f32) = r2_B1 V c :=
  funext fun j => congrArg (r2_B1 V c) (Shape.idx_ext₂ (r2_emb_0 t 2 0 (by decide) j) (r2_emb_0 t 2 1 (by decide) j))
theorem r2_w2blk_eq : (iblk2 V c 3 t : Vec F S64x64 .f32) = r2_W2 V c :=
  funext fun j => congrArg (r2_W2 V c) (Shape.idx_ext₂ (r2_emb_0 t 3 0 (by decide) j) (r2_emb_0 t 3 1 (by decide) j))
theorem r2_b2blk_eq : (iblk2 V c 4 t : Vec F S1x64 .f32) = r2_B2 V c :=
  funext fun j => congrArg (r2_B2 V c) (Shape.idx_ext₂ (r2_emb_0 t 4 0 (by decide) j) (r2_emb_0 t 4 1 (by decide) j))

end Blocks

variable (V : (c : Dev nD) → (b : Ref sig .tc) → Buf (Elt Ideal) ((c : Thread nD τ).loc b)) (c : Dev nD)

-- If every written block agrees with G where it lands, and these blocks cover all indices, the array is G.
theorem r2_arr_eq (k : Fin cfg2.W) (G : Buf (Elt Ideal) ((cfg2.win k).arr.view.loc (c.tc : Thread nD τ)))
    (hG : ∀ t, (cfg2.win k).flush t = true → ∀ y,
      HEq ((dat2 V c).after k t ((cfg2.win k).xinj (grid2.coords t) y)) (G (((cfg2.win k).blk t).view.emb y)))
    (hc : ∀ i : ((cfg2.win k).arr.view.loc (c.tc : Thread nD τ)).2.ty.Idx,
      ∃ t, (cfg2.win k).flush t = true ∧ i ∈ ((cfg2.win k).blk t).view.set) : (dat2 V c).arrAt k cfg2.N = G :=
  (dat2 V c).arrAt_eq_of_cover k G (fun t hf => funext fun y => eq_of_heq ((hG t hf y).trans (cast_heq _ _).symm)) hc

section Values

variable (t : Fin cfg2.N)

def r2_hval (n : Fin 100000) (d : Fin 64) : EReal :=
  (∑ k : Fin 64, max ((∑ j : Fin 64, r2_A V c (ix2 n j) * r2_W1 V c (ix2 j k)) + r2_B1 V c (ix2 0 k)) 0
    * r2_W2 V c (ix2 k d)) + r2_B2 V c (ix2 0 d)

def r2_H : Vec Ideal S100000x64 .f32 := fun i => r2_hval V c (i 0) (i 1)

-- Block t of the layer's output is rows 10000 t, …, 10000 t + 9999 of H.
theorem r2_h2At_idx (j : S10000x64.Idx) (i : S100000x64.Idx)
    (h0 : (i 0).val = 10000 * t.val + (j 0).val) (h1 : (i 1).val = (j 1).val) : h2At2 V c t j = r2_H V c i := by
  obtain ⟨p, q, rfl⟩ : ∃ (p : Fin 10000) (q : Fin 64), j = ix2 p q := ⟨j 0, j 1, eq_ix2 j⟩
  unfold h2At2
  rw [r2_w1blk_eq, r2_b1blk_eq, r2_w2blk_eq, r2_b2blk_eq, r2_pay4_apply]
  show _ = r2_hval V c (i 0) (i 1)
  rw [show i 1 = q from Fin.ext h1]
  unfold r2_hval
  simp only [fun j => r2_xblk_apply V c t p j (i 0) h0]

-- The ten row blocks tile the array.
theorem arrAt2_5_eq : (dat2 V c).arrAt 5 cfg2.N = r2_H V c :=
  r2_arr_eq V c 5 (r2_H V c)
    (fun t _ y => heq_of_eq (by
      rw [after2_5]
      exact r2_h2At_idx V c t _ _
        ((win2_5.rect_emb_val t y 0).trans (congrArg (· + _) (r2_off_t t).2)) (r2_emb_0 t 5 1 (by decide) y)))
    fun (i : S100000x64.Idx) => by
      have hi : (i 0).val < 100000 := (i 0).isLt
      have hN : cfg2.N = 10 := N_2
      obtain ⟨t, ht⟩ : ∃ t : Fin cfg2.N, t.val = (i 0).val / 10000 := ⟨⟨_, by omega⟩, rfl⟩
      exact ⟨t, flush2_5 t, Finset.mem_map.mpr ⟨ix2 ⟨(i 0).val % 10000, by omega⟩ (i 1), Finset.mem_univ _, Shape.idx_ext₂
        (((win2_5.rect_emb_val t _ 0).trans (congrArg (· + _) (r2_off_t t).2)).trans (by rw [ht]; exact Nat.div_add_mod _ _))
        (r2_emb_0 t 5 1 (by decide) _)⟩⟩

end Values

section Sums

variable (d : Fin 64) (f : EReal → EReal)

def r2_hcol (i : ℕ) : EReal := if h : i < 100000 then r2_hval V c ⟨i, h⟩ d else 0

theorem r2_h2At_hcol (t : Fin cfg2.N) (r : Fin 10000) :
    h2At2 V c t (ix2 r d) = r2_hcol V c d (10000 * t.val + r.val) := by
  have ht : t.val < 10 := N_2 ▸ t.isLt
  have hlt : 10000 * t.val + r.val < 100000 := by have := r.isLt; omega
  rw [r2_hcol, dif_pos hlt]
  exact r2_h2At_idx V c t (ix2 r d) (ix2 ⟨_, hlt⟩ d) rfl rfl

theorem r2_blockSum (t : Fin cfg2.N) :
    ∑ r : Fin 10000, f (h2At2 V c t (ix2 r d)) = ∑ r ∈ Finset.range 10000, f (r2_hcol V c d (10000 * t.val + r)) := by
  rw [Finset.sum_range]
  exact Finset.sum_congr rfl fun r _ => by rw [r2_h2At_hcol]

theorem r2_sum_hcol : ∑ i ∈ Finset.range 100000, f (r2_hcol V c d i) = ∑ n : Fin 100000, f (r2_hval V c n d) := by
  rw [Finset.sum_range]
  exact Finset.sum_congr rfl fun n _ => by rw [r2_hcol, dif_pos n.isLt]

def r2_F : Vec Ideal S1x64 .f32 := fun i => ∑ n : Fin 100000, f (r2_hval V c n (i 1))

variable (X : (n : ℕ) → n < cfg2.N → Vec Ideal S1x64 .f32)
  (h0 : ∀ d hn, X 0 hn (ix2 0 d) = 0 + ∑ r : Fin 10000, f (h2At2 V c ⟨0, hn⟩ (ix2 r d)))
  (hs : ∀ d n hn, X (n + 1) hn (ix2 0 d)
    = X n (Nat.lt_of_succ_lt hn) (ix2 0 d) + ∑ r : Fin 10000, f (h2At2 V c ⟨n + 1, hn⟩ (ix2 r d)))
include h0 hs

-- A row accumulated block by block holds, after block n, the sum of f over the first 10000 (n + 1) rows of H.
theorem r2_run : ∀ n hn, X n hn (ix2 0 d) = ∑ i ∈ Finset.range (10000 * (n + 1)), f (r2_hcol V c d i)
  | 0, hn => by
    rw [h0, zero_add, r2_blockSum]
    simp only [Nat.mul_zero, Nat.zero_add, Nat.mul_one]
  | n + 1, hn => by
    rw [hs, r2_run n, r2_blockSum, show 10000 * (n + 1 + 1) = 10000 * (n + 1) + 10000 from by omega, Finset.sum_range_add]

theorem r2_run_idx (t : Fin cfg2.N) (h9 : t.val % 10 = 9) (j i : S1x64.Idx) (h1 : (i 1).val = (j 1).val) :
    X t.val t.isLt j = r2_F V c f i := by
  obtain ⟨p, q, rfl⟩ : ∃ (p : Fin 1) (q : Fin 64), j = ix2 p q := ⟨j 0, j 1, eq_ix2 j⟩
  obtain rfl : p = 0 := Subsingleton.elim _ _
  obtain rfl : i 1 = q := Fin.ext h1
  have hN : cfg2.N = 10 := N_2
  have h9 : t.val = 9 := by have := t.isLt; omega
  rw [r2_run V c (i 1) f X h0 hs, h9]
  exact r2_sum_hcol V c (i 1) f

end Sums

theorem arrAt2_6_eq : (dat2 V c).arrAt 6 cfg2.N = r2_F V c id :=
  r2_arr_eq V c 6 _
    (fun t hf y => heq_of_eq (by
      rw [after2_6]
      exact r2_run_idx V c id (sumAt2 V c)
        (fun d hn => by rw [sumAt2_zero]; exact (r2_colStep (k2_pay2 (F := Ideal)) _ _ _ _ d).trans (congrArg (· + _) Ideal.ofBits_zero_f32))
        (fun d n hn => by rw [sumAt2_succ]; exact r2_colStep _ _ _ _ _ d)
        t ((flush2_6 t).mp hf) _ _ (r2_emb_0 t 6 1 (by decide) y)))
    fun i => ⟨t2_9, (flush2_6 t2_9).mpr rfl, Finset.mem_map.mpr ⟨i, Finset.mem_univ _,
      Shape.idx_ext₂ (r2_emb_0 t2_9 6 0 (by decide) i) (r2_emb_0 t2_9 6 1 (by decide) i)⟩⟩

theorem arrAt2_7_eq : (dat2 V c).arrAt 7 cfg2.N = r2_F V c fun x => x * x :=
  r2_arr_eq V c 7 _
    (fun t hf y => heq_of_eq (by
      rw [after2_7]
      exact r2_run_idx V c (fun x => x * x) (sqAt2 V c)
        (fun d hn => by rw [sqAt2_zero]; exact (r2_colStep (k2_pay3 (F := Ideal)) _ (mulf _ _) _ _ d).trans (congrArg (· + _) Ideal.ofBits_zero_f32))
        (fun d n hn => by rw [sqAt2_succ]; exact r2_colStep _ _ (mulf _ _) _ _ d)
        t ((flush2_7 t).mp hf) _ _ (r2_emb_0 t 7 1 (by decide) y)))
    fun i => ⟨t2_9, (flush2_7 t2_9).mpr rfl, Finset.mem_map.mpr ⟨i, Finset.mem_univ _,
      Shape.idx_ext₂ (r2_emb_0 t2_9 7 0 (by decide) i) (r2_emb_0 t2_9 7 1 (by decide) i)⟩⟩

abbrev r2_out5 : Vec Ideal S100000x64 .f32 := (dat2 V c).arrAt 5 cfg2.N
abbrev r2_out6 : Vec Ideal S1x64 .f32 := (dat2 V c).arrAt 6 cfg2.N
abbrev r2_out7 : Vec Ideal S1x64 .f32 := (dat2 V c).arrAt 7 cfg2.N

theorem arrAt2_5 (n : Fin 100000) (d : Fin 64) :
    r2_out5 V c (ix2 n d)
      = (∑ k : Fin 64, max ((∑ j : Fin 64, r2_A V c (ix2 n j) * r2_W1 V c (ix2 j k)) + r2_B1 V c (ix2 0 k)) 0
          * r2_W2 V c (ix2 k d)) + r2_B2 V c (ix2 0 d) :=
  congrFun (arrAt2_5_eq V c) (ix2 n d)

theorem arrAt2_6 (d : Fin 64) : r2_out6 V c (ix2 0 d) = ∑ n : Fin 100000, r2_out5 V c (ix2 n d) := by
  rw [r2_out6, arrAt2_6_eq, r2_out5, arrAt2_5_eq]
  rfl

theorem arrAt2_7 (d : Fin 64) :
    r2_out7 V c (ix2 0 d) = ∑ n : Fin 100000, r2_out5 V c (ix2 n d) * r2_out5 V c (ix2 n d) := by
  rw [r2_out7, arrAt2_7_eq, r2_out5, arrAt2_5_eq]
  rfl

end Cert.KernelIdeal.Val

end
-- ==== Proof.KI.Val3.lean ====
import proofs.«406370_j7258494730854_1_alg».proof.Proof.KI.Rg3
import proofs.«406370_j7258494730854_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Rg
open Idealize.ShloMosaic Idealize.ShloMosaic.TcCoe Idealize.SL.Sem
open Idealize.ShloMosaic.Pipeline (Dat)
open Idealize.ShloMosaic.ValueIdx

theorem hz3 : (![0, 0] : Fin 2 → Nat) = fun _ => 0 := funext fun a => by fin_cases a <;> rfl

theorem out3_5_apply (x0 : Vec Ideal S10000x64 .f32) (x1 x2 x3 x4 : Vec Ideal S1x64 .f32) (p : Fin 10000) (q : Fin 64) :
    out3_5 (F := Ideal) x0 x1 x2 x3 x4 (ix2 p q)
      = max ((((x0 (ix2 p q) - x1 (ix2 0 q)) * Ideal.rsqrt (x2 (ix2 0 q) + Cert.Spec.cEps)) * x3 (ix2 0 q)) + x4 (ix2 0 q)) 0 := by
  unfold out3_5
  rw [View.canon_unit_zero hz3]
  simp only [View.ld_unit_zero (S := S10000x64) hz3, View.ld_unit_zero (S := S1x64) hz3]
  unfold k3_pay1
  simp only [shapeCast_self, maximumf_apply, addf_apply, mulf_apply, subf_apply, broadcast_apply, broadcastTo_1b_ab_apply,
    Ideal.ofBits_def, Ideal.ofBits_zero_f32]
  rfl

theorem idx3_0 : ∀ (t : Fin grid3.N) (k : Fin 6) (a : Fin (win3 k).shape.rank),
    k ≠ 0 ∧ k ≠ 5 ∨ a.val ≠ 0 → (win3 k).index t a = 0 := by decide +kernel

theorem off3_t : ∀ t : Fin grid3.N, win3_0.index t (0 : Fin 2) * win3_0.size (0 : Fin 2) = 10000 * t.val
    ∧ win3_5.index t (0 : Fin 2) * win3_5.size (0 : Fin 2) = 10000 * t.val := by decide +kernel

theorem emb3_0 (t : Fin cfg3.N) (k : Fin 6) (a : Fin (win3 k).shape.rank) (h : k ≠ 0 ∧ k ≠ 5 ∨ a.val ≠ 0)
    (y : ((win3 k).xblock (grid3.coords t)).Idx) : (((win3 k).rect t).emb y a : ℕ) = y a :=
  (win3 k).rect_emb_val_of_index_zero t a (idx3_0 t k a h) y

section Blocks

variable {F : FTy → Type} [FloatOps F]
variable (V : (c : Dev nD) → (b : Ref sig .tc) → Buf (Elt F) ((c : Thread nD τ).loc b)) (c : Dev nD) (t : Fin cfg3.N)

abbrev xarr3 : Vec F S100000x64 .f32 := V c (Pipeline.arrRef spec3 0)
abbrev mean3 : Vec F S1x64 .f32 := V c (Pipeline.arrRef spec3 1)
abbrev var3 : Vec F S1x64 .f32 := V c (Pipeline.arrRef spec3 2)
abbrev scale3 : Vec F S1x64 .f32 := V c (Pipeline.arrRef spec3 3)
abbrev shift3 : Vec F S1x64 .f32 := V c (Pipeline.arrRef spec3 4)

theorem iblk3_0_apply (p : Fin 10000) (q : Fin 64) (n : Fin 100000) (hn : n.val = 10000 * t.val + p.val) :
    (iblk3 V c 0 t : Vec F S10000x64 .f32) (ix2 p q) = xarr3 V c (ix2 n q) :=
  congrArg (xarr3 V c) (Shape.idx_ext₂
    (((win3_0.rect_emb_val t _ 0).trans (congrArg (· + p.val) (off3_t t).1)).trans hn.symm) (emb3_0 t 0 1 (by decide) _))

theorem iblk3_1_eq : (iblk3 V c 1 t : Vec F S1x64 .f32) = mean3 V c :=
  funext fun j => congrArg (mean3 V c) (Shape.idx_ext₂ (emb3_0 t 1 0 (by decide) j) (emb3_0 t 1 1 (by decide) j))
theorem iblk3_2_eq : (iblk3 V c 2 t : Vec F S1x64 .f32) = var3 V c :=
  funext fun j => congrArg (var3 V c) (Shape.idx_ext₂ (emb3_0 t 2 0 (by decide) j) (emb3_0 t 2 1 (by decide) j))
theorem iblk3_3_eq : (iblk3 V c 3 t : Vec F S1x64 .f32) = scale3 V c :=
  funext fun j => congrArg (scale3 V c) (Shape.idx_ext₂ (emb3_0 t 3 0 (by decide) j) (emb3_0 t 3 1 (by decide) j))
theorem iblk3_4_eq : (iblk3 V c 4 t : Vec F S1x64 .f32) = shift3 V c :=
  funext fun j => congrArg (shift3 V c) (Shape.idx_ext₂ (emb3_0 t 4 0 (by decide) j) (emb3_0 t 4 1 (by decide) j))

end Blocks

variable (W : (c : Dev nD) → (b : Ref sig .tc) → Buf (Elt Ideal) ((c : Thread nD τ).loc b)) (c : Dev nD)

abbrev bn3 : Vec Ideal S100000x64 .f32 := fun i =>
  max ((((xarr3 W c i - mean3 W c (ix2 0 (i 1))) * Ideal.rsqrt (var3 W c (ix2 0 (i 1)) + Cert.Spec.cEps))
    * scale3 W c (ix2 0 (i 1))) + shift3 W c (ix2 0 (i 1))) 0

-- The ten row blocks tile the array, and block t holds the normalised rows 10000 t, …, 10000 t + 9999.
theorem arr3_5 : (dat3 (F := Ideal) W c).arrAt 5 cfg3.N = bn3 W c :=
  (dat3 (F := Ideal) W c).arrAt_eq_of_cover 5 _
    (fun t _ => by
      show (cfg3.win 5).cut (grid3.coords t) ((dat3 W c).after 5 t) = _
      rw [after3_5]
      funext j
      obtain ⟨p, q, rfl⟩ : ∃ (p : Fin 10000) (q : Fin 64), j = ix2 p q := ⟨j 0, j 1, eq_ix2 j⟩
      have ht : t.val < 10 := lt_of_lt_of_eq t.isLt N_3
      have hn : 10000 * t.val + p.val < 100000 := by have := p.isLt; omega
      show out3_5 (F := Ideal) (iblk3 W c 0 t) (iblk3 W c 1 t) (iblk3 W c 2 t) (iblk3 W c 3 t) (iblk3 W c 4 t) (ix2 p q)
        = bn3 W c (((cfg3.win 5).blk t).view.emb (ix2 p q))
      rw [show ((cfg3.win 5).blk t).view.emb (ix2 p q) = ix2 (⟨10000 * t.val + p.val, hn⟩ : Fin 100000) q from
          Shape.idx_ext₂ ((win3_5.rect_emb_val t _ 0).trans (congrArg (· + p.val) (off3_t t).2)) (emb3_0 t 5 1 (by decide) _),
        out3_5_apply, iblk3_0_apply W c t p q ⟨_, hn⟩ rfl, iblk3_1_eq, iblk3_2_eq, iblk3_3_eq, iblk3_4_eq])
    fun (i : S100000x64.Idx) => by
      have hi : (i 0).val < 100000 := (i 0).isLt
      have hN : cfg3.N = 10 := N_3
      obtain ⟨t, ht⟩ : ∃ t : Fin cfg3.N, t.val = (i 0).val / 10000 := ⟨⟨_, by omega⟩, rfl⟩
      exact ⟨t, flush3_5 t, Finset.mem_map.mpr ⟨ix2 ⟨(i 0).val % 10000, by omega⟩ (i 1), Finset.mem_univ _, Shape.idx_ext₂
        (((win3_5.rect_emb_val t _ 0).trans (congrArg (· + _) (off3_t t).2)).trans (by rw [ht]; exact Nat.div_add_mod _ _))
        (emb3_0 t 5 1 (by decide) _)⟩⟩

theorem arrAt3_5 (n : Fin 100000) (d : Fin 64) :
    (dat3 (F := Ideal) W c).arrAt 5 cfg3.N (ix2 n d)
      = max ((((xarr3 W c (ix2 n d) - mean3 W c (ix2 0 d)) * Ideal.rsqrt (var3 W c (ix2 0 d) + Cert.Spec.cEps))
          * scale3 W c (ix2 0 d)) + shift3 W c (ix2 0 d)) 0 := by
  rw [arr3_5]

end Cert.KernelIdeal.Val

end
-- ==== Proof.KI.Val4.lean ====
import proofs.«406370_j7258494730854_1_alg».proof.Proof.KI.Rg4
import proofs.«406370_j7258494730854_1_alg».proof.Proof.Spec
import proofs.«406370_j7258494730854_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.ShloMosaic.Pipeline (Dat)

theorem r4_matmul_apply (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) :=
  Cert.Lib.PlainDot.matmul_zero_apply (M := 10000) (K := 64) (N := 64) none x w p q

theorem r4_pay4_apply (x : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k4_pay4 x w1 b1 w2 b2 (ix2 p q)
      = (∑ k : Fin 64, max ((∑ j : Fin 64, x (ix2 p j) * w1 (ix2 j k)) + b1 (ix2 0 k)) 0 * w2 (ix2 k q)) + b2 (ix2 0 q) := by
  unfold k4_pay4
  simp only [shapeCast_self, addf_apply, maximumf_apply, truncf_apply, broadcast_apply, r4_matmul_apply, broadcastTo_1b_ab_apply]
  rw [show (FloatOps.ofBits (F := Ideal) .f32 0x00000000#32 : EReal) = 0 from Ideal.ofBits_zero_f32]

-- One accumulation step: the running row plus the column sums of the block.
theorem r4_colStep (acc : Vec Ideal S1x64 .f32) (h : S1x64.ShapeCasts S1x64) (v : FVec Ideal S10000x64 .f32) (hφ : FKind.Formats FTy.f32)
    (hacc : (0x00000000#32 : BitVec 32) = 0x00000000#32) (q : Fin 64) :
    addf (shapeCast S1x64 acc h) (shapeCast S1x64 (multiReduction (F := Ideal) .add [0] S64 v 0x00000000#32 reduces_S10000x64_S64 hφ hacc) shapeCasts_S64_S1x64) (ix2 0 q)
      = acc (ix2 0 q) + ∑ r : Fin 10000, v (ix2 r q) := by
  rw [shapeCast_self]
  exact (addf_apply _ _ _).trans (congrArg (acc (ix2 0 q) + ·) ((shapeCast_a_1a_apply _ shapeCasts_S64_S1x64 0 q).trans
    ((Ideal.multiReduction_add_single v _ reduces_S10000x64_S64 hφ hacc (ix1 q)).trans
      (Finset.sum_congr rfl fun r _ => congrArg v (Shape.idx_ext₂ rfl rfl)))))

theorem r4_idx_0 : ∀ (t : Fin grid4.N) (k : Fin 8) (a : Fin (win4 k).shape.rank),
    k ≠ 0 ∧ k ≠ 5 ∨ a.val ≠ 0 → (win4 k).index t a = 0 := by decide +kernel

theorem r4_off_t : ∀ t : Fin grid4.N, win4_0.index t (0 : Fin 2) * win4_0.size (0 : Fin 2) = 10000 * t.val
    ∧ win4_5.index t (0 : Fin 2) * win4_5.size (0 : Fin 2) = 10000 * t.val := by decide +kernel

theorem r4_emb_0 (t : Fin cfg4.N) (k : Fin 8) (a : Fin (win4 k).shape.rank) (h : k ≠ 0 ∧ k ≠ 5 ∨ a.val ≠ 0)
    (y : ((win4 k).xblock (grid4.coords t)).Idx) : (((win4 k).rect t).emb y a : ℕ) = y a :=
  (win4 k).rect_emb_val_of_index_zero t a (r4_idx_0 t k a h) y

section Blocks

variable {F : FTy → Type} [FloatOps F]
variable (V : (c : Dev nD) → (b : Ref sig .tc) → Buf (Elt F) ((c : Thread nD τ).loc b)) (c : Dev nD) (t : Fin cfg4.N)

abbrev r4_A : Vec F S100000x64 .f32 := V c (Pipeline.arrRef spec4 0)
abbrev r4_W1 : Vec F S64x64 .f32 := V c (Pipeline.arrRef spec4 1)
abbrev r4_B1 : Vec F S1x64 .f32 := V c (Pipeline.arrRef spec4 2)
abbrev r4_W2 : Vec F S64x64 .f32 := V c (Pipeline.arrRef spec4 3)
abbrev r4_B2 : Vec F S1x64 .f32 := V c (Pipeline.arrRef spec4 4)

abbrev r4_xblk : Vec F S10000x64 .f32 := iblk4 V c 0 t

theorem r4_xblk_apply (p : Fin 10000) (q : Fin 64) (n : Fin 100000) (hn : n.val = 10000 * t.val + p.val) :
    r4_xblk V c t (ix2 p q) = r4_A V c (ix2 n q) :=
  congrArg (r4_A V c) (Shape.idx_ext₂
    (((win4_0.rect_emb_val t _ 0).trans (congrArg (· + p.val) (r4_off_t t).1)).trans hn.symm) (r4_emb_0 t 0 1 (by decide) _))

theorem r4_w1blk_eq : (iblk4 V c 1 t : Vec F S64x64 .f32) = r4_W1 V c :=
  funext fun j => congrArg (r4_W1 V c) (Shape.idx_ext₂ (r4_emb_0 t 1 0 (by decide) j) (r4_emb_0 t 1 1 (by decide) j))
theorem r4_b1blk_eq : (iblk4 V c 2 t : Vec F S1x64 .f32) = r4_B1 V c :=
  funext fun j => congrArg (r4_B1 V c) (Shape.idx_ext₂ (r4_emb_0 t 2 0 (by decide) j) (r4_emb_0 t 2 1 (by decide) j))
theorem r4_w2blk_eq : (iblk4 V c 3 t : Vec F S64x64 .f32) = r4_W2 V c :=
  funext fun j => congrArg (r4_W2 V c) (Shape.idx_ext₂ (r4_emb_0 t 3 0 (by decide) j) (r4_emb_0 t 3 1 (by decide) j))
theorem r4_b2blk_eq : (iblk4 V c 4 t : Vec F S1x64 .f32) = r4_B2 V c :=
  funext fun j => congrArg (r4_B2 V c) (Shape.idx_ext₂ (r4_emb_0 t 4 0 (by decide) j) (r4_emb_0 t 4 1 (by decide) j))

end Blocks

variable (V : (c : Dev nD) → (b : Ref sig .tc) → Buf (Elt Ideal) ((c : Thread nD τ).loc b)) (c : Dev nD)

-- If every written block agrees with G where it lands, and these blocks cover all indices, the array is G.
theorem r4_arr_eq (k : Fin cfg4.W) (G : Buf (Elt Ideal) ((cfg4.win k).arr.view.loc (c.tc : Thread nD τ)))
    (hG : ∀ t, (cfg4.win k).flush t = true → ∀ y,
      HEq ((dat4 V c).after k t ((cfg4.win k).xinj (grid4.coords t) y)) (G (((cfg4.win k).blk t).view.emb y)))
    (hc : ∀ i : ((cfg4.win k).arr.view.loc (c.tc : Thread nD τ)).2.ty.Idx,
      ∃ t, (cfg4.win k).flush t = true ∧ i ∈ ((cfg4.win k).blk t).view.set) : (dat4 V c).arrAt k cfg4.N = G :=
  (dat4 V c).arrAt_eq_of_cover k G (fun t hf => funext fun y => eq_of_heq ((hG t hf y).trans (cast_heq _ _).symm)) hc

section Values

variable (t : Fin cfg4.N)

def r4_hval (n : Fin 100000) (d : Fin 64) : EReal :=
  (∑ k : Fin 64, max ((∑ j : Fin 64, r4_A V c (ix2 n j) * r4_W1 V c (ix2 j k)) + r4_B1 V c (ix2 0 k)) 0
    * r4_W2 V c (ix2 k d)) + r4_B2 V c (ix2 0 d)

def r4_H : Vec Ideal S100000x64 .f32 := fun i => r4_hval V c (i 0) (i 1)

-- Block t of the layer's output is rows 10000 t, …, 10000 t + 9999 of H.
theorem r4_h2At_idx (j : S10000x64.Idx) (i : S100000x64.Idx)
    (h0 : (i 0).val = 10000 * t.val + (j 0).val) (h1 : (i 1).val = (j 1).val) : h2At4 V c t j = r4_H V c i := by
  obtain ⟨p, q, rfl⟩ : ∃ (p : Fin 10000) (q : Fin 64), j = ix2 p q := ⟨j 0, j 1, eq_ix2 j⟩
  unfold h2At4
  rw [r4_w1blk_eq, r4_b1blk_eq, r4_w2blk_eq, r4_b2blk_eq, r4_pay4_apply]
  show _ = r4_hval V c (i 0) (i 1)
  rw [show i 1 = q from Fin.ext h1]
  unfold r4_hval
  simp only [fun j => r4_xblk_apply V c t p j (i 0) h0]

-- The ten row blocks tile the array.
theorem arrAt4_5_eq : (dat4 V c).arrAt 5 cfg4.N = r4_H V c :=
  r4_arr_eq V c 5 (r4_H V c)
    (fun t _ y => heq_of_eq (by
      rw [after4_5]
      exact r4_h2At_idx V c t _ _
        ((win4_5.rect_emb_val t y 0).trans (congrArg (· + _) (r4_off_t t).2)) (r4_emb_0 t 5 1 (by decide) y)))
    fun (i : S100000x64.Idx) => by
      have hi : (i 0).val < 100000 := (i 0).isLt
      have hN : cfg4.N = 10 := N_4
      obtain ⟨t, ht⟩ : ∃ t : Fin cfg4.N, t.val = (i 0).val / 10000 := ⟨⟨_, by omega⟩, rfl⟩
      exact ⟨t, flush4_5 t, Finset.mem_map.mpr ⟨ix2 ⟨(i 0).val % 10000, by omega⟩ (i 1), Finset.mem_univ _, Shape.idx_ext₂
        (((win4_5.rect_emb_val t _ 0).trans (congrArg (· + _) (r4_off_t t).2)).trans (by rw [ht]; exact Nat.div_add_mod _ _))
        (r4_emb_0 t 5 1 (by decide) _)⟩⟩

end Values

section Sums

variable (d : Fin 64) (f : EReal → EReal)

def r4_hcol (i : ℕ) : EReal := if h : i < 100000 then r4_hval V c ⟨i, h⟩ d else 0

theorem r4_h2At_hcol (t : Fin cfg4.N) (r : Fin 10000) :
    h2At4 V c t (ix2 r d) = r4_hcol V c d (10000 * t.val + r.val) := by
  have ht : t.val < 10 := N_4 ▸ t.isLt
  have hlt : 10000 * t.val + r.val < 100000 := by have := r.isLt; omega
  rw [r4_hcol, dif_pos hlt]
  exact r4_h2At_idx V c t (ix2 r d) (ix2 ⟨_, hlt⟩ d) rfl rfl

theorem r4_blockSum (t : Fin cfg4.N) :
    ∑ r : Fin 10000, f (h2At4 V c t (ix2 r d)) = ∑ r ∈ Finset.range 10000, f (r4_hcol V c d (10000 * t.val + r)) := by
  rw [Finset.sum_range]
  exact Finset.sum_congr rfl fun r _ => by rw [r4_h2At_hcol]

theorem r4_sum_hcol : ∑ i ∈ Finset.range 100000, f (r4_hcol V c d i) = ∑ n : Fin 100000, f (r4_hval V c n d) := by
  rw [Finset.sum_range]
  exact Finset.sum_congr rfl fun n _ => by rw [r4_hcol, dif_pos n.isLt]

def r4_F : Vec Ideal S1x64 .f32 := fun i => ∑ n : Fin 100000, f (r4_hval V c n (i 1))

variable (X : (n : ℕ) → n < cfg4.N → Vec Ideal S1x64 .f32)
  (h0 : ∀ d hn, X 0 hn (ix2 0 d) = 0 + ∑ r : Fin 10000, f (h2At4 V c ⟨0, hn⟩ (ix2 r d)))
  (hs : ∀ d n hn, X (n + 1) hn (ix2 0 d)
    = X n (Nat.lt_of_succ_lt hn) (ix2 0 d) + ∑ r : Fin 10000, f (h2At4 V c ⟨n + 1, hn⟩ (ix2 r d)))
include h0 hs

-- A row accumulated block by block holds, after block n, the sum of f over the first 10000 (n + 1) rows of H.
theorem r4_run : ∀ n hn, X n hn (ix2 0 d) = ∑ i ∈ Finset.range (10000 * (n + 1)), f (r4_hcol V c d i)
  | 0, hn => by
    rw [h0, zero_add, r4_blockSum]
    simp only [Nat.mul_zero, Nat.zero_add, Nat.mul_one]
  | n + 1, hn => by
    rw [hs, r4_run n, r4_blockSum, show 10000 * (n + 1 + 1) = 10000 * (n + 1) + 10000 from by omega, Finset.sum_range_add]

theorem r4_run_idx (t : Fin cfg4.N) (h9 : t.val % 10 = 9) (j i : S1x64.Idx) (h1 : (i 1).val = (j 1).val) :
    X t.val t.isLt j = r4_F V c f i := by
  obtain ⟨p, q, rfl⟩ : ∃ (p : Fin 1) (q : Fin 64), j = ix2 p q := ⟨j 0, j 1, eq_ix2 j⟩
  obtain rfl : p = 0 := Subsingleton.elim _ _
  obtain rfl : i 1 = q := Fin.ext h1
  have hN : cfg4.N = 10 := N_4
  have h9 : t.val = 9 := by have := t.isLt; omega
  rw [r4_run V c (i 1) f X h0 hs, h9]
  exact r4_sum_hcol V c (i 1) f

end Sums

theorem arrAt4_6_eq : (dat4 V c).arrAt 6 cfg4.N = r4_F V c id :=
  r4_arr_eq V c 6 _
    (fun t hf y => heq_of_eq (by
      rw [after4_6]
      exact r4_run_idx V c id (sumAt4 V c)
        (fun d hn => by rw [sumAt4_zero]; exact (r4_colStep (k4_pay2 (F := Ideal)) _ _ _ _ d).trans (congrArg (· + _) Ideal.ofBits_zero_f32))
        (fun d n hn => by rw [sumAt4_succ]; exact r4_colStep _ _ _ _ _ d)
        t ((flush4_6 t).mp hf) _ _ (r4_emb_0 t 6 1 (by decide) y)))
    fun i => ⟨t4_9, (flush4_6 t4_9).mpr rfl, Finset.mem_map.mpr ⟨i, Finset.mem_univ _,
      Shape.idx_ext₂ (r4_emb_0 t4_9 6 0 (by decide) i) (r4_emb_0 t4_9 6 1 (by decide) i)⟩⟩

theorem arrAt4_7_eq : (dat4 V c).arrAt 7 cfg4.N = r4_F V c fun x => x * x :=
  r4_arr_eq V c 7 _
    (fun t hf y => heq_of_eq (by
      rw [after4_7]
      exact r4_run_idx V c (fun x => x * x) (sqAt4 V c)
        (fun d hn => by rw [sqAt4_zero]; exact (r4_colStep (k4_pay3 (F := Ideal)) _ (mulf _ _) _ _ d).trans (congrArg (· + _) Ideal.ofBits_zero_f32))
        (fun d n hn => by rw [sqAt4_succ]; exact r4_colStep _ _ (mulf _ _) _ _ d)
        t ((flush4_7 t).mp hf) _ _ (r4_emb_0 t 7 1 (by decide) y)))
    fun i => ⟨t4_9, (flush4_7 t4_9).mpr rfl, Finset.mem_map.mpr ⟨i, Finset.mem_univ _,
      Shape.idx_ext₂ (r4_emb_0 t4_9 7 0 (by decide) i) (r4_emb_0 t4_9 7 1 (by decide) i)⟩⟩

abbrev r4_out5 : Vec Ideal S100000x64 .f32 := (dat4 V c).arrAt 5 cfg4.N
abbrev r4_out6 : Vec Ideal S1x64 .f32 := (dat4 V c).arrAt 6 cfg4.N
abbrev r4_out7 : Vec Ideal S1x64 .f32 := (dat4 V c).arrAt 7 cfg4.N

theorem arrAt4_5 (n : Fin 100000) (d : Fin 64) :
    r4_out5 V c (ix2 n d)
      = (∑ k : Fin 64, max ((∑ j : Fin 64, r4_A V c (ix2 n j) * r4_W1 V c (ix2 j k)) + r4_B1 V c (ix2 0 k)) 0
          * r4_W2 V c (ix2 k d)) + r4_B2 V c (ix2 0 d) :=
  congrFun (arrAt4_5_eq V c) (ix2 n d)

theorem arrAt4_6 (d : Fin 64) : r4_out6 V c (ix2 0 d) = ∑ n : Fin 100000, r4_out5 V c (ix2 n d) := by
  rw [r4_out6, arrAt4_6_eq, r4_out5, arrAt4_5_eq]
  rfl

theorem arrAt4_7 (d : Fin 64) :
    r4_out7 V c (ix2 0 d) = ∑ n : Fin 100000, r4_out5 V c (ix2 n d) * r4_out5 V c (ix2 n d) := by
  rw [r4_out7, arrAt4_7_eq, r4_out5, arrAt4_5_eq]
  rfl

end Cert.KernelIdeal.Val

end
-- ==== Proof.KI.Val5.lean ====
import proofs.«406370_j7258494730854_1_alg».proof.Proof.KI.Rg5
import proofs.«406370_j7258494730854_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Rg
open Idealize.ShloMosaic Idealize.ShloMosaic.TcCoe Idealize.SL.Sem
open Idealize.ShloMosaic.Pipeline (Dat)
open Idealize.ShloMosaic.ValueIdx

theorem hz5 : (![0, 0] : Fin 2 → Nat) = fun _ => 0 := funext fun a => by fin_cases a <;> rfl

theorem out5_5_apply (x0 : Vec Ideal S10000x64 .f32) (x1 x2 x3 x4 : Vec Ideal S1x64 .f32) (p : Fin 10000) (q : Fin 64) :
    out5_5 (F := Ideal) x0 x1 x2 x3 x4 (ix2 p q)
      = max ((((x0 (ix2 p q) - x1 (ix2 0 q)) * Ideal.rsqrt (x2 (ix2 0 q) + Cert.Spec.cEps)) * x3 (ix2 0 q)) + x4 (ix2 0 q)) 0 := by
  unfold out5_5
  rw [View.canon_unit_zero hz5]
  simp only [View.ld_unit_zero (S := S10000x64) hz5, View.ld_unit_zero (S := S1x64) hz5]
  unfold k5_pay1
  simp only [shapeCast_self, maximumf_apply, addf_apply, mulf_apply, subf_apply, broadcast_apply, broadcastTo_1b_ab_apply,
    Ideal.ofBits_def, Ideal.ofBits_zero_f32]
  rfl

theorem idx5_0 : ∀ (t : Fin grid5.N) (k : Fin 6) (a : Fin (win5 k).shape.rank),
    k ≠ 0 ∧ k ≠ 5 ∨ a.val ≠ 0 → (win5 k).index t a = 0 := by decide +kernel

theorem off5_t : ∀ t : Fin grid5.N, win5_0.index t (0 : Fin 2) * win5_0.size (0 : Fin 2) = 10000 * t.val
    ∧ win5_5.index t (0 : Fin 2) * win5_5.size (0 : Fin 2) = 10000 * t.val := by decide +kernel

theorem emb5_0 (t : Fin cfg5.N) (k : Fin 6) (a : Fin (win5 k).shape.rank) (h : k ≠ 0 ∧ k ≠ 5 ∨ a.val ≠ 0)
    (y : ((win5 k).xblock (grid5.coords t)).Idx) : (((win5 k).rect t).emb y a : ℕ) = y a :=
  (win5 k).rect_emb_val_of_index_zero t a (idx5_0 t k a h) y

section Blocks

variable {F : FTy → Type} [FloatOps F]
variable (V : (c : Dev nD) → (b : Ref sig .tc) → Buf (Elt F) ((c : Thread nD τ).loc b)) (c : Dev nD) (t : Fin cfg5.N)

abbrev xarr5 : Vec F S100000x64 .f32 := V c (Pipeline.arrRef spec5 0)
abbrev mean5 : Vec F S1x64 .f32 := V c (Pipeline.arrRef spec5 1)
abbrev var5 : Vec F S1x64 .f32 := V c (Pipeline.arrRef spec5 2)
abbrev scale5 : Vec F S1x64 .f32 := V c (Pipeline.arrRef spec5 3)
abbrev shift5 : Vec F S1x64 .f32 := V c (Pipeline.arrRef spec5 4)

theorem iblk5_0_apply (p : Fin 10000) (q : Fin 64) (n : Fin 100000) (hn : n.val = 10000 * t.val + p.val) :
    (iblk5 V c 0 t : Vec F S10000x64 .f32) (ix2 p q) = xarr5 V c (ix2 n q) :=
  congrArg (xarr5 V c) (Shape.idx_ext₂
    (((win5_0.rect_emb_val t _ 0).trans (congrArg (· + p.val) (off5_t t).1)).trans hn.symm) (emb5_0 t 0 1 (by decide) _))

theorem iblk5_1_eq : (iblk5 V c 1 t : Vec F S1x64 .f32) = mean5 V c :=
  funext fun j => congrArg (mean5 V c) (Shape.idx_ext₂ (emb5_0 t 1 0 (by decide) j) (emb5_0 t 1 1 (by decide) j))
theorem iblk5_2_eq : (iblk5 V c 2 t : Vec F S1x64 .f32) = var5 V c :=
  funext fun j => congrArg (var5 V c) (Shape.idx_ext₂ (emb5_0 t 2 0 (by decide) j) (emb5_0 t 2 1 (by decide) j))
theorem iblk5_3_eq : (iblk5 V c 3 t : Vec F S1x64 .f32) = scale5 V c :=
  funext fun j => congrArg (scale5 V c) (Shape.idx_ext₂ (emb5_0 t 3 0 (by decide) j) (emb5_0 t 3 1 (by decide) j))
theorem iblk5_4_eq : (iblk5 V c 4 t : Vec F S1x64 .f32) = shift5 V c :=
  funext fun j => congrArg (shift5 V c) (Shape.idx_ext₂ (emb5_0 t 4 0 (by decide) j) (emb5_0 t 4 1 (by decide) j))

end Blocks

variable (W : (c : Dev nD) → (b : Ref sig .tc) → Buf (Elt Ideal) ((c : Thread nD τ).loc b)) (c : Dev nD)

abbrev bn5 : Vec Ideal S100000x64 .f32 := fun i =>
  max ((((xarr5 W c i - mean5 W c (ix2 0 (i 1))) * Ideal.rsqrt (var5 W c (ix2 0 (i 1)) + Cert.Spec.cEps))
    * scale5 W c (ix2 0 (i 1))) + shift5 W c (ix2 0 (i 1))) 0

-- The ten row blocks tile the array, and block t holds the normalised rows 10000 t, …, 10000 t + 9999.
theorem arr5_5 : (dat5 (F := Ideal) W c).arrAt 5 cfg5.N = bn5 W c :=
  (dat5 (F := Ideal) W c).arrAt_eq_of_cover 5 _
    (fun t _ => by
      show (cfg5.win 5).cut (grid5.coords t) ((dat5 W c).after 5 t) = _
      rw [after5_5]
      funext j
      obtain ⟨p, q, rfl⟩ : ∃ (p : Fin 10000) (q : Fin 64), j = ix2 p q := ⟨j 0, j 1, eq_ix2 j⟩
      have ht : t.val < 10 := lt_of_lt_of_eq t.isLt N_5
      have hn : 10000 * t.val + p.val < 100000 := by have := p.isLt; omega
      show out5_5 (F := Ideal) (iblk5 W c 0 t) (iblk5 W c 1 t) (iblk5 W c 2 t) (iblk5 W c 3 t) (iblk5 W c 4 t) (ix2 p q)
        = bn5 W c (((cfg5.win 5).blk t).view.emb (ix2 p q))
      rw [show ((cfg5.win 5).blk t).view.emb (ix2 p q) = ix2 (⟨10000 * t.val + p.val, hn⟩ : Fin 100000) q from
          Shape.idx_ext₂ ((win5_5.rect_emb_val t _ 0).trans (congrArg (· + p.val) (off5_t t).2)) (emb5_0 t 5 1 (by decide) _),
        out5_5_apply, iblk5_0_apply W c t p q ⟨_, hn⟩ rfl, iblk5_1_eq, iblk5_2_eq, iblk5_3_eq, iblk5_4_eq])
    fun (i : S100000x64.Idx) => by
      have hi : (i 0).val < 100000 := (i 0).isLt
      have hN : cfg5.N = 10 := N_5
      obtain ⟨t, ht⟩ : ∃ t : Fin cfg5.N, t.val = (i 0).val / 10000 := ⟨⟨_, by omega⟩, rfl⟩
      exact ⟨t, flush5_5 t, Finset.mem_map.mpr ⟨ix2 ⟨(i 0).val % 10000, by omega⟩ (i 1), Finset.mem_univ _, Shape.idx_ext₂
        (((win5_5.rect_emb_val t _ 0).trans (congrArg (· + _) (off5_t t).2)).trans (by rw [ht]; exact Nat.div_add_mod _ _))
        (emb5_0 t 5 1 (by decide) _)⟩⟩

theorem arrAt5_5 (n : Fin 100000) (d : Fin 64) :
    (dat5 (F := Ideal) W c).arrAt 5 cfg5.N (ix2 n d)
      = max ((((xarr5 W c (ix2 n d) - mean5 W c (ix2 0 d)) * Ideal.rsqrt (var5 W c (ix2 0 d) + Cert.Spec.cEps))
          * scale5 W c (ix2 0 d)) + shift5 W c (ix2 0 d)) 0 := by
  rw [arr5_5]

end Cert.KernelIdeal.Val

end
-- ==== Proof.KI.Val6.lean ====
import proofs.«406370_j7258494730854_1_alg».proof.Proof.KI.Rg6
import proofs.«406370_j7258494730854_1_alg».proof.Proof.Spec
import proofs.«406370_j7258494730854_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.ShloMosaic.Pipeline (Dat)

theorem onehot (b : BitVec 32) (g : Fin 1024) :
    (FloatOps.sitofp (F := Ideal) .f32 ((IntOp.cmpi .eq b (BitVec.ofNat 32 g.val)).setWidth 32) : EReal)
      = if b.toInt = (g.val : ℤ) then 1 else 0 := by
  have hg : (BitVec.ofNat 32 g.val).toInt = (g.val : ℤ) := by
    have := g.isLt
    rw [BitVec.toInt_eq_toNat_cond, BitVec.toNat_ofNat, Nat.mod_eq_of_lt (by omega)]
    split <;> omega
  show (((((BitVec.ofBool (b == BitVec.ofNat 32 g.val)).setWidth 32).toInt : ℝ)) : EReal) = _
  by_cases h : b = BitVec.ofNat 32 g.val
  · rw [if_pos (h ▸ hg), beq_iff_eq.mpr h, show ((BitVec.ofBool true).setWidth 32).toInt = 1 by decide]; simp
  · rw [if_neg fun e => h (BitVec.toInt_inj.mp (e.trans hg.symm)), beq_eq_false_iff_ne.mpr h,
      show ((BitVec.ofBool false).setWidth 32).toInt = 0 by decide]; simp

abbrev nodeEquiv : dot_S1000x1024_S1000x64_S1024x64_0_0_1_1_n_n.contr.Idx ≃ Fin 1000 :=
  contrEquiv1 dot_S1000x1024_S1000x64_S1024x64_0_0_1_1_n_n 1000 rfl rfl

theorem lhsD_eq (g : Fin 1024) (k : Fin 64) (n : Fin 1000) :
    dot_S1000x1024_S1000x64_S1024x64_0_0_1_1_n_n.lhsIdx (ix2 g k) (nodeEquiv.symm n) = ix2 n g :=
  Shape.idx_ext₂ ((DotDims.lhsIdx_val_of_single _ rfl _ _).trans (contrEquiv1_symm_val _ 1000 rfl rfl n)) rfl

theorem rhsD_eq (g : Fin 1024) (k : Fin 64) (n : Fin 1000) :
    dot_S1000x1024_S1000x64_S1024x64_0_0_1_1_n_n.rhsIdx (ix2 g k) (nodeEquiv.symm n) = ix2 n k :=
  Shape.idx_ext₂ ((DotDims.rhsIdx_val_of_single _ rfl _ _).trans (contrEquiv1_symm_val _ 1000 rfl rfl n)) rfl

theorem r6_pay1_apply (g : Fin 1024) (k : Fin 64) : k6_pay1 (F := Ideal) (ix2 g k) = 0 := by
  unfold k6_pay1
  simp only [shapeCast_self]
  show Ideal.ofBits .f32 0x00000000#32 = 0
  exact Ideal.ofBits_zero_f32

-- a one-column array spread over the columns reads that column at the same row
private theorem bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    have := p.isLt
    split <;> omega
  | ⟨1, _⟩ => rfl

theorem r6_pay2_apply (bt : Vec Ideal S1000x1 .i32) (h : Vec Ideal S1000x64 .f32) (a : Vec Ideal S1024x64 .f32)
    (g : Fin 1024) (k : Fin 64) :
    k6_pay2 bt h a (ix2 g k)
      = a (ix2 g k) + ∑ n : Fin 1000, (if (bt (ix2 n (0 : Fin 1))).toInt = (g.val : ℤ) then h (ix2 n k) else 0) := by
  unfold k6_pay2
  simp only [shapeCast_self]
  refine (addf_apply _ _ _).trans ?_
  refine congrArg (a (ix2 g k) + ·) ?_
  refine (Ideal.matmul_constant_zero_apply dot_S1000x1024_S1000x64_S1024x64_0_0_1_1_n_n none _ _ (ix2 g k)).trans ?_
  rw [← Equiv.sum_comp nodeEquiv.symm]
  refine Finset.sum_congr rfl fun n _ => ?_
  rw [lhsD_eq, rhsD_eq]
  show FloatOps.sitofp (F := Ideal) .f32 ((IntOp.cmpi .eq (broadcastTo S1000x1024 bt broadcasts_S1000x1_S1000x1024 (ix2 n g)) (iota .tc S1000x1024 32 [1] iota_S1000x1024_d1_w32 (ix2 n g))).setWidth 32) * h (ix2 n k) = _
  rw [bcast_col, iota_single_apply]
  show FloatOps.sitofp (F := Ideal) .f32 ((IntOp.cmpi .eq (bt (ix2 n (0 : Fin 1))) (BitVec.ofNat 32 g.val)).setWidth 32) * h (ix2 n k) = _
  rw [onehot]
  split
  · exact one_mul _
  · exact zero_mul _

theorem keep_col {α : Type} (v : S1024.Idx → α) (g : Fin 1024) :
    shapeCast S1024x1 v shapeCasts_S1024_S1024x1 (ix2 g (0 : Fin 1)) = v (ix1 g) :=
  shapeCast_apply v _ _ _ (by
    rw [Shape.rowMajor_val_one, Shape.rowMajor_val_two]
    show g.val = g.val * 1 + 0
    omega)

theorem lane_sum (src : FVec Ideal S1024x64 .f32) (hφ : FKind.Formats .f32)
    (hacc : (0x00000000#32 : BitVec 32) = FKind.add.neutral .f32 hφ) (g : Fin 1024) :
    multiReduction (F := Ideal) .add [1] S1024 src 0x00000000#32 reduces_S1024x64_S1024 hφ hacc (ix1 g)
      = ∑ e : Fin 64, src (ix2 g e) := by
  refine (Ideal.multiReduction_add_single src 0x00000000#32 reduces_S1024x64_S1024 hφ hacc (ix1 g)).trans ?_
  refine Finset.sum_congr rfl fun e _ => congrArg src ?_
  exact Shape.idx_ext₂ rfl rfl

def projK (P : Vec Ideal S1024x64 .f32) (cnt : Vec Ideal S1024x1 .f32) (pw : Vec Ideal S64x64 .f32)
    (pb : Vec Ideal S1x64 .f32) : FVec Ideal S1024x64 .f32 :=
  addf (matmul dot_S1024x64_S64x64_S1024x64_1_0_0_1_n_n none
      (truncf .bf16 (divf P (broadcastTo S1024x64 (maximumf (shapeCast S1024x1 cnt shapeCasts_S1024x1_S1024x1)
        (broadcast S1024x1 (Scalar.ofBits .f32 0x3F800000#32))) broadcasts_S1024x1_S1024x64)) bitsLt_bf16_f32)
      (truncf .bf16 pw bitsLt_bf16_f32) (constant S1024x64 .f32 0x00000000#32))
    (broadcastTo S1024x64 (shapeCast S1x64 pb shapeCasts_S1x64_S1x64) broadcasts_S1x64_S1024x64)

theorem projK_apply (P : Vec Ideal S1024x64 .f32) (cnt : Vec Ideal S1024x1 .f32) (pw : Vec Ideal S64x64 .f32)
    (pb : Vec Ideal S1x64 .f32) (g : Fin 1024) (d : Fin 64) :
    projK P cnt pw pb (ix2 g d)
      = Cert.Spec.proj (fun g k => P (ix2 g k)) (fun g => cnt (ix2 g (0 : Fin 1))) (fun k d => pw (ix2 k d))
          (fun d => pb (ix2 (0 : Fin 1) d)) g d := by
  unfold projK Cert.Spec.proj
  simp only [shapeCast_self]
  refine (addf_apply _ _ _).trans ?_
  refine congrArg₂ (· + ·) ?_ (broadcastTo_1b_ab_apply pb _ g d)
  refine (Cert.Lib.PlainDot.matmul_zero_apply (M := 1024) (K := 64) (N := 64) none _ _ g d).trans ?_
  refine Finset.sum_congr rfl fun k _ => ?_
  show Ideal.div (P (ix2 g k)) (broadcastTo S1024x64 _ broadcasts_S1024x1_S1024x64 (ix2 g k)) * pw (ix2 k d) = _
  rw [bcast_col]
  rfl

theorem r6_pay3_apply (P : Vec Ideal S1024x64 .f32) (cnt : Vec Ideal S1024x1 .f32) (pw : Vec Ideal S64x64 .f32)
    (pb : Vec Ideal S1x64 .f32) (g : Fin 1024) (d : Fin 64) :
    k6_pay3 P cnt pw pb (ix2 g d)
      = Cert.Spec.head (fun g k => P (ix2 g k)) (fun g => cnt (ix2 g (0 : Fin 1))) (fun k d => pw (ix2 k d))
          (fun d => pb (ix2 (0 : Fin 1) d)) g d := by
  unfold k6_pay3 Cert.Spec.head
  refine (divf_apply _ _ _).trans ?_
  rw [bcast_col]
  show Ideal.div (projK P cnt pw pb (ix2 g d)) (max (Ideal.sqrt (shapeCast S1024x1 _ shapeCasts_S1024_S1024x1 (ix2 g (0 : Fin 1)))) Cert.Spec.cTiny) = _
  rw [keep_col, projK_apply]
  refine congrArg (fun s => Ideal.div _ (max (Ideal.sqrt s) Cert.Spec.cTiny)) ?_
  refine (lane_sum _ _ _ g).trans ?_
  refine Finset.sum_congr rfl fun e _ => ?_
  show projK P cnt pw pb (ix2 g e) * projK P cnt pw pb (ix2 g e) = _
  rw [projK_apply]

section Blocks

variable {F : FTy → Type} [FloatOps F]
variable (V : (c : Dev nD) → (b : Ref sig .tc) → Buf (Elt F) ((c : Thread nD τ).loc b))

abbrev hArr (c : Dev nD) : Vec F S100000x64 .f32 := V c (Pipeline.arrRef spec6 0)
abbrev btArr (c : Dev nD) : Vec F S100000x1 .i32 := V c (Pipeline.arrRef spec6 1)
abbrev cntArr (c : Dev nD) : Vec F S1024x1 .f32 := V c (Pipeline.arrRef spec6 2)
abbrev pwArr (c : Dev nD) : Vec F S64x64 .f32 := V c (Pipeline.arrRef spec6 3)
abbrev pbArr (c : Dev nD) : Vec F S1x64 .f32 := V c (Pipeline.arrRef spec6 4)

abbrev hBlk (c : Dev nD) (t : Fin cfg6.N) : Vec F S1000x64 .f32 := iblk6 V c 0 t
abbrev btBlk (c : Dev nD) (t : Fin cfg6.N) : Vec F S1000x1 .i32 := iblk6 V c 1 t

private theorem idxRow : ∀ t : Fin grid6.N,
    (win6_0.index t 0 = t.val ∧ win6_0.index t 1 = 0) ∧ win6_1.index t 0 = t.val ∧ win6_1.index t 1 = 0 := by
  decide +kernel

private theorem idxZ : ∀ (t : Fin grid6.N) (a : Fin 2),
    win6_2.index t a = 0 ∧ win6_3.index t a = 0 ∧ win6_4.index t a = 0 ∧ win6_5.index t a = 0 := by
  decide +kernel

-- all of an array, read from offset zero, is the array
private theorem whole_blk {b : Ref sig .tc} (ix : Fin b.ty.shape.rank → ℕ) (h : ∀ a, ix a = 0)
    (inb : ∀ a, ix a * b.ty.shape.size a + b.ty.shape.size a ≤ b.ty.shape.size a) (f : b.ty.Contents (Elt F)) :
    ((Memref.whole b).access (Rect.unit (fun a => ix a * b.ty.shape.size a) b.ty.shape.size inb) : View sig .tc _ _ _).read (Elt F) f = f :=
  Memref.read_access_unit_zero (Elt F) b (funext fun a => by rw [h a, Nat.zero_mul]) inb f

theorem hBlk_apply (c : Dev nD) (t : Fin cfg6.N) (r : Fin 1000) (k : Fin 64) (hlt : 1000 * t.val + r.val < 100000) :
    hBlk V c t (ix2 r k) = hArr V c (ix2 (⟨1000 * t.val + r.val, hlt⟩ : Fin 100000) k) := by
  show V c (Pipeline.arrRef spec6 0) _ = V c (Pipeline.arrRef spec6 0) _
  refine congrArg _ (Shape.idx_ext₂ ?_ ?_)
  · show win6_0.index t 0 * 1000 + 1 * r.val = 1000 * t.val + r.val; rw [(idxRow t).1.1]; omega
  · show win6_0.index t 1 * 64 + 1 * k.val = k.val; rw [(idxRow t).1.2]; omega

theorem btBlk_apply (c : Dev nD) (t : Fin cfg6.N) (r : Fin 1000) (hlt : 1000 * t.val + r.val < 100000) :
    btBlk V c t (ix2 r (0 : Fin 1)) = btArr V c (ix2 (⟨1000 * t.val + r.val, hlt⟩ : Fin 100000) (0 : Fin 1)) := by
  show V c (Pipeline.arrRef spec6 1) _ = V c (Pipeline.arrRef spec6 1) _
  refine congrArg _ (Shape.idx_ext₂ ?_ ?_)
  · show win6_1.index t 0 * 1000 + 1 * r.val = 1000 * t.val + r.val; rw [(idxRow t).2.1]; omega
  · show win6_1.index t 1 * 1 + 1 * 0 = 0; rw [(idxRow t).2.2]

theorem cntBlk_eq (c : Dev nD) (t : Fin cfg6.N) : (iblk6 V c 2 t : Vec F S1024x1 .f32) = cntArr V c :=
  whole_blk (b := main_v78) (win6_2.index t) (fun a => (idxZ t a).1) _ _

theorem pwBlk_eq (c : Dev nD) (t : Fin cfg6.N) : (iblk6 V c 3 t : Vec F S64x64 .f32) = pwArr V c :=
  whole_blk (b := main_arg21) (win6_3.index t) (fun a => (idxZ t a).2.1) _ _

theorem pbBlk_eq (c : Dev nD) (t : Fin cfg6.N) : (iblk6 V c 4 t : Vec F S1x64 .f32) = pbArr V c :=
  whole_blk (b := main_v79) (win6_4.index t) (fun a => (idxZ t a).2.2.1) _ _

end Blocks

section AtIdeal

variable (V : (c : Dev nD) → (b : Ref sig .tc) → Buf (Elt Ideal) ((c : Thread nD τ).loc b))

def term (c : Dev nD) (g : Fin 1024) (k : Fin 64) (m : ℕ) : EReal :=
  if h : m < 100000 then
    (if (btArr V c (ix2 (⟨m, h⟩ : Fin 100000) (0 : Fin 1))).toInt = (g.val : ℤ) then hArr V c (ix2 (⟨m, h⟩ : Fin 100000) k) else 0)
  else 0

theorem block_sum (c : Dev nD) (t : Fin cfg6.N) (g : Fin 1024) (k : Fin 64) :
    (∑ r : Fin 1000, (if (btBlk V c t (ix2 r (0 : Fin 1))).toInt = (g.val : ℤ) then hBlk V c t (ix2 r k) else 0))
      = ∑ r ∈ Finset.range 1000, term V c g k (1000 * t.val + r) := by
  have hN : cfg6.N = 100 := N_6
  have ht : t.val < 100 := by have := t.isLt; omega
  rw [← Fin.sum_univ_eq_sum_range (fun r => term V c g k (1000 * t.val + r)) 1000]
  refine Finset.sum_congr rfl fun r _ => ?_
  have hlt : 1000 * t.val + r.val < 100000 := by have := r.isLt; omega
  unfold term
  rw [dif_pos hlt, hBlk_apply V c t r k hlt, btBlk_apply V c t r hlt]

theorem acc6_apply (c : Dev nD) (g : Fin 1024) (k : Fin 64) : ∀ (n : ℕ) (hn : n < cfg6.N),
    acc6 V c n hn (ix2 g k) = ∑ m ∈ Finset.range (1000 * (n + 1)), term V c g k m
  | 0, hn => by
    rw [acc6_zero]
    refine (r6_pay2_apply (btBlk V c ⟨0, hn⟩) (hBlk V c ⟨0, hn⟩) (k6_pay1 (F := Ideal)) g k).trans ?_
    rw [r6_pay1_apply, zero_add, block_sum V c ⟨0, hn⟩ g k]
    refine Finset.sum_congr rfl fun r _ => ?_
    show term V c g k (1000 * 0 + r) = _
    rw [Nat.mul_zero, Nat.zero_add]
  | n + 1, hn => by
    rw [acc6_succ]
    refine (r6_pay2_apply (btBlk V c ⟨n + 1, hn⟩) (hBlk V c ⟨n + 1, hn⟩) (acc6 V c n (Nat.lt_of_succ_lt hn)) g k).trans ?_
    rw [acc6_apply c g k n (Nat.lt_of_succ_lt hn), block_sum V c ⟨n + 1, hn⟩ g k,
      show 1000 * (n + 1 + 1) = 1000 * (n + 1) + 1000 by omega, Finset.sum_range_add]

theorem pool_eq (c : Dev nD) (g : Fin 1024) (k : Fin 64) :
    ∑ m ∈ Finset.range 100000, term V c g k m
      = Cert.Spec.pool (fun n k => hArr V c (ix2 n k)) (fun n => btArr V c (ix2 n (0 : Fin 1))) g k := by
  unfold Cert.Spec.pool
  rw [← Fin.sum_univ_eq_sum_range (fun m => term V c g k m) 100000]
  refine Finset.sum_congr rfl fun m _ => ?_
  unfold term
  rw [dif_pos m.isLt]

abbrev result6 (c : Dev nD) : Buf (Elt Ideal) ((c : Thread nD τ).loc main_v80) := fun i =>
  Cert.Spec.head (Cert.Spec.pool (fun n k => hArr V c (ix2 n k)) (fun n => btArr V c (ix2 n (0 : Fin 1))))
    (fun g => cntArr V c (ix2 g (0 : Fin 1))) (fun k d => pwArr V c (ix2 k d)) (fun d => pbArr V c (ix2 (0 : Fin 1) d)) (i 0) (i 1)

theorem out6_last (c : Dev nD) (t : Fin cfg6.N) (h99 : t.val = 99) : out6 V c t = result6 V c := by
  funext j
  obtain ⟨g, d, rfl⟩ : ∃ (g : Fin 1024) (d : Fin 64), j = ix2 g d := ⟨j 0, j 1, eq_ix2 j⟩
  unfold out6
  rw [cntBlk_eq, pwBlk_eq, pbBlk_eq]
  refine (r6_pay3_apply _ _ _ _ g d).trans ?_
  have e : (fun (g' : Fin 1024) (k' : Fin 64) => acc6 V c t.val t.isLt (ix2 g' k'))
      = Cert.Spec.pool (fun n k => hArr V c (ix2 n k)) (fun n => btArr V c (ix2 n (0 : Fin 1))) := by
    funext g' k'
    rw [acc6_apply V c g' k' t.val t.isLt, ← pool_eq V c g' k', h99]
  exact congrArg (fun P => Cert.Spec.head P (fun g => cntArr V c (ix2 g (0 : Fin 1))) (fun k d => pwArr V c (ix2 k d))
    (fun d => pbArr V c (ix2 (0 : Fin 1) d)) g d) e

theorem flushed_eq (c : Dev nD) (t : Fin cfg6.N) (hf : (cfg6.win 5).flush t = true) :
    (dat6 V c).flushed 5 t = ((cfg6.win 5).blk t).view.read (Elt Ideal) (result6 V c) := by
  have hN : cfg6.N = 100 := N_6
  have h99 : t.val = 99 := by have := (flush6_5 t).mp hf; have := t.isLt; omega
  show (cfg6.win 5).cut (grid6.coords t) ((dat6 V c).after 5 t) = _
  rw [after6_5, out6_last V c t h99]
  exact (whole_blk (b := main_v80) (win6_5.index t) (fun a => (idxZ t a).2.2.2) _ _).symm

abbrev t99 : Fin cfg6.N := ⟨99, by decide⟩

theorem cover (i : S1024x64.Idx) : ∃ t : Fin cfg6.N, (cfg6.win 5).flush t = true ∧ i ∈ ((cfg6.win 5).blk t).view.set := by
  have h0 : (i 0 : Nat) < 1024 := (i 0).isLt
  have h1 : (i 1 : Nat) < 64 := (i 1).isLt
  refine ⟨t99, (flush6_5 t99).mpr rfl, ?_⟩
  show i ∈ ((View.whole main_v80).slice (win6_5.rect t99)).set
  rw [View.set_slice_whole, Rect.mem_set_unit]
  intro a
  match a with
  | ⟨0, _⟩ =>
    show win6_5.index t99 0 * win6_5.size 0 ≤ (i 0 : Nat) ∧ (i 0 : Nat) < win6_5.index t99 0 * win6_5.size 0 + win6_5.xsize (grid6.coords t99) 0
    rw [(idxZ t99 0).2.2.2, show win6_5.xsize (grid6.coords t99) 0 = 1024 from by decide +kernel]; omega
  | ⟨1, _⟩ =>
    show win6_5.index t99 1 * win6_5.size 1 ≤ (i 1 : Nat) ∧ (i 1 : Nat) < win6_5.index t99 1 * win6_5.size 1 + win6_5.xsize (grid6.coords t99) 1
    rw [(idxZ t99 1).2.2.2, show win6_5.xsize (grid6.coords t99) 1 = 64 from by decide +kernel]; omega

theorem arrAt6_5 (c : Dev nD) (g : Fin 1024) (d : Fin 64) :
    (dat6 (F := Ideal) V c).arrAt 5 cfg6.N (ix2 g d)
      = Cert.Spec.head (Cert.Spec.pool (fun n k => hArr V c (ix2 n k)) (fun n => btArr V c (ix2 n (0 : Fin 1))))
          (fun g => cntArr V c (ix2 g (0 : Fin 1))) (fun k d => pwArr V c (ix2 k d)) (fun d => pbArr V c (ix2 (0 : Fin 1) d)) g d :=
  congrFun ((dat6 V c).arrAt_eq_of_cover 5 (result6 V c) (flushed_eq V c) cover) (ix2 g d)

end AtIdeal

end Cert.KernelIdeal.Val

end
-- ==== Proof.KI.Value.lean ====
import proofs.«406370_j7258494730854_1_alg».proof.Proof.KI.Fold
import proofs.«406370_j7258494730854_1_alg».proof.Proof.KI.HostVal
import proofs.«406370_j7258494730854_1_alg».proof.Proof.KI.Val0
import proofs.«406370_j7258494730854_1_alg».proof.Proof.KI.Val1
import proofs.«406370_j7258494730854_1_alg».proof.Proof.KI.Val2
import proofs.«406370_j7258494730854_1_alg».proof.Proof.KI.Val3
import proofs.«406370_j7258494730854_1_alg».proof.Proof.KI.Val4
import proofs.«406370_j7258494730854_1_alg».proof.Proof.KI.Val5
import proofs.«406370_j7258494730854_1_alg».proof.Proof.KI.Val6
import proofs.«406370_j7258494730854_1_alg».proof.Proof.SpecIdx

set_option maxRecDepth 16384

noncomputable section

namespace Cert.KernelIdeal.Val

open Cert.KernelIdeal Cert.KernelIdeal.Gen Cert.KernelIdeal.Rg
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

abbrev aX : Vec Ideal S100000x7 .f32 := m ((c : Thread nD τ).loc main_arg0)
abbrev aE : IVec S2x1600000 32 := m ((c : Thread nD τ).loc main_arg1)
abbrev aBt : IVec S100000 32 := m ((c : Thread nD τ).loc main_arg2)

abbrev aW1_0 : Vec Ideal S7x64 .f32 := m ((c : Thread nD τ).loc main_arg3)
abbrev aB1_0 : Vec Ideal S64 .f32 := m ((c : Thread nD τ).loc main_arg4)
abbrev aW2_0 : Vec Ideal S64x64 .f32 := m ((c : Thread nD τ).loc main_arg5)
abbrev aB2_0 : Vec Ideal S64 .f32 := m ((c : Thread nD τ).loc main_arg6)
abbrev aG_0 : Vec Ideal S64 .f32 := m ((c : Thread nD τ).loc main_arg7)
abbrev aBe_0 : Vec Ideal S64 .f32 := m ((c : Thread nD τ).loc main_arg8)

abbrev aW1_1 : Vec Ideal S64x64 .f32 := m ((c : Thread nD τ).loc main_arg9)
abbrev aB1_1 : Vec Ideal S64 .f32 := m ((c : Thread nD τ).loc main_arg10)
abbrev aW2_1 : Vec Ideal S64x64 .f32 := m ((c : Thread nD τ).loc main_arg11)
abbrev aB2_1 : Vec Ideal S64 .f32 := m ((c : Thread nD τ).loc main_arg12)
abbrev aG_1 : Vec Ideal S64 .f32 := m ((c : Thread nD τ).loc main_arg13)
abbrev aBe_1 : Vec Ideal S64 .f32 := m ((c : Thread nD τ).loc main_arg14)

abbrev aW1_2 : Vec Ideal S64x64 .f32 := m ((c : Thread nD τ).loc main_arg15)
abbrev aB1_2 : Vec Ideal S64 .f32 := m ((c : Thread nD τ).loc main_arg16)
abbrev aW2_2 : Vec Ideal S64x64 .f32 := m ((c : Thread nD τ).loc main_arg17)
abbrev aB2_2 : Vec Ideal S64 .f32 := m ((c : Thread nD τ).loc main_arg18)
abbrev aG_2 : Vec Ideal S64 .f32 := m ((c : Thread nD τ).loc main_arg19)
abbrev aBe_2 : Vec Ideal S64 .f32 := m ((c : Thread nD τ).loc main_arg20)

abbrev aPw : Vec Ideal S64x64 .f32 := m ((c : Thread nD τ).loc main_arg21)
abbrev aPb : Vec Ideal S64 .f32 := m ((c : Thread nD τ).loc main_arg22)

abbrev Untouched (r : Ref sig .tc) : Prop :=
  r ∉ hostOps0_W ∧ r ∉ ([main_v17_0, main_v17_1, main_v17_2] : List (Ref sig .tc))
  ∧ r ∉ hostOps1_W ∧ r ∉ ([main_v26] : List (Ref sig .tc))
  ∧ r ∉ hostOps2_W ∧ r ∉ ([main_v40_0, main_v40_1, main_v40_2] : List (Ref sig .tc))
  ∧ r ∉ hostOps3_W ∧ r ∉ ([main_v49] : List (Ref sig .tc))
  ∧ r ∉ hostOps4_W ∧ r ∉ ([main_v63_0, main_v63_1, main_v63_2] : List (Ref sig .tc))
  ∧ r ∉ hostOps5_W ∧ r ∉ ([main_v72] : List (Ref sig .tc))
  ∧ r ∉ hostOps6_W

section
variable (r : Ref sig .tc) (h : Untouched r)
include h

theorem W1_un : W1 m ρ c (Proc.devRef .tc r) = m ((c : Thread nD τ).loc r) :=
  W1_keep m ρ c r h.1
theorem W2_un : W2 m ρ c (Proc.devRef .tc r) = m ((c : Thread nD τ).loc r) :=
  (W2_keep m ρ c r h.2.1).trans (W1_un m ρ c r h)
theorem W3_un : W3 m ρ c (Proc.devRef .tc r) = m ((c : Thread nD τ).loc r) :=
  (W3_keep m ρ c r h.2.2.1).trans (W2_un m ρ c r h)
theorem W4_un : W4 m ρ c (Proc.devRef .tc r) = m ((c : Thread nD τ).loc r) :=
  (W4_keep m ρ c r h.2.2.2.1).trans (W3_un m ρ c r h)
theorem W5_un : W5 m ρ c (Proc.devRef .tc r) = m ((c : Thread nD τ).loc r) :=
  (W5_keep m ρ c r h.2.2.2.2.1).trans (W4_un m ρ c r h)
theorem W6_un : W6 m ρ c (Proc.devRef .tc r) = m ((c : Thread nD τ).loc r) :=
  (W6_keep m ρ c r h.2.2.2.2.2.1).trans (W5_un m ρ c r h)
theorem W7_un : W7 m ρ c (Proc.devRef .tc r) = m ((c : Thread nD τ).loc r) :=
  (W7_keep m ρ c r h.2.2.2.2.2.2.1).trans (W6_un m ρ c r h)
theorem W8_un : W8 m ρ c (Proc.devRef .tc r) = m ((c : Thread nD τ).loc r) :=
  (W8_keep m ρ c r h.2.2.2.2.2.2.2.1).trans (W7_un m ρ c r h)
theorem W9_un : W9 m ρ c (Proc.devRef .tc r) = m ((c : Thread nD τ).loc r) :=
  (W9_keep m ρ c r h.2.2.2.2.2.2.2.2.1).trans (W8_un m ρ c r h)
theorem W10_un : W10 m ρ c (Proc.devRef .tc r) = m ((c : Thread nD τ).loc r) :=
  (W10_keep m ρ c r h.2.2.2.2.2.2.2.2.2.1).trans (W9_un m ρ c r h)
theorem W11_un : W11 m ρ c (Proc.devRef .tc r) = m ((c : Thread nD τ).loc r) :=
  (W11_keep m ρ c r h.2.2.2.2.2.2.2.2.2.2.1).trans (W10_un m ρ c r h)
theorem W12_un : W12 m ρ c (Proc.devRef .tc r) = m ((c : Thread nD τ).loc r) :=
  (W12_keep m ρ c r h.2.2.2.2.2.2.2.2.2.2.2.1).trans (W11_un m ρ c r h)
theorem W13_un : W13 m ρ c (Proc.devRef .tc r) = m ((c : Thread nD τ).loc r) :=
  (W13_keep m ρ c r h.2.2.2.2.2.2.2.2.2.2.2.2).trans (W12_un m ρ c r h)

end

theorem W1_v1 : (W1 m ρ c (Proc.devRef .tc main_v1) : IVec S1600000 32) = srcIds (aE m c) := h0_v1 (W0 m ρ c)
theorem W1_v3 : (W1 m ρ c (Proc.devRef .tc main_v3) : IVec S1600000 32) = dstIds (aE m c) := h0_v3 (W0 m ρ c)
theorem W4_v1 : (W4 m ρ c (Proc.devRef .tc main_v1) : IVec S1600000 32) = srcIds (aE m c) :=
  (W4_keep m ρ c main_v1 (by decide)).trans <| (W3_keep m ρ c main_v1 (by decide)).trans <|
  (W2_keep m ρ c main_v1 (by decide)).trans (W1_v1 m ρ c)
theorem W4_v3 : (W4 m ρ c (Proc.devRef .tc main_v3) : IVec S1600000 32) = dstIds (aE m c) :=
  (W4_keep m ρ c main_v3 (by decide)).trans <| (W3_keep m ρ c main_v3 (by decide)).trans <|
  (W2_keep m ρ c main_v3 (by decide)).trans (W1_v3 m ρ c)
theorem W8_v1 : (W8 m ρ c (Proc.devRef .tc main_v1) : IVec S1600000 32) = srcIds (aE m c) :=
  (W8_keep m ρ c main_v1 (by decide)).trans <| (W7_keep m ρ c main_v1 (by decide)).trans <|
  (W6_keep m ρ c main_v1 (by decide)).trans <| (W5_keep m ρ c main_v1 (by decide)).trans (W4_v1 m ρ c)
theorem W8_v3 : (W8 m ρ c (Proc.devRef .tc main_v3) : IVec S1600000 32) = dstIds (aE m c) :=
  (W8_keep m ρ c main_v3 (by decide)).trans <| (W7_keep m ρ c main_v3 (by decide)).trans <|
  (W6_keep m ρ c main_v3 (by decide)).trans <| (W5_keep m ρ c main_v3 (by decide)).trans (W4_v3 m ρ c)

open Cert.Spec in
-- the perceptron's output, its column sums and sums of squares, and the normalised result make up one layer
private theorem layer_of {K : ℕ} {G : ((⟨2, ![Nn, K]⟩ : Shape).Idx → EReal) → (⟨2, ![Nn, K]⟩ : Shape).Idx → EReal}
    {x A : (⟨2, ![Nn, K]⟩ : Shape).Idx → EReal} {w1 W1 : (⟨2, ![K, 64]⟩ : Shape).Idx → EReal}
    {w2 W2 : (⟨2, ![64, 64]⟩ : Shape).Idx → EReal} {b1 b2 g be : (⟨1, ![64]⟩ : Shape).Idx → EReal}
    {B1 B2 s q mean var scale shift : (⟨2, ![1, 64]⟩ : Shape).Idx → EReal} {H X out : (⟨2, ![Nn, 64]⟩ : Shape).Idx → EReal}
    (hA : A = G x) (hW1 : W1 = w1) (hW2 : W2 = w2)
    (hB1 : ∀ k, B1 (ix2 0 k) = b1 (ix1 k)) (hB2 : ∀ k, B2 (ix2 0 k) = b2 (ix1 k))
    (hH : ∀ n d, H (ix2 n d)
      = ∑ k, max (∑ j, A (ix2 n j) * W1 (ix2 j k) + B1 (ix2 0 k)) 0 * W2 (ix2 k d) + B2 (ix2 0 d))
    (hs : ∀ d, s (ix2 0 d) = ∑ n, H (ix2 n d)) (hq : ∀ d, q (ix2 0 d) = ∑ n, H (ix2 n d) * H (ix2 n d))
    (hm : ∀ d, mean (ix2 0 d) = Ideal.div (s (ix2 0 d)) cN)
    (hv : ∀ d, var (ix2 0 d) = Ideal.div (q (ix2 0 d)) cN - Ideal.div (s (ix2 0 d)) cN * Ideal.div (s (ix2 0 d)) cN)
    (hX : X = H) (hg : ∀ d, scale (ix2 0 d) = g (ix1 d)) (hb : ∀ d, shift (ix2 0 d) = be (ix1 d))
    (ho : ∀ n d, out (ix2 n d)
      = max ((X (ix2 n d) - mean (ix2 0 d)) * Ideal.rsqrt (var (ix2 0 d) + cEps) * scale (ix2 0 d) + shift (ix2 0 d)) 0) :
    cur out = layerK (liftA G) (params w1 b1 w2 b2 g be) (cur x) := by
  subst hA hW1 hW2 hX
  have eH : cur X = mlp (params W1 b1 W2 b2 g be) (liftA G (cur x)) := by
    funext n d
    rw [liftA_cur]
    refine (hH n d).trans ?_
    simp only [hB1, hB2]
    rfl
  funext n d
  unfold layerK
  rw [← eH]
  show out (ix2 n d) = _
  rw [ho, hv, hm, hs, hq, hg, hb]
  rfl

theorem in2_0_eq : r2_A (E5 m ρ) c = aggK64 (aE m c) (W4 m ρ c (Proc.devRef .tc main_v26)) := by
  refine (h2_v37 (W4 m ρ c)).trans ?_
  rw [W4_v1, W4_v3]; rfl

theorem in4_0_eq : r4_A (E9 m ρ) c = aggK64 (aE m c) (W8 m ρ c (Proc.devRef .tc main_v49)) := by
  refine (h4_v60 (W8 m ρ c)).trans ?_
  rw [W8_v1, W8_v3]; rfl

section Head

theorem in6_1_eq (n : Fin 100000) : btArr (E13 m ρ) c (ix2 n (0 : Fin 1)) = aBt m c (ix1 n) :=
  (h6_v77 (W12 m ρ c) n).trans (congrFun (W12_un m ρ c main_arg2 (by decide)) (ix1 n))
theorem in6_2_eq (g : Fin 1024) : cntArr (E13 m ρ) c (ix2 g (0 : Fin 1)) = countsK (aBt m c) (ix1 g) := by
  refine (h6_v78 (W12 m ρ c) g).trans ?_
  rw [W12_un m ρ c main_arg2 (by decide)]
theorem in6_3_eq : pwArr (E13 m ρ) c = aPw m c := W13_un m ρ c main_arg21 (by decide)
theorem in6_4_eq (d : Fin 64) : pbArr (E13 m ρ) c (ix2 (0 : Fin 1) d) = aPb m c (ix1 d) :=
  (h6_v79 (W12 m ρ c) d).trans (congrFun (W12_un m ρ c main_arg22 (by decide)) (ix1 d))

theorem val80 :
    Cert.Spec.cur (W14 m ρ c (Proc.devRef .tc main_v80) : Vec Ideal S1024x64 .f32)
      = Cert.Spec.outK (Cert.Spec.liftA (aggK7 (aE m c))) (Cert.Spec.liftA (aggK64 (aE m c)))
          (Cert.Spec.params (aW1_0 m c) (aB1_0 m c) (aW2_0 m c) (aB2_0 m c) (aG_0 m c) (aBe_0 m c))
          (Cert.Spec.params (aW1_1 m c) (aB1_1 m c) (aW2_1 m c) (aB2_1 m c) (aG_1 m c) (aBe_1 m c))
          (Cert.Spec.params (aW1_2 m c) (aB1_2 m c) (aW2_2 m c) (aB2_2 m c) (aG_2 m c) (aBe_2 m c))
          (Cert.Spec.cur (aX m c)) (fun n => aBt m c (ix1 n)) (Cert.Spec.cur1 (countsK (aBt m c)))
          (Cert.Spec.cur (aPw m c)) (Cert.Spec.cur1 (aPb m c)) := by
  have l1 := layer_of (h0_v14 (W0 m ρ c)) (W1_un m ρ c main_arg3 (by decide)) (W1_un m ρ c main_arg5 (by decide))
    (h0_v15 (W0 m ρ c))
    (h0_v16 (W0 m ρ c))
    (arrAt0_5 (E1 m ρ) c)
    (fun d => (congrFun (W2_arr m ρ c 6) _).trans (arrAt0_6 (E1 m ρ) c d))
    (fun d => (congrFun (W2_arr m ρ c 7) _).trans (arrAt0_7 (E1 m ρ) c d))
    (h1_v19 (W2 m ρ c)) (h1_v23 (W2 m ρ c))
    ((W3_keep m ρ c main_v17_0 (by decide)).trans (W2_arr m ρ c 5))
    (fun d => (h1_v24 (W2 m ρ c) d).trans (congrFun (W2_un m ρ c main_arg7 (by decide)) _))
    (fun d => (h1_v25 (W2 m ρ c) d).trans (congrFun (W2_un m ρ c main_arg8 (by decide)) _))
    (fun n d => (congrFun (W4_arr m ρ c 5) _).trans (arrAt1_5 (E3 m ρ) c n d))
  have l2 := layer_of (in2_0_eq m ρ c) (W5_un m ρ c main_arg9 (by decide)) (W5_un m ρ c main_arg11 (by decide))
    (fun k => (h2_v38 (W4 m ρ c) k).trans (congrFun (W4_un m ρ c main_arg10 (by decide)) _))
    (fun k => (h2_v39 (W4 m ρ c) k).trans (congrFun (W4_un m ρ c main_arg12 (by decide)) _))
    (arrAt2_5 (E5 m ρ) c)
    (fun d => (congrFun (W6_arr m ρ c 6) _).trans (arrAt2_6 (E5 m ρ) c d))
    (fun d => (congrFun (W6_arr m ρ c 7) _).trans (arrAt2_7 (E5 m ρ) c d))
    (h3_v42 (W6 m ρ c)) (h3_v46 (W6 m ρ c))
    ((W7_keep m ρ c main_v40_0 (by decide)).trans (W6_arr m ρ c 5))
    (fun d => (h3_v47 (W6 m ρ c) d).trans (congrFun (W6_un m ρ c main_arg13 (by decide)) _))
    (fun d => (h3_v48 (W6 m ρ c) d).trans (congrFun (W6_un m ρ c main_arg14 (by decide)) _))
    (fun n d => (congrFun (W8_arr m ρ c 5) _).trans (arrAt3_5 (E7 m ρ) c n d))
  have l3 := layer_of (in4_0_eq m ρ c) (W9_un m ρ c main_arg15 (by decide)) (W9_un m ρ c main_arg17 (by decide))
    (fun k => (h4_v61 (W8 m ρ c) k).trans (congrFun (W8_un m ρ c main_arg16 (by decide)) _))
    (fun k => (h4_v62 (W8 m ρ c) k).trans (congrFun (W8_un m ρ c main_arg18 (by decide)) _))
    (arrAt4_5 (E9 m ρ) c)
    (fun d => (congrFun (W10_arr m ρ c 6) _).trans (arrAt4_6 (E9 m ρ) c d))
    (fun d => (congrFun (W10_arr m ρ c 7) _).trans (arrAt4_7 (E9 m ρ) c d))
    (h5_v65 (W10 m ρ c)) (h5_v69 (W10 m ρ c))
    ((W11_keep m ρ c main_v63_0 (by decide)).trans (W10_arr m ρ c 5))
    (fun d => (h5_v70 (W10 m ρ c) d).trans (congrFun (W10_un m ρ c main_arg19 (by decide)) _))
    (fun d => (h5_v71 (W10 m ρ c) d).trans (congrFun (W10_un m ρ c main_arg20 (by decide)) _))
    (fun n d => (congrFun (W12_arr m ρ c 5) _).trans (arrAt5_5 (E11 m ρ) c n d))
  have eh := Eq.trans (show (fun n k => hArr (E13 m ρ) c (ix2 n k))
      = Cert.Spec.cur (W12 m ρ c (Proc.devRef .tc main_v72) : Vec Ideal S100000x64 .f32) from
    funext fun n => funext fun k => congrFun (W13_keep m ρ c main_v72 (by decide)) (ix2 n k))
    (l3.trans (congrArg _ (l2.trans (congrArg _ l1))))
  funext g d
  refine (congrFun (W14_arr m ρ c 5) (ix2 g d)).trans ?_
  rw [arrAt6_5 (E13 m ρ) c g d, eh, in6_3_eq]
  simp only [in6_1_eq m ρ c, in6_2_eq m ρ c, in6_4_eq m ρ c]
  unfold Cert.Spec.outK
  rfl

end Head

end Cert.KernelIdeal.Val

end
-- ==== Proof.Ref.Stages.lean ====
import proofs.«406370_j7258494730854_1_alg».proof.ReferenceIdeal
import proofs.«406370_j7258494730854_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

set_option hygiene false in
local macro "𝕋[" s:term ", " e:term "]" : term => `((⟨$s, $e⟩ : BufTy).Contents (Elt F))

def zero : 𝕋[S_, .f32] := constant S_ .f32 0x00000000#32

def srcOf (e : 𝕋[S2x1600000, .i32]) : 𝕋[S1600000, .i32] :=
  shapeCast S1600000 (extractStridedSlice S1x1600000 ![0, 0] e slices_S2x1600000_S1x1600000_0_0) shapeCasts_S1x1600000_S1600000

def dstOf (e : 𝕋[S2x1600000, .i32]) : 𝕋[S1600000, .i32] :=
  shapeCast S1600000 (extractStridedSlice S1x1600000 ![1, 0] e slices_S2x1600000_S1x1600000_1_0) shapeCasts_S1x1600000_S1600000

def wrapIdx (s : 𝕋[S1600000, .i32]) : 𝕋[S1600000x1, .i32] :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def idxCol (d : 𝕋[S1600000, .i32]) : 𝕋[S1600000x1, .i32] :=
  broadcastInDim S1600000x1 ![0] bcast_S1600000_S1600000x1_0 d

def msgs7 (x : 𝕋[S100000x7, .f32]) (e : 𝕋[S2x1600000, .i32]) : 𝕋[S1600000x7, .f32] :=
  Host.gather gather_S100000x7_S1600000x1_S1600000x7_1_0_n_n_0_1_17 x (wrapIdx (srcOf e))

def msgs64 (h : 𝕋[S100000x64, .f32]) (e : 𝕋[S2x1600000, .i32]) : 𝕋[S1600000x64, .f32] :=
  Host.gather gather_S100000x64_S1600000x1_S1600000x64_1_0_n_n_0_1_164 h (wrapIdx (srcOf e))

def agg7 (e : 𝕋[S2x1600000, .i32]) (x : 𝕋[S100000x7, .f32]) : 𝕋[S100000x7, .f32] :=
  addf (Host.scatterAdd scatter_S100000x7_S1600000x1_S1600000x7_1_0_0_1
      (broadcastInDim S100000x7 ![] bcast_S_S100000x7 zero) (idxCol (dstOf e)) (msgs7 x e)) x

def agg64 (e : 𝕋[S2x1600000, .i32]) (h : 𝕋[S100000x64, .f32]) : 𝕋[S100000x64, .f32] :=
  addf (Host.scatterAdd scatter_S100000x64_S1600000x1_S1600000x64_1_0_0_1
      (broadcastInDim S100000x64 ![] bcast_S_S100000x64 zero) (idxCol (dstOf e)) (msgs64 h e)) h

def rowBias (b : 𝕋[S64, .f32]) : 𝕋[S100000x64, .f32] :=
  broadcastInDim S100000x64 ![0, 1] bcast_S1x64_S100000x64_0_1 (broadcastInDim S1x64 ![1] bcast_S64_S1x64_1 b)

def relu (x : 𝕋[S100000x64, .f32]) : 𝕋[S100000x64, .f32] :=
  maximumf x (broadcastInDim S100000x64 ![] bcast_S_S100000x64 zero)

def lin7 (a : 𝕋[S100000x7, .f32]) (w : 𝕋[S7x64, .f32]) (b : 𝕋[S64, .f32]) : 𝕋[S100000x64, .f32] :=
  addf (Host.dotGeneral dot_S100000x7_S7x64_S100000x64_1_0_0_1_n_n none a w) (rowBias b)

def lin64 (a : 𝕋[S100000x64, .f32]) (w : 𝕋[S64x64, .f32]) (b : 𝕋[S64, .f32]) : 𝕋[S100000x64, .f32] :=
  addf (Host.dotGeneral dot_S100000x64_S64x64_S100000x64_1_0_0_1_n_n none a w) (rowBias b)

def h2of7 (x : 𝕋[S100000x7, .f32]) (e : 𝕋[S2x1600000, .i32]) (w1 : 𝕋[S7x64, .f32]) (b1 : 𝕋[S64, .f32])
    (w2 : 𝕋[S64x64, .f32]) (b2 : 𝕋[S64, .f32]) : 𝕋[S100000x64, .f32] :=
  lin64 (relu (lin7 (agg7 e x) w1 b1)) w2 b2

def h2of64 (h : 𝕋[S100000x64, .f32]) (e : 𝕋[S2x1600000, .i32]) (w1 : 𝕋[S64x64, .f32]) (b1 : 𝕋[S64, .f32])
    (w2 : 𝕋[S64x64, .f32]) (b2 : 𝕋[S64, .f32]) : 𝕋[S100000x64, .f32] :=
  lin64 (relu (lin64 (agg64 e h) w1 b1)) w2 b2

def colSum (h : 𝕋[S100000x64, .f32]) : 𝕋[S64, .f32] :=
  Host.reduceAdd h zero reducesTo_S100000x64_S64_d0 h_S_

def meanOf (h2 : 𝕋[S100000x64, .f32]) : 𝕋[S64, .f32] :=
  Host.divf (colSum h2) (broadcastInDim S64 ![] bcast_S_S64 (constant S_ .f32 0x47C35000#32))

def centered (h2 : 𝕋[S100000x64, .f32]) : 𝕋[S100000x64, .f32] :=
  subf h2 (broadcastInDim S100000x64 ![0, 1] bcast_S1x64_S100000x64_0_1
    (Host.divf (broadcastInDim S1x64 ![1] bcast_S64_S1x64_1 (colSum h2))
      (broadcastInDim S1x64 ![] bcast_S_S1x64 (constant S_ .f32 0x47C35000#32))))

def nMinusDdof : 𝕋[S_, .f32] :=
  subf (constant S_ .f32 0x47C35000#32) (sitofp .f32 (constantI S_ 32 0#32 : 𝕋[S_, .i32]))

def varOf (h2 : 𝕋[S100000x64, .f32]) : 𝕋[S64, .f32] :=
  select (broadcastInDim S64 ![] bcast_S_S64 (cmpf (F := F) .ogt nMinusDdof zero : 𝕋[S_, .i1]) : 𝕋[S64, .i1])
    (Host.divf (Host.reduceAdd (mulf (centered h2) (centered h2)) zero reducesTo_S100000x64_S64_d0 h_S_)
      (broadcastInDim S64 ![] bcast_S_S64 nMinusDdof))
    (broadcastInDim S64 ![] bcast_S_S64 (id (constant S_ .f32 0x7FC00000#32)))

def bnrelu (h2 : 𝕋[S100000x64, .f32]) (mean var g be : 𝕋[S64, .f32]) : 𝕋[S100000x64, .f32] :=
  relu (addf (mulf (mulf (subf h2 (rowBias mean))
      (rowBias (Host.rsqrt (addf var (broadcastInDim S64 ![] bcast_S_S64 (constant S_ .f32 0x3727C5AC#32))))))
    (rowBias g)) (rowBias be))

def layerOut (h2 : 𝕋[S100000x64, .f32]) (g be : 𝕋[S64, .f32]) : 𝕋[S100000x64, .f32] :=
  bnrelu h2 (meanOf h2) (varOf h2) g be

def layer7 (x : 𝕋[S100000x7, .f32]) (e : 𝕋[S2x1600000, .i32]) (w1 : 𝕋[S7x64, .f32]) (b1 : 𝕋[S64, .f32])
    (w2 : 𝕋[S64x64, .f32]) (b2 g be : 𝕋[S64, .f32]) : 𝕋[S100000x64, .f32] :=
  layerOut (h2of7 x e w1 b1 w2 b2) g be

def layer64 (h : 𝕋[S100000x64, .f32]) (e : 𝕋[S2x1600000, .i32]) (w1 : 𝕋[S64x64, .f32]) (b1 : 𝕋[S64, .f32])
    (w2 : 𝕋[S64x64, .f32]) (b2 g be : 𝕋[S64, .f32]) : 𝕋[S100000x64, .f32] :=
  layerOut (h2of64 h e w1 b1 w2 b2) g be

def batchCol (batch : 𝕋[S100000, .i32]) : 𝕋[S100000x1, .i32] :=
  broadcastInDim S100000x1 ![0] bcast_S100000_S100000x1_0 batch

def poolSum (h : 𝕋[S100000x64, .f32]) (batch : 𝕋[S100000, .i32]) : 𝕋[S1024x64, .f32] :=
  Host.scatterAdd scatter_S1024x64_S100000x1_S100000x64_1_0_0_1
    (broadcastInDim S1024x64 ![] bcast_S_S1024x64 zero) (batchCol batch) h

def counts (batch : 𝕋[S100000, .i32]) : 𝕋[S1024, .f32] :=
  Host.scatterAdd scatter_S1024_S100000x1_S100000_n_0_0_1
    (broadcastInDim S1024 ![] bcast_S_S1024 zero) (batchCol batch)
    (broadcastInDim S100000 ![] bcast_S_S100000 (constant S_ .f32 0x3F800000#32))

def pooled (h : 𝕋[S100000x64, .f32]) (batch : 𝕋[S100000, .i32]) : 𝕋[S1024x64, .f32] :=
  Host.divf (poolSum h batch)
    (broadcastInDim S1024x64 ![0, 1] bcast_S1024x1_S1024x64_0_1
      (broadcastInDim S1024x1 ![0] bcast_S1024_S1024x1_0
        (maximumf (counts batch) (broadcastInDim S1024 ![] bcast_S_S1024 (constant S_ .f32 0x3F800000#32)))))

def proj (p : 𝕋[S1024x64, .f32]) (pw : 𝕋[S64x64, .f32]) (pb : 𝕋[S64, .f32]) : 𝕋[S1024x64, .f32] :=
  addf (Host.dotGeneral dot_S1024x64_S64x64_S1024x64_1_0_0_1_n_n none p pw)
    (broadcastInDim S1024x64 ![0, 1] bcast_S1x64_S1024x64_0_1 (broadcastInDim S1x64 ![1] bcast_S64_S1x64_1 pb))

def normOf (y : 𝕋[S1024x64, .f32]) : 𝕋[S1024x1, .f32] :=
  Host.sqrt (broadcastInDim S1024x1 ![0] bcast_S1024_S1024x1_0
    (Host.reduceAdd (mulf y y) zero reducesTo_S1024x64_S1024_d1 h_S_))

def normalize (y : 𝕋[S1024x64, .f32]) : 𝕋[S1024x64, .f32] :=
  Host.divf y (broadcastInDim S1024x64 ![0, 1] bcast_S1024x1_S1024x64_0_1
    (maximumf (normOf y) (broadcastInDim S1024x1 ![] bcast_S_S1024x1 (constant S_ .f32 0x2B8CBCCC#32))))

def head (h : 𝕋[S100000x64, .f32]) (batch : 𝕋[S100000, .i32]) (pw : 𝕋[S64x64, .f32]) (pb : 𝕋[S64, .f32]) :
    𝕋[S1024x64, .f32] :=
  normalize (proj (pooled h batch) pw pb)

end Cert.ReferenceIdeal.RefRun

end
-- ==== Proof.Ref.Run.lean ====
import proofs.«406370_j7258494730854_1_alg».proof.ReferenceIdeal
import proofs.«406370_j7258494730854_1_alg».proof.Proof.Gen.ReferenceIdeal
import proofs.«406370_j7258494730854_1_alg».proof.Proof.Ref.Stages
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option hygiene false in
local macro "𝕋[" s:term ", " e:term "]" : term => `((⟨$s, $e⟩ : BufTy).Contents (Elt F))

abbrev T (s : Shape) (e : EltTy) : Type := (⟨s, e⟩ : BufTy).Contents (Elt F)

abbrev ops_A1 : List (HloOp τ sig (Elt F)) :=
  [ unary main_arg1 main_v0 ((extractStridedSlice S1x1600000 ![0, 0] · slices_S2x1600000_S1x1600000_0_0) : T S2x1600000 .i32 → T S1x1600000 .i32),
    reshape main_v0 main_v1 rfl shapeCasts_S1x1600000_S1600000,
    unary main_arg1 main_v2 ((extractStridedSlice S1x1600000 ![1, 0] · slices_S2x1600000_S1x1600000_1_0) : T S2x1600000 .i32 → T S1x1600000 .i32),
    reshape main_v2 main_v3 rfl shapeCasts_S1x1600000_S1600000 ]

abbrev ops_A2 : List (HloOp τ sig (Elt F)) :=
  [ nullary main_c (constantI S_ 32 0#32),
    unary main_c main_v4 (broadcastInDim S1600000 ![] bcast_S_S1600000 : T S_ .i32 → T S1600000 .i32),
    binary main_v1 main_v4 main_v5 (cmpi .slt : T S1600000 .i32 → T S1600000 .i32 → T S1600000 .i1),
    nullary main_c_0 (constantI S_ 32 100000#32),
    unary main_c_0 main_v6 (broadcastInDim S1600000 ![] bcast_S_S1600000 : T S_ .i32 → T S1600000 .i32),
    binary main_v1 main_v6 main_v7 (addi : T S1600000 .i32 → T S1600000 .i32 → T S1600000 .i32),
    ternary main_v5 main_v7 main_v1 main_v8 (select : T S1600000 .i1 → T S1600000 .i32 → T S1600000 .i32 → T S1600000 .i32),
    unary main_v8 main_v9 (broadcastInDim S1600000x1 ![0] bcast_S1600000_S1600000x1_0 : T S1600000 .i32 → T S1600000x1 .i32),
    binary main_arg0 main_v9 main_v10 ((fun x i => Host.gather gather_S100000x7_S1600000x1_S1600000x7_1_0_n_n_0_1_17 x i) : T S100000x7 .f32 → T S1600000x1 .i32 → T S1600000x7 .f32),
    nullary main_cst (constant S_ .f32 0x00000000#32),
    unary main_cst main_v11 (broadcastInDim S100000x7 ![] bcast_S_S100000x7 : T S_ .f32 → T S100000x7 .f32),
    unary main_v3 main_v12 (broadcastInDim S1600000x1 ![0] bcast_S1600000_S1600000x1_0 : T S1600000 .i32 → T S1600000x1 .i32),
    ternary main_v11 main_v12 main_v10 main_v13 ((fun x i u => Host.scatterAdd scatter_S100000x7_S1600000x1_S1600000x7_1_0_0_1 x i u) : T S100000x7 .f32 → T S1600000x1 .i32 → T S1600000x7 .f32 → T S100000x7 .f32),
    binary main_v13 main_arg0 main_v14 (addf : T S100000x7 .f32 → T S100000x7 .f32 → T S100000x7 .f32),
    binary main_v14 main_arg3 main_v15 ((fun l r => Host.dotGeneral dot_S100000x7_S7x64_S100000x64_1_0_0_1_n_n none l r) : T S100000x7 .f32 → T S7x64 .f32 → T S100000x64 .f32),
    unary main_arg4 main_v16 (broadcastInDim S1x64 ![1] bcast_S64_S1x64_1 : T S64 .f32 → T S1x64 .f32),
    unary main_v16 main_v17 (broadcastInDim S100000x64 ![0, 1] bcast_S1x64_S100000x64_0_1 : T S1x64 .f32 → T S100000x64 .f32),
    binary main_v15 main_v17 main_v18 (addf : T S100000x64 .f32 → T S100000x64 .f32 → T S100000x64 .f32),
    TRef.nullary main_call0.cst (constant S_ .f32 0x00000000#32),
    TRef.unary main_call0.cst main_call0.v0 (broadcastInDim S100000x64 ![] bcast_S_S100000x64),
    TRef.binary (.of main_v18 : TRef sig ⟨S100000x64, .f32⟩) main_call0.v0 main_call0.v1 maximumf,
    binary main_v19 main_arg5 main_v20 ((fun l r => Host.dotGeneral dot_S100000x64_S64x64_S100000x64_1_0_0_1_n_n none l r) : T S100000x64 .f32 → T S64x64 .f32 → T S100000x64 .f32),
    unary main_arg6 main_v21 (broadcastInDim S1x64 ![1] bcast_S64_S1x64_1 : T S64 .f32 → T S1x64 .f32),
    unary main_v21 main_v22 (broadcastInDim S100000x64 ![0, 1] bcast_S1x64_S100000x64_0_1 : T S1x64 .f32 → T S100000x64 .f32),
    binary main_v20 main_v22 main_v23 (addf : T S100000x64 .f32 → T S100000x64 .f32 → T S100000x64 .f32) ]

abbrev ops_A3 : List (HloOp τ sig (Elt F)) :=
  [ nullary main_cst_1 (constant S_ .f32 0x00000000#32),
    binary main_v23 main_cst_1 main_v24 ((fun x v => Host.reduceAdd x v reducesTo_S100000x64_S64_d0 h_S_) : T S100000x64 .f32 → T S_ .f32 → T S64 .f32),
    nullary main_cst_2 (constant S_ .f32 0x47C35000#32),
    unary main_cst_2 main_v25 (broadcastInDim S64 ![] bcast_S_S64 : T S_ .f32 → T S64 .f32),
    binary main_v24 main_v25 main_v26 (Host.divf : T S64 .f32 → T S64 .f32 → T S64 .f32),
    nullary main_c_3 (constantI S_ 32 0#32),
    TRef.nullary main_call1.cst (constant S_ .f32 0x00000000#32),
    TRef.binary (.of main_v23 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_v23 : TRef sig ⟨S100000x64, .f32⟩) main_call1.v4 main_call1.v5 subf,
    TRef.binary main_call1.v5 main_call1.v5 main_call1.v6 mulf,
    TRef.unary (.of main_c_3 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v26 main_v28 (broadcastInDim S1x64 ![1] bcast_S64_S1x64_1 : T S64 .f32 → T S1x64 .f32),
    unary main_v28 main_v29 (broadcastInDim S100000x64 ![0, 1] bcast_S1x64_S100000x64_0_1 : T S1x64 .f32 → T S100000x64 .f32),
    binary main_v23 main_v29 main_v30 (subf : T S100000x64 .f32 → T S100000x64 .f32 → T S100000x64 .f32),
    nullary main_cst_4 (constant S_ .f32 0x3727C5AC#32),
    unary main_cst_4 main_v31 (broadcastInDim S64 ![] bcast_S_S64 : T S_ .f32 → T S64 .f32),
    binary main_v27 main_v31 main_v32 (addf : T S64 .f32 → T S64 .f32 → T S64 .f32),
    unary main_v32 main_v33 (Host.rsqrt : T S64 .f32 → T S64 .f32),
    unary main_v33 main_v34 (broadcastInDim S1x64 ![1] bcast_S64_S1x64_1 : T S64 .f32 → T S1x64 .f32),
    unary main_v34 main_v35 (broadcastInDim S100000x64 ![0, 1] bcast_S1x64_S100000x64_0_1 : T S1x64 .f32 → T S100000x64 .f32),
    binary main_v30 main_v35 main_v36 (mulf : T S100000x64 .f32 → T S100000x64 .f32 → T S100000x64 .f32),
    unary main_arg7 main_v37 (broadcastInDim S1x64 ![1] bcast_S64_S1x64_1 : T S64 .f32 → T S1x64 .f32),
    unary main_v37 main_v38 (broadcastInDim S100000x64 ![0, 1] bcast_S1x64_S100000x64_0_1 : T S1x64 .f32 → T S100000x64 .f32),
    binary main_v36 main_v38 main_v39 (mulf : T S100000x64 .f32 → T S100000x64 .f32 → T S100000x64 .f32),
    unary main_arg8 main_v40 (broadcastInDim S1x64 ![1] bcast_S64_S1x64_1 : T S64 .f32 → T S1x64 .f32),
    unary main_v40 main_v41 (broadcastInDim S100000x64 ![0, 1] bcast_S1x64_S100000x64_0_1 : T S1x64 .f32 → T S100000x64 .f32),
    binary main_v39 main_v41 main_v42 (addf : T S100000x64 .f32 → T S100000x64 .f32 → T S100000x64 .f32),
    TRef.nullary main_call2.cst (constant S_ .f32 0x00000000#32),
    TRef.unary main_call2.cst main_call2.v0 (broadcastInDim S100000x64 ![] bcast_S_S100000x64),
    TRef.binary (.of main_v42 : TRef sig ⟨S100000x64, .f32⟩) main_call2.v0 main_call2.v1 maximumf ]

abbrev ops_A4 : List (HloOp τ sig (Elt F)) :=
  [ nullary main_c_5 (constantI S_ 32 0#32),
    unary main_c_5 main_v44 (broadcastInDim S1600000 ![] bcast_S_S1600000 : T S_ .i32 → T S1600000 .i32),
    binary main_v1 main_v44 main_v45 (cmpi .slt : T S1600000 .i32 → T S1600000 .i32 → T S1600000 .i1),
    nullary main_c_6 (constantI S_ 32 100000#32),
    unary main_c_6 main_v46 (broadcastInDim S1600000 ![] bcast_S_S1600000 : T S_ .i32 → T S1600000 .i32),
    binary main_v1 main_v46 main_v47 (addi : T S1600000 .i32 → T S1600000 .i32 → T S1600000 .i32),
    ternary main_v45 main_v47 main_v1 main_v48 (select : T S1600000 .i1 → T S1600000 .i32 → T S1600000 .i32 → T S1600000 .i32),
    unary main_v48 main_v49 (broadcastInDim S1600000x1 ![0] bcast_S1600000_S1600000x1_0 : T S1600000 .i32 → T S1600000x1 .i32),
    binary main_v43 main_v49 main_v50 ((fun x i => Host.gather gather_S100000x64_S1600000x1_S1600000x64_1_0_n_n_0_1_164 x i) : T S100000x64 .f32 → T S1600000x1 .i32 → T S1600000x64 .f32) ]

abbrev ops_B1 : List (HloOp τ sig (Elt F)) :=
  [ nullary main_cst_7 (constant S_ .f32 0x00000000#32),
    unary main_cst_7 main_v51 (broadcastInDim S100000x64 ![] bcast_S_S100000x64 : T S_ .f32 → T S100000x64 .f32),
    unary main_v3 main_v52 (broadcastInDim S1600000x1 ![0] bcast_S1600000_S1600000x1_0 : T S1600000 .i32 → T S1600000x1 .i32),
    ternary main_v51 main_v52 main_v50 main_v53 ((fun x i u => Host.scatterAdd scatter_S100000x64_S1600000x1_S1600000x64_1_0_0_1 x i u) : T S100000x64 .f32 → T S1600000x1 .i32 → T S1600000x64 .f32 → T S100000x64 .f32),
    binary main_v53 main_v43 main_v54 (addf : T S100000x64 .f32 → T S100000x64 .f32 → T S100000x64 .f32),
    binary main_v54 main_arg9 main_v55 ((fun l r => Host.dotGeneral dot_S100000x64_S64x64_S100000x64_1_0_0_1_n_n none l r) : T S100000x64 .f32 → T S64x64 .f32 → T S100000x64 .f32),
    unary main_arg10 main_v56 (broadcastInDim S1x64 ![1] bcast_S64_S1x64_1 : T S64 .f32 → T S1x64 .f32),
    unary main_v56 main_v57 (broadcastInDim S100000x64 ![0, 1] bcast_S1x64_S100000x64_0_1 : T S1x64 .f32 → T S100000x64 .f32),
    binary main_v55 main_v57 main_v58 (addf : T S100000x64 .f32 → T S100000x64 .f32 → T S100000x64 .f32),
    TRef.nullary main_call3.cst (constant S_ .f32 0x00000000#32),
    TRef.unary main_call3.cst main_call3.v0 (broadcastInDim S100000x64 ![] bcast_S_S100000x64),
    TRef.binary (.of main_v58 : TRef sig ⟨S100000x64, .f32⟩) main_call3.v0 main_call3.v1 maximumf,
    binary main_v59 main_arg11 main_v60 ((fun l r => Host.dotGeneral dot_S100000x64_S64x64_S100000x64_1_0_0_1_n_n none l r) : T S100000x64 .f32 → T S64x64 .f32 → T S100000x64 .f32),
    unary main_arg12 main_v61 (broadcastInDim S1x64 ![1] bcast_S64_S1x64_1 : T S64 .f32 → T S1x64 .f32),
    unary main_v61 main_v62 (broadcastInDim S100000x64 ![0, 1] bcast_S1x64_S100000x64_0_1 : T S1x64 .f32 → T S100000x64 .f32),
    binary main_v60 main_v62 main_v63 (addf : T S100000x64 .f32 → T S100000x64 .f32 → T S100000x64 .f32) ]

abbrev ops_B2 : List (HloOp τ sig (Elt F)) :=
  [ nullary main_cst_8 (constant S_ .f32 0x00000000#32),
    binary main_v63 main_cst_8 main_v64 ((fun x v => Host.reduceAdd x v reducesTo_S100000x64_S64_d0 h_S_) : T S100000x64 .f32 → T S_ .f32 → T S64 .f32),
    nullary main_cst_9 (constant S_ .f32 0x47C35000#32),
    unary main_cst_9 main_v65 (broadcastInDim S64 ![] bcast_S_S64 : T S_ .f32 → T S64 .f32),
    binary main_v64 main_v65 main_v66 (Host.divf : T S64 .f32 → T S64 .f32 → T S64 .f32),
    nullary main_c_10 (constantI S_ 32 0#32),
    TRef.nullary main_call4.cst (constant S_ .f32 0x00000000#32),
    TRef.binary (.of main_v63 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v63 : TRef sig ⟨S100000x64, .f32⟩) main_call4.v4 main_call4.v5 subf,
    TRef.binary main_call4.v5 main_call4.v5 main_call4.v6 mulf,
    TRef.unary (.of main_c_10 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v66 main_v68 (broadcastInDim S1x64 ![1] bcast_S64_S1x64_1 : T S64 .f32 → T S1x64 .f32),
    unary main_v68 main_v69 (broadcastInDim S100000x64 ![0, 1] bcast_S1x64_S100000x64_0_1 : T S1x64 .f32 → T S100000x64 .f32),
    binary main_v63 main_v69 main_v70 (subf : T S100000x64 .f32 → T S100000x64 .f32 → T S100000x64 .f32),
    nullary main_cst_11 (constant S_ .f32 0x3727C5AC#32),
    unary main_cst_11 main_v71 (broadcastInDim S64 ![] bcast_S_S64 : T S_ .f32 → T S64 .f32),
    binary main_v67 main_v71 main_v72 (addf : T S64 .f32 → T S64 .f32 → T S64 .f32),
    unary main_v72 main_v73 (Host.rsqrt : T S64 .f32 → T S64 .f32),
    unary main_v73 main_v74 (broadcastInDim S1x64 ![1] bcast_S64_S1x64_1 : T S64 .f32 → T S1x64 .f32),
    unary main_v74 main_v75 (broadcastInDim S100000x64 ![0, 1] bcast_S1x64_S100000x64_0_1 : T S1x64 .f32 → T S100000x64 .f32),
    binary main_v70 main_v75 main_v76 (mulf : T S100000x64 .f32 → T S100000x64 .f32 → T S100000x64 .f32),
    unary main_arg13 main_v77 (broadcastInDim S1x64 ![1] bcast_S64_S1x64_1 : T S64 .f32 → T S1x64 .f32),
    unary main_v77 main_v78 (broadcastInDim S100000x64 ![0, 1] bcast_S1x64_S100000x64_0_1 : T S1x64 .f32 → T S100000x64 .f32),
    binary main_v76 main_v78 main_v79 (mulf : T S100000x64 .f32 → T S100000x64 .f32 → T S100000x64 .f32),
    unary main_arg14 main_v80 (broadcastInDim S1x64 ![1] bcast_S64_S1x64_1 : T S64 .f32 → T S1x64 .f32),
    unary main_v80 main_v81 (broadcastInDim S100000x64 ![0, 1] bcast_S1x64_S100000x64_0_1 : T S1x64 .f32 → T S100000x64 .f32),
    binary main_v79 main_v81 main_v82 (addf : T S100000x64 .f32 → T S100000x64 .f32 → T S100000x64 .f32),
    TRef.nullary main_call5.cst (constant S_ .f32 0x00000000#32),
    TRef.unary main_call5.cst main_call5.v0 (broadcastInDim S100000x64 ![] bcast_S_S100000x64),
    TRef.binary (.of main_v82 : TRef sig ⟨S100000x64, .f32⟩) main_call5.v0 main_call5.v1 maximumf ]

abbrev ops_B3 : List (HloOp τ sig (Elt F)) :=
  [ nullary main_c_12 (constantI S_ 32 0#32),
    unary main_c_12 main_v84 (broadcastInDim S1600000 ![] bcast_S_S1600000 : T S_ .i32 → T S1600000 .i32),
    binary main_v1 main_v84 main_v85 (cmpi .slt : T S1600000 .i32 → T S1600000 .i32 → T S1600000 .i1),
    nullary main_c_13 (constantI S_ 32 100000#32),
    unary main_c_13 main_v86 (broadcastInDim S1600000 ![] bcast_S_S1600000 : T S_ .i32 → T S1600000 .i32),
    binary main_v1 main_v86 main_v87 (addi : T S1600000 .i32 → T S1600000 .i32 → T S1600000 .i32),
    ternary main_v85 main_v87 main_v1 main_v88 (select : T S1600000 .i1 → T S1600000 .i32 → T S1600000 .i32 → T S1600000 .i32),
    unary main_v88 main_v89 (broadcastInDim S1600000x1 ![0] bcast_S1600000_S1600000x1_0 : T S1600000 .i32 → T S1600000x1 .i32),
    binary main_v83 main_v89 main_v90 ((fun x i => Host.gather gather_S100000x64_S1600000x1_S1600000x64_1_0_n_n_0_1_164 x i) : T S100000x64 .f32 → T S1600000x1 .i32 → T S1600000x64 .f32) ]

abbrev ops_B4 : List (HloOp τ sig (Elt F)) :=
  [ nullary main_cst_14 (constant S_ .f32 0x00000000#32),
    unary main_cst_14 main_v91 (broadcastInDim S100000x64 ![] bcast_S_S100000x64 : T S_ .f32 → T S100000x64 .f32),
    unary main_v3 main_v92 (broadcastInDim S1600000x1 ![0] bcast_S1600000_S1600000x1_0 : T S1600000 .i32 → T S1600000x1 .i32),
    ternary main_v91 main_v92 main_v90 main_v93 ((fun x i u => Host.scatterAdd scatter_S100000x64_S1600000x1_S1600000x64_1_0_0_1 x i u) : T S100000x64 .f32 → T S1600000x1 .i32 → T S1600000x64 .f32 → T S100000x64 .f32),
    binary main_v93 main_v83 main_v94 (addf : T S100000x64 .f32 → T S100000x64 .f32 → T S100000x64 .f32),
    binary main_v94 main_arg15 main_v95 ((fun l r => Host.dotGeneral dot_S100000x64_S64x64_S100000x64_1_0_0_1_n_n none l r) : T S100000x64 .f32 → T S64x64 .f32 → T S100000x64 .f32),
    unary main_arg16 main_v96 (broadcastInDim S1x64 ![1] bcast_S64_S1x64_1 : T S64 .f32 → T S1x64 .f32),
    unary main_v96 main_v97 (broadcastInDim S100000x64 ![0, 1] bcast_S1x64_S100000x64_0_1 : T S1x64 .f32 → T S100000x64 .f32),
    binary main_v95 main_v97 main_v98 (addf : T S100000x64 .f32 → T S100000x64 .f32 → T S100000x64 .f32),
    TRef.nullary main_call6.cst (constant S_ .f32 0x00000000#32),
    TRef.unary main_call6.cst main_call6.v0 (broadcastInDim S100000x64 ![] bcast_S_S100000x64),
    TRef.binary (.of main_v98 : TRef sig ⟨S100000x64, .f32⟩) main_call6.v0 main_call6.v1 maximumf,
    binary main_v99 main_arg17 main_v100 ((fun l r => Host.dotGeneral dot_S100000x64_S64x64_S100000x64_1_0_0_1_n_n none l r) : T S100000x64 .f32 → T S64x64 .f32 → T S100000x64 .f32),
    unary main_arg18 main_v101 (broadcastInDim S1x64 ![1] bcast_S64_S1x64_1 : T S64 .f32 → T S1x64 .f32),
    unary main_v101 main_v102 (broadcastInDim S100000x64 ![0, 1] bcast_S1x64_S100000x64_0_1 : T S1x64 .f32 → T S100000x64 .f32) ]

abbrev ops_C2 : List (HloOp τ sig (Elt F)) :=
  [ binary main_v100 main_v102 main_v103 (addf : T S100000x64 .f32 → T S100000x64 .f32 → T S100000x64 .f32),
    nullary main_cst_15 (constant S_ .f32 0x00000000#32),
    binary main_v103 main_cst_15 main_v104 ((fun x v => Host.reduceAdd x v reducesTo_S100000x64_S64_d0 h_S_) : T S100000x64 .f32 → T S_ .f32 → T S64 .f32),
    nullary main_cst_16 (constant S_ .f32 0x47C35000#32),
    unary main_cst_16 main_v105 (broadcastInDim S64 ![] bcast_S_S64 : T S_ .f32 → T S64 .f32),
    binary main_v104 main_v105 main_v106 (Host.divf : T S64 .f32 → T S64 .f32 → T S64 .f32),
    nullary main_c_17 (constantI S_ 32 0#32),
    TRef.nullary main_call7.cst (constant S_ .f32 0x00000000#32),
    TRef.binary (.of main_v103 : TRef sig ⟨S100000x64, .f32⟩) main_call7.cst main_call7.v0 (fun x v => Host.reduceAdd x v reducesTo_S100000x64_S64_d0 h_S_),
    TRef.unary main_call7.v0 main_call7.v1 (broadcastInDim S1x64 ![1] bcast_S64_S1x64_1),
    TRef.nullary main_call7.cst_0 (constant S_ .f32 0x47C35000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S100000x64 ![0, 1] bcast_S1x64_S100000x64_0_1),
    TRef.binary (.of main_v103 : TRef sig ⟨S100000x64, .f32⟩) main_call7.v4 main_call7.v5 subf,
    TRef.binary main_call7.v5 main_call7.v5 main_call7.v6 mulf,
    TRef.unary (.of main_c_17 : TRef sig ⟨S_, .i32⟩) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S64 ![] bcast_S_S64),
    TRef.ternary main_call7.v12 main_call7.v11 main_call7.call0.v1 main_call7.call0.v2 (fun p a b => select (broadcastInDim S64 ![] bcast_S_S64 p) a b),
    unary main_v106 main_v108 (broadcastInDim S1x64 ![1] bcast_S64_S1x64_1 : T S64 .f32 → T S1x64 .f32),
    unary main_v108 main_v109 (broadcastInDim S100000x64 ![0, 1] bcast_S1x64_S100000x64_0_1 : T S1x64 .f32 → T S100000x64 .f32),
    binary main_v103 main_v109 main_v110 (subf : T S100000x64 .f32 → T S100000x64 .f32 → T S100000x64 .f32),
    nullary main_cst_18 (constant S_ .f32 0x3727C5AC#32),
    unary main_cst_18 main_v111 (broadcastInDim S64 ![] bcast_S_S64 : T S_ .f32 → T S64 .f32),
    binary main_v107 main_v111 main_v112 (addf : T S64 .f32 → T S64 .f32 → T S64 .f32),
    unary main_v112 main_v113 (Host.rsqrt : T S64 .f32 → T S64 .f32),
    unary main_v113 main_v114 (broadcastInDim S1x64 ![1] bcast_S64_S1x64_1 : T S64 .f32 → T S1x64 .f32),
    unary main_v114 main_v115 (broadcastInDim S100000x64 ![0, 1] bcast_S1x64_S100000x64_0_1 : T S1x64 .f32 → T S100000x64 .f32),
    binary main_v110 main_v115 main_v116 (mulf : T S100000x64 .f32 → T S100000x64 .f32 → T S100000x64 .f32),
    unary main_arg19 main_v117 (broadcastInDim S1x64 ![1] bcast_S64_S1x64_1 : T S64 .f32 → T S1x64 .f32),
    unary main_v117 main_v118 (broadcastInDim S100000x64 ![0, 1] bcast_S1x64_S100000x64_0_1 : T S1x64 .f32 → T S100000x64 .f32),
    binary main_v116 main_v118 main_v119 (mulf : T S100000x64 .f32 → T S100000x64 .f32 → T S100000x64 .f32),
    unary main_arg20 main_v120 (broadcastInDim S1x64 ![1] bcast_S64_S1x64_1 : T S64 .f32 → T S1x64 .f32),
    unary main_v120 main_v121 (broadcastInDim S100000x64 ![0, 1] bcast_S1x64_S100000x64_0_1 : T S1x64 .f32 → T S100000x64 .f32),
    binary main_v119 main_v121 main_v122 (addf : T S100000x64 .f32 → T S100000x64 .f32 → T S100000x64 .f32),
    TRef.nullary main_call8.cst (constant S_ .f32 0x00000000#32),
    TRef.unary main_call8.cst main_call8.v0 (broadcastInDim S100000x64 ![] bcast_S_S100000x64),
    TRef.binary (.of main_v122 : TRef sig ⟨S100000x64, .f32⟩) main_call8.v0 main_call8.v1 maximumf ]

abbrev ops_C3 : List (HloOp τ sig (Elt F)) :=
  [ nullary main_cst_19 (constant S_ .f32 0x00000000#32),
    unary main_cst_19 main_v124 (broadcastInDim S1024x64 ![] bcast_S_S1024x64 : T S_ .f32 → T S1024x64 .f32),
    unary main_arg2 main_v125 (broadcastInDim S100000x1 ![0] bcast_S100000_S100000x1_0 : T S100000 .i32 → T S100000x1 .i32),
    ternary main_v124 main_v125 main_v123 main_v126 ((fun x i u => Host.scatterAdd scatter_S1024x64_S100000x1_S100000x64_1_0_0_1 x i u) : T S1024x64 .f32 → T S100000x1 .i32 → T S100000x64 .f32 → T S1024x64 .f32),
    nullary main_cst_20 (constant S_ .f32 0x3F800000#32),
    unary main_cst_20 main_v127 (broadcastInDim S100000 ![] bcast_S_S100000 : T S_ .f32 → T S100000 .f32),
    nullary main_cst_21 (constant S_ .f32 0x00000000#32),
    unary main_cst_21 main_v128 (broadcastInDim S1024 ![] bcast_S_S1024 : T S_ .f32 → T S1024 .f32),
    unary main_arg2 main_v129 (broadcastInDim S100000x1 ![0] bcast_S100000_S100000x1_0 : T S100000 .i32 → T S100000x1 .i32),
    ternary main_v128 main_v129 main_v127 main_v130 ((fun x i u => Host.scatterAdd scatter_S1024_S100000x1_S100000_n_0_0_1 x i u) : T S1024 .f32 → T S100000x1 .i32 → T S100000 .f32 → T S1024 .f32),
    nullary main_cst_22 (constant S_ .f32 0x3F800000#32),
    unary main_cst_22 main_v131 (broadcastInDim S1024 ![] bcast_S_S1024 : T S_ .f32 → T S1024 .f32),
    binary main_v130 main_v131 main_v132 (maximumf : T S1024 .f32 → T S1024 .f32 → T S1024 .f32),
    unary main_v132 main_v133 (broadcastInDim S1024x1 ![0] bcast_S1024_S1024x1_0 : T S1024 .f32 → T S1024x1 .f32),
    unary main_v133 main_v134 (broadcastInDim S1024x64 ![0, 1] bcast_S1024x1_S1024x64_0_1 : T S1024x1 .f32 → T S1024x64 .f32),
    binary main_v126 main_v134 main_v135 (Host.divf : T S1024x64 .f32 → T S1024x64 .f32 → T S1024x64 .f32),
    binary main_v135 main_arg21 main_v136 ((fun l r => Host.dotGeneral dot_S1024x64_S64x64_S1024x64_1_0_0_1_n_n none l r) : T S1024x64 .f32 → T S64x64 .f32 → T S1024x64 .f32),
    unary main_arg22 main_v137 (broadcastInDim S1x64 ![1] bcast_S64_S1x64_1 : T S64 .f32 → T S1x64 .f32),
    unary main_v137 main_v138 (broadcastInDim S1024x64 ![0, 1] bcast_S1x64_S1024x64_0_1 : T S1x64 .f32 → T S1024x64 .f32),
    binary main_v136 main_v138 main_v139 (addf : T S1024x64 .f32 → T S1024x64 .f32 → T S1024x64 .f32) ]

abbrev ops_C4 : List (HloOp τ sig (Elt F)) :=
  [ TRef.binary (.of main_v139 : TRef sig ⟨S1024x64, .f32⟩) (.of main_v139 : TRef sig ⟨S1024x64, .f32⟩) main_call9.v0 mulf,
    TRef.nullary main_call9.cst (constant S_ .f32 0x00000000#32),
    TRef.binary main_call9.v0 main_call9.cst main_call9.v1 (fun x v => Host.reduceAdd x v reducesTo_S1024x64_S1024_d1 h_S_),
    TRef.unary main_call9.v1 main_call9.v2 (broadcastInDim S1024x1 ![0] bcast_S1024_S1024x1_0),
    TRef.unary main_call9.v2 main_call9.v3 Host.sqrt,
    nullary main_cst_23 (constant S_ .f32 0x2B8CBCCC#32),
    unary main_cst_23 main_v141 (broadcastInDim S1024x1 ![] bcast_S_S1024x1 : T S_ .f32 → T S1024x1 .f32),
    binary main_v140 main_v141 main_v142 (maximumf : T S1024x1 .f32 → T S1024x1 .f32 → T S1024x1 .f32),
    unary main_v142 main_v143 (broadcastInDim S1024x64 ![0, 1] bcast_S1024x1_S1024x64_0_1 : T S1024x1 .f32 → T S1024x64 .f32),
    binary main_v139 main_v143 main_v144 (Host.divf : T S1024x64 .f32 → T S1024x64 .f32 → T S1024x64 .f32) ]

abbrev ops_part0 : List (HloOp τ sig (Elt F)) := ops_A1 ++ (ops_A2 ++ (ops_A3 ++ ops_A4))

abbrev ops_part1 : List (HloOp τ sig (Elt F)) := ops_B1 ++ (ops_B2 ++ (ops_B3 ++ ops_B4))

abbrev ops_part2 : List (HloOp τ sig (Elt F)) := ops_C2 ++ (ops_C3 ++ ops_C4)

abbrev ops : List (HloOp τ sig (Elt F)) := ops_part0 ++ (ops_part1 ++ ops_part2)

set_option maxRecDepth 16384 in
theorem main_part0_eq (c : Dev nD) : main_part0 (F := F) c = seq ops_part0 := rfl
set_option maxRecDepth 16384 in
theorem main_part1_eq (c : Dev nD) : main_part1 (F := F) c = seq ops_part1 := rfl
set_option maxRecDepth 16384 in
theorem main_part2_eq (c : Dev nD) : main_part2 (F := F) c = seq ops_part2 := rfl

theorem main_eq (c : Dev nD) : main (F := F) c = seq ops := by
  simp only [ops, seq_append, ← main_part0_eq c, ← main_part1_eq c, ← main_part2_eq c]
  rfl

set_option maxRecDepth 8192
set_option maxHeartbeats 2000000

theorem ops_sub : (ops : List (HloOp τ sig (Elt F))).Forall fun op => op.bufs ⊆ tcRefs τ sig := by
  repeat' (first | refine List.forall_append.2 ⟨?_, ?_⟩ | refine ⟨?_, ?_⟩ | fail)
  all_goals simp only [List.Forall, unary_bufs_sub, binary_bufs_sub, nullary_bufs_sub, ternary_bufs_sub, reshape_bufs_sub]

private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

private theorem writes_sub_of {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

section

variable (V0 : Valuation τ sig (Elt F)) (r : Ref sig .tc)

abbrev W_A1 : List (Ref sig .tc) := [main_v0, main_v1, main_v2, main_v3]
def val1 : Valuation τ sig (Elt F) := after ops_A1 V0
theorem val1_keep (h : r ∉ W_A1) : val1 V0 (no_index (Proc.devRef .tc r)) = V0 (Proc.devRef .tc r) :=
  after_of_writes_sub ops_A1 _ (by repeat' (first | exact writes_sub_of _ rfl (by decide) | refine ⟨?_, ?_⟩)) h

abbrev W_A2 : List (Ref sig .tc) := [main_c, main_v4, main_v5, main_c_0, main_v6, main_v7, main_v8, main_v9, main_v10, main_cst, main_v11, main_v12, main_v13, main_v14, main_v15, main_v16, main_v17, main_v18, main_call0_cst, main_call0_v0, main_v19, main_v20, main_v21, main_v22, main_v23]
def val2 : Valuation τ sig (Elt F) := after ops_A2 (val1 V0)
theorem val2_keep (h : r ∉ W_A2) : val2 V0 (no_index (Proc.devRef .tc r)) = val1 V0 (Proc.devRef .tc r) :=
  after_of_writes_sub ops_A2 _ (by repeat' (first | exact writes_sub_of _ rfl (by decide) | refine ⟨?_, ?_⟩)) h

abbrev W_A3 : List (Ref sig .tc) := [main_cst_1, main_v24, main_cst_2, main_v25, main_v26, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v27, main_v28, main_v29, main_v30, main_cst_4, main_v31, main_v32, main_v33, main_v34, main_v35, main_v36, main_v37, main_v38, main_v39, main_v40, main_v41, main_v42, main_call2_cst, main_call2_v0, main_v43]
def val3 : Valuation τ sig (Elt F) := after ops_A3 (val2 V0)
theorem val3_keep (h : r ∉ W_A3) : val3 V0 (no_index (Proc.devRef .tc r)) = val2 V0 (Proc.devRef .tc r) :=
  after_of_writes_sub ops_A3 _ (by repeat' (first | exact writes_sub_of _ rfl (by decide) | refine ⟨?_, ?_⟩)) h

abbrev W_A4 : List (Ref sig .tc) := [main_c_5, main_v44, main_v45, main_c_6, main_v46, main_v47, main_v48, main_v49, main_v50]
def val4 : Valuation τ sig (Elt F) := after ops_A4 (val3 V0)
theorem val4_keep (h : r ∉ W_A4) : val4 V0 (no_index (Proc.devRef .tc r)) = val3 V0 (Proc.devRef .tc r) :=
  after_of_writes_sub ops_A4 _ (by repeat' (first | exact writes_sub_of _ rfl (by decide) | refine ⟨?_, ?_⟩)) h

abbrev W_B1 : List (Ref sig .tc) := [main_cst_7, main_v51, main_v52, main_v53, main_v54, main_v55, main_v56, main_v57, main_v58, main_call3_cst, main_call3_v0, main_v59, main_v60, main_v61, main_v62, main_v63]
def val5 : Valuation τ sig (Elt F) := after ops_B1 (val4 V0)
theorem val5_keep (h : r ∉ W_B1) : val5 V0 (no_index (Proc.devRef .tc r)) = val4 V0 (Proc.devRef .tc r) :=
  after_of_writes_sub ops_B1 _ (by repeat' (first | exact writes_sub_of _ rfl (by decide) | refine ⟨?_, ?_⟩)) h

abbrev W_B2 : List (Ref sig .tc) := [main_cst_8, main_v64, main_cst_9, main_v65, main_v66, main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v67, main_v68, main_v69, main_v70, main_cst_11, main_v71, main_v72, main_v73, main_v74, main_v75, main_v76, main_v77, main_v78, main_v79, main_v80, main_v81, main_v82, main_call5_cst, main_call5_v0, main_v83]
def val6 : Valuation τ sig (Elt F) := after ops_B2 (val5 V0)
theorem val6_keep (h : r ∉ W_B2) : val6 V0 (no_index (Proc.devRef .tc r)) = val5 V0 (Proc.devRef .tc r) :=
  after_of_writes_sub ops_B2 _ (by repeat' (first | exact writes_sub_of _ rfl (by decide) | refine ⟨?_, ?_⟩)) h

abbrev W_B3 : List (Ref sig .tc) := [main_c_12, main_v84, main_v85, main_c_13, main_v86, main_v87, main_v88, main_v89, main_v90]
def val7 : Valuation τ sig (Elt F) := after ops_B3 (val6 V0)
theorem val7_keep (h : r ∉ W_B3) : val7 V0 (no_index (Proc.devRef .tc r)) = val6 V0 (Proc.devRef .tc r) :=
  after_of_writes_sub ops_B3 _ (by repeat' (first | exact writes_sub_of _ rfl (by decide) | refine ⟨?_, ?_⟩)) h

abbrev W_B4 : List (Ref sig .tc) := [main_cst_14, main_v91, main_v92, main_v93, main_v94, main_v95, main_v96, main_v97, main_v98, main_call6_cst, main_call6_v0, main_v99, main_v100, main_v101, main_v102]
def val8 : Valuation τ sig (Elt F) := after ops_B4 (val7 V0)
theorem val8_keep (h : r ∉ W_B4) : val8 V0 (no_index (Proc.devRef .tc r)) = val7 V0 (Proc.devRef .tc r) :=
  after_of_writes_sub ops_B4 _ (by repeat' (first | exact writes_sub_of _ rfl (by decide) | refine ⟨?_, ?_⟩)) h

abbrev W_C2 : List (Ref sig .tc) := [main_v103, main_cst_15, main_v104, main_cst_16, main_v105, main_v106, main_c_17, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v107, main_v108, main_v109, main_v110, main_cst_18, main_v111, main_v112, main_v113, main_v114, main_v115, main_v116, main_v117, main_v118, main_v119, main_v120, main_v121, main_v122, main_call8_cst, main_call8_v0, main_v123]
def val9 : Valuation τ sig (Elt F) := after ops_C2 (val8 V0)
theorem val9_keep (h : r ∉ W_C2) : val9 V0 (no_index (Proc.devRef .tc r)) = val8 V0 (Proc.devRef .tc r) :=
  after_of_writes_sub ops_C2 _ (by repeat' (first | exact writes_sub_of _ rfl (by decide) | refine ⟨?_, ?_⟩)) h

abbrev W_C3 : List (Ref sig .tc) := [main_cst_19, main_v124, main_v125, main_v126, main_cst_20, main_v127, main_cst_21, main_v128, main_v129, main_v130, main_cst_22, main_v131, main_v132, main_v133, main_v134, main_v135, main_v136, main_v137, main_v138, main_v139]
def val10 : Valuation τ sig (Elt F) := after ops_C3 (val9 V0)
theorem val10_keep (h : r ∉ W_C3) : val10 V0 (no_index (Proc.devRef .tc r)) = val9 V0 (Proc.devRef .tc r) :=
  after_of_writes_sub ops_C3 _ (by repeat' (first | exact writes_sub_of _ rfl (by decide) | refine ⟨?_, ?_⟩)) h

abbrev W_C4 : List (Ref sig .tc) := [main_call9_v0, main_call9_cst, main_call9_v1, main_call9_v2, main_v140, main_cst_23, main_v141, main_v142, main_v143, main_v144]
def val11 : Valuation τ sig (Elt F) := after ops_C4 (val10 V0)
theorem val11_keep (h : r ∉ W_C4) : val11 V0 (no_index (Proc.devRef .tc r)) = val10 V0 (Proc.devRef .tc r) :=
  after_of_writes_sub ops_C4 _ (by repeat' (first | exact writes_sub_of _ rfl (by decide) | refine ⟨?_, ?_⟩)) h

def h1V : 𝕋[S100000x64, .f32] :=
  layer7 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))

def h2V : 𝕋[S100000x64, .f32] :=
  layer64 (h1V V0) (V0 (Proc.devRef .tc main_arg1)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))

def h3V : 𝕋[S100000x64, .f32] :=
  layer64 (h2V V0) (V0 (Proc.devRef .tc main_arg1)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))

def outV : 𝕋[S1024x64, .f32] :=
  head (h3V V0) (V0 (Proc.devRef .tc main_arg2)) (V0 (Proc.devRef .tc main_arg21)) (V0 (Proc.devRef .tc main_arg22))

theorem val1_v1 : val1 V0 (no_index (Proc.devRef .tc main_v1)) = srcOf (V0 (Proc.devRef .tc main_arg1)) := by
  unfold val1
  simp only [ops_A1]
  after_results_simp
  rfl

theorem val1_v3 : val1 V0 (no_index (Proc.devRef .tc main_v3)) = dstOf (V0 (Proc.devRef .tc main_arg1)) := by
  unfold val1
  simp only [ops_A1]
  after_results_simp
  rfl

theorem val2_v23 : val2 V0 (no_index (Proc.devRef .tc main_v23)) = h2of7 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val2
  simp only [ops_A2]
  after_results_simp
  simp (disch := decide) only [val1_v1, val1_v3, val1_keep]
  rfl

theorem val3_v43 : val3 V0 (no_index (Proc.devRef .tc main_v43)) = h1V V0 := by
  unfold val3
  simp only [ops_A3]
  after_results_simp
  simp (disch := decide) only [val2_v23, val2_keep, val1_keep]
  rfl

theorem val4_v50 : val4 V0 (no_index (Proc.devRef .tc main_v50)) = msgs64 (h1V V0) (V0 (Proc.devRef .tc main_arg1)) := by
  unfold val4
  simp only [ops_A4]
  after_results_simp
  simp (disch := decide) only [val3_v43, val3_keep, val2_keep, val1_v1]
  rfl

theorem val5_v63 : val5 V0 (no_index (Proc.devRef .tc main_v63)) = h2of64 (h1V V0) (V0 (Proc.devRef .tc main_arg1)) (V0 (Proc.devRef .tc main_arg9)) (V0 (Proc.devRef .tc main_arg10)) (V0 (Proc.devRef .tc main_arg11)) (V0 (Proc.devRef .tc main_arg12)) := by
  unfold val5
  simp only [ops_B1]
  after_results_simp
  simp (disch := decide) only [val4_v50, val3_v43, val1_v3, val4_keep, val3_keep, val2_keep, val1_keep]
  rfl

theorem val6_v83 : val6 V0 (no_index (Proc.devRef .tc main_v83)) = h2V V0 := by
  unfold val6
  simp only [ops_B2]
  after_results_simp
  simp (disch := decide) only [val5_v63, val5_keep, val4_keep, val3_keep, val2_keep, val1_keep]
  rfl

theorem val7_v90 : val7 V0 (no_index (Proc.devRef .tc main_v90)) = msgs64 (h2V V0) (V0 (Proc.devRef .tc main_arg1)) := by
  unfold val7
  simp only [ops_B3]
  after_results_simp
  simp (disch := decide) only [val6_v83, val1_v1, val6_keep, val5_keep, val4_keep, val3_keep, val2_keep]
  rfl

theorem val8_v100 : val8 V0 (no_index (Proc.devRef .tc main_v100)) = Host.dotGeneral dot_S100000x64_S64x64_S100000x64_1_0_0_1_n_n none (relu (lin64 (agg64 (V0 (Proc.devRef .tc main_arg1)) (h2V V0)) (V0 (Proc.devRef .tc main_arg15)) (V0 (Proc.devRef .tc main_arg16)))) (V0 (Proc.devRef .tc main_arg17)) := by
  unfold val8
  simp only [ops_B4]
  after_results_simp
  simp (disch := decide) only [val7_v90, val6_v83, val1_v3, val7_keep, val6_keep, val5_keep, val4_keep, val3_keep, val2_keep, val1_keep]
  rfl

theorem val8_v102 : val8 V0 (no_index (Proc.devRef .tc main_v102)) = rowBias (V0 (Proc.devRef .tc main_arg18)) := by
  unfold val8
  simp only [ops_B4]
  after_results_simp
  simp (disch := decide) only [val7_keep, val6_keep, val5_keep, val4_keep, val3_keep, val2_keep, val1_keep]
  rfl

theorem val9_v123 : val9 V0 (no_index (Proc.devRef .tc main_v123)) = h3V V0 := by
  unfold val9
  simp only [ops_C2]
  after_results_simp
  simp (disch := decide) only [val8_v100, val8_v102, val8_keep, val7_keep, val6_keep, val5_keep, val4_keep, val3_keep, val2_keep, val1_keep]
  rfl

theorem val10_v139 : val10 V0 (no_index (Proc.devRef .tc main_v139)) = proj (pooled (h3V V0) (V0 (Proc.devRef .tc main_arg2))) (V0 (Proc.devRef .tc main_arg21)) (V0 (Proc.devRef .tc main_arg22)) := by
  unfold val10
  simp only [ops_C3]
  after_results_simp
  simp (disch := decide) only [val9_v123, val9_keep, val8_keep, val7_keep, val6_keep, val5_keep, val4_keep, val3_keep, val2_keep, val1_keep]
  rfl

theorem val11_v144 : val11 V0 (no_index (Proc.devRef .tc main_v144)) = outV V0 := by
  unfold val11
  simp only [ops_C4]
  after_results_simp
  simp (disch := decide) only [val10_v139]
  rfl

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem val11_arg (h : r ∈ argRefs) : val11 V0 (Proc.devRef .tc r) = V0 (Proc.devRef .tc r) := by
  obtain ⟨h1, h2, h3, h4, h5, h6, h7, h8, h9, h10, h11⟩ :=
    (by decide : ∀ r ∈ argRefs, r ∉ W_A1 ∧ r ∉ W_A2 ∧ r ∉ W_A3 ∧ r ∉ W_A4 ∧ r ∉ W_B1 ∧ r ∉ W_B2 ∧ r ∉ W_B3 ∧ r ∉ W_B4 ∧ r ∉ W_C2 ∧ r ∉ W_C3 ∧ r ∉ W_C4) r h
  exact (val11_keep V0 r h11).trans <| (val10_keep V0 r h10).trans <| (val9_keep V0 r h9).trans <| (val8_keep V0 r h8).trans <| (val7_keep V0 r h7).trans <| (val6_keep V0 r h6).trans <| (val5_keep V0 r h5).trans <| (val4_keep V0 r h4).trans <| (val3_keep V0 r h3).trans <| (val2_keep V0 r h2).trans <| val1_keep V0 r h1

theorem after_ops : after ops V0 = val11 V0 := by
  simp only [ops, ops_part0, ops_part1, ops_part2, after_app]
  rfl

end

def out (m : (ℓ : Loc nD τ sig) → Buf (Elt F) ℓ) (c : Dev nD) : 𝕋[S1024x64, .f32] :=
  head
    (layer64
      (layer64
        (layer7 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
      (m ((c.tc : Thread nD τ).loc main_arg1)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))
    (m ((c.tc : Thread nD τ).loc main_arg2)) (m ((c.tc : Thread nD τ).loc main_arg21)) (m ((c.tc : Thread nD τ).loc main_arg22))

theorem out_eq (m : (ℓ : Loc nD τ sig) → Buf (Elt F) ℓ) (c : Dev nD) : out m c = outV (launchContents m c) := rfl

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v144) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => by
      have A := fun r hr => (h c r).trans ((congrFun (after_ops _) _).trans (val11_arg _ r hr))
      exact ⟨(h c _).trans ((congrFun (after_ops _) _).trans (val11_v144 _)), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide)⟩)
    (run_seq (by decide) (by decide) defs main (fun _ => ops) main_eq (fun _ => ops_sub) m ρ)

end Cert.ReferenceIdeal.RefRun

end
-- ==== Proof.Ref.Read.lean ====
import proofs.«406370_j7258494730854_1_alg».proof.Proof.Ref.Stages
import proofs.«406370_j7258494730854_1_alg».proof.Proof.SpecIdx
import proofs.«406370_j7258494730854_1_alg».proof.Proof.LibPlainDot
import Idealize.ShloMosaic.Lib.IdealHost
import Idealize.ShloMosaic.Lib.ValueLayout
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open Idealize.SL.Sem
open scoped BigOperators

set_option hygiene false in
local macro "𝕋[" s:term "]" : term => `((⟨$s, .f32⟩ : BufTy).Contents (Elt Ideal))

variable (b mean var ga be : 𝕋[S64]) (x : 𝕋[S100000x7]) (u : 𝕋[S7x64]) (h : 𝕋[S100000x64]) (w : 𝕋[S64x64]) (y : 𝕋[S1024x64])
  (batch : (⟨S100000, .i32⟩ : BufTy).Contents (Elt Ideal)) (n : Fin 100000) (d : Fin 64) (g : Fin 1024)

theorem zero_apply (i : S_.Idx) : (zero (F := Ideal)) i = 0 := by
  unfold zero; rw [constant_apply]; exact Ideal.ofBits_zero_f32

theorem rowBias_apply : rowBias b (ix2 n d) = b (ix1 d) :=
  (broadcastInDim_apply _ _ _ (ix2 n d) (ix2 (0 : Fin 1) d) (Fin.forall_fin_two.2 ⟨rfl, rfl⟩)).trans
    (broadcastInDim_apply _ _ _ _ (ix1 d) (Fin.forall_fin_one.2 rfl))

theorem relu_apply (i : S100000x64.Idx) : relu h i = max (h i) 0 := by
  unfold relu
  rw [maximumf_apply, broadcastInDim_scalar_apply, zero_apply]

theorem dot7_eq : dot_S100000x7_S7x64_S100000x64_1_0_0_1_n_n = DotDims.plain 100000 7 64 := rfl
theorem dot64_eq : dot_S100000x64_S64x64_S100000x64_1_0_0_1_n_n = DotDims.plain 100000 64 64 := rfl
theorem dotP_eq : dot_S1024x64_S64x64_S1024x64_1_0_0_1_n_n = DotDims.plain 1024 64 64 := rfl

theorem lin7_apply : lin7 x u b (ix2 n d) = (∑ k : Fin 7, x (ix2 n k) * u (ix2 k d)) + b (ix1 d) := by
  unfold lin7
  rw [addf_apply, rowBias_apply]
  simp only [Host.dotGeneral]
  rw [dot7_eq, Cert.Lib.PlainDot.dotGeneral_apply]

theorem lin64_apply : lin64 h w b (ix2 n d) = (∑ k : Fin 64, h (ix2 n k) * w (ix2 k d)) + b (ix1 d) := by
  unfold lin64
  rw [addf_apply, rowBias_apply]
  simp only [Host.dotGeneral]
  rw [dot64_eq, Cert.Lib.PlainDot.dotGeneral_apply]

theorem mlp_apply {K : ℕ} (a : 𝕋[⟨2, ![100000, K]⟩]) (w1 : 𝕋[⟨2, ![K, 64]⟩]) (b1 : 𝕋[S64]) (w2 : 𝕋[S64x64]) (b2 g be : 𝕋[S64])
    (X : 𝕋[S100000x64]) (hX : ∀ n k, X (ix2 n k) = (∑ i : Fin K, a (ix2 n i) * w1 (ix2 i k)) + b1 (ix1 k)) :
    Cert.Spec.cur (lin64 (relu X) w2 b2) = Cert.Spec.mlp (Cert.Spec.params w1 b1 w2 b2 g be) (Cert.Spec.cur a) := by
  funext n d
  show lin64 (relu X) w2 b2 (ix2 n d) = _
  rw [lin64_apply]
  unfold Cert.Spec.mlp Cert.Spec.params Cert.Spec.cur Cert.Spec.cur1
  refine congrArg (· + b2 (ix1 d)) (Finset.sum_congr rfl fun k _ => ?_)
  rw [relu_apply, hX]

theorem hostRsqrt_apply {s : Shape} {φ : FTy} (x : FVec Ideal s φ) (i : s.Idx) : Host.rsqrt x i = Ideal.rsqrt (x i) := rfl
theorem hostSqrt_apply {s : Shape} {φ : FTy} (x : FVec Ideal s φ) (i : s.Idx) : Host.sqrt x i = Ideal.sqrt (x i) := rfl

theorem reduceRows_apply :
    Host.reduceAdd (F := Ideal) (φ := .f32) h (zero (F := Ideal)) reducesTo_S100000x64_S64_d0 h_S_ (ix1 d) = ∑ n : Fin 100000, h (ix2 n d) := by
  rw [hostReduceAdd_apply, Ideal.hostReduceAdd_single _ (by decide : S100000x64.Reduces [0] S64), zero_apply, zero_add]
  exact Finset.sum_congr rfl fun n _ => congrArg h (funext (Fin.forall_fin_two.2 ⟨rfl, rfl⟩))

theorem meanOf_apply : meanOf h (ix1 d) = Cert.Spec.meanOf (Cert.Spec.cur h) d := by
  unfold meanOf Cert.Spec.meanOf colSum
  rw [hostDivf_apply, reduceRows_apply, broadcastInDim_scalar_apply, constant_apply]
  rfl

theorem centered_apply : centered h (ix2 n d) = h (ix2 n d) - Cert.Spec.meanOf (Cert.Spec.cur h) d := by
  unfold centered colSum
  rw [subf_apply]
  refine congrArg (h (ix2 n d) - ·) ((broadcastInDim_apply _ _ _ (ix2 n d) (ix2 (0 : Fin 1) d) (Fin.forall_fin_two.2 ⟨rfl, rfl⟩)).trans ?_)
  rw [hostDivf_apply, broadcastInDim_scalar_apply, constant_apply,
    broadcastInDim_apply _ _ _ (ix2 (0 : Fin 1) d) (ix1 d) (Fin.forall_fin_one.2 rfl), reduceRows_apply]
  rfl

theorem nMinusDdof_apply (i : S_.Idx) : (nMinusDdof (F := Ideal)) i = Cert.Spec.cN := by
  unfold nMinusDdof
  rw [subf_apply, constant_apply, sitofp_apply, constantI_apply]
  show Cert.Spec.cN - (((0#32 : BitVec 32).toInt : ℝ) : EReal) = _
  simp

theorem cmp_cN_pos : Ideal.cmp .ogt Cert.Spec.cN 0 = 1#1 := by
  have h : (0 : EReal) < Cert.Spec.cN := by rw [Cert.Spec.cN_eq]; exact EReal.coe_pos.2 (by norm_num)
  unfold Ideal.cmp
  simp [h]

theorem varOf_apply : varOf h (ix1 d) = Cert.Spec.varR (Cert.Spec.cur h) d := by
  unfold varOf
  rw [select_apply, broadcastInDim_scalar_apply, cmpf_apply, nMinusDdof_apply, zero_apply, Ideal.cmpf_def, cmp_cN_pos, select_one,
    hostDivf_apply, broadcastInDim_scalar_apply, nMinusDdof_apply, reduceRows_apply]
  unfold Cert.Spec.varR
  refine congrArg (Ideal.div · Cert.Spec.cN) (Finset.sum_congr rfl fun n _ => ?_)
  rw [mulf_apply, centered_apply]
  rfl

theorem bnrelu_apply : bnrelu h mean var ga be (ix2 n d)
      = max ((((h (ix2 n d) - mean (ix1 d)) * Ideal.rsqrt (var (ix1 d) + Cert.Spec.cEps)) * ga (ix1 d)) + be (ix1 d)) 0 := by
  unfold bnrelu
  rw [relu_apply, addf_apply, mulf_apply, mulf_apply, subf_apply, rowBias_apply, rowBias_apply, rowBias_apply, rowBias_apply,
    hostRsqrt_apply, addf_apply, broadcastInDim_scalar_apply, constant_apply]
  rfl

theorem layerOut_read : Cert.Spec.cur (layerOut h ga be)
      = Cert.Spec.bn (Cert.Spec.varR (Cert.Spec.cur h)) (Cert.Spec.cur1 ga) (Cert.Spec.cur1 be) (Cert.Spec.cur h) := by
  funext n d
  show layerOut h ga be (ix2 n d) = _
  unfold layerOut Cert.Spec.bn
  rw [bnrelu_apply, meanOf_apply, varOf_apply]
  rfl

theorem layer7_read (x : 𝕋[S100000x7]) (e : (⟨S2x1600000, .i32⟩ : BufTy).Contents (Elt Ideal)) (w1 : 𝕋[S7x64]) (b1 : 𝕋[S64])
    (w2 : 𝕋[S64x64]) (b2 g be : 𝕋[S64]) :
    Cert.Spec.cur (layer7 (F := Ideal) x e w1 b1 w2 b2 g be)
      = Cert.Spec.layerR (Cert.Spec.liftA (agg7 (F := Ideal) e)) (Cert.Spec.params w1 b1 w2 b2 g be) (Cert.Spec.cur x) := by
  unfold layer7 h2of7 Cert.Spec.layerR
  rw [layerOut_read, Cert.Spec.liftA_cur, mlp_apply (agg7 e x) w1 b1 w2 b2 g be _ fun _ _ => lin7_apply ..]
  rfl

theorem layer64_read (h : 𝕋[S100000x64]) (e : (⟨S2x1600000, .i32⟩ : BufTy).Contents (Elt Ideal)) (w1 : 𝕋[S64x64]) (b1 : 𝕋[S64])
    (w2 : 𝕋[S64x64]) (b2 g be : 𝕋[S64]) :
    Cert.Spec.cur (layer64 (F := Ideal) h e w1 b1 w2 b2 g be)
      = Cert.Spec.layerR (Cert.Spec.liftA (agg64 (F := Ideal) e)) (Cert.Spec.params w1 b1 w2 b2 g be) (Cert.Spec.cur h) := by
  unfold layer64 h2of64 Cert.Spec.layerR
  rw [layerOut_read, Cert.Spec.liftA_cur, mlp_apply (agg64 e h) w1 b1 w2 b2 g be _ fun _ _ => lin64_apply ..]
  rfl

local notation "scP" => scatter_S1024x64_S100000x1_S100000x64_1_0_0_1

theorem pool_start0 (j : S100000x64.Idx) (idx : IVec S100000x1 32) : (scP).start j idx 0 = (idx (ix2 (j 0) (0 : Fin 1))).toInt := by
  unfold ScatterDims.start
  rw [dif_pos (show (0 : Fin S1024x64.rank) ∈ (scP).scatterDimsToOperandDims from List.mem_singleton.2 rfl)]
  refine congrArg (fun k => (idx k).toInt) (funext fun b => Fin.ext ?_)
  match b with
  | ⟨0, _⟩ => rfl
  | ⟨1, _⟩ => rfl

theorem pool_start1 (j : S100000x64.Idx) (idx : IVec S100000x1 32) : (scP).start j idx 1 = 0 := by
  unfold ScatterDims.start
  rw [dif_neg (show ¬(1 : Fin S1024x64.rank) ∈ (scP).scatterDimsToOperandDims by decide)]

theorem pool_window0 (j : S100000x64.Idx) : (scP).window j 0 = 0 := by
  unfold ScatterDims.window
  rw [dif_neg (show ¬(0 : Fin S1024x64.rank) ∈ (scP).sKept by decide)]

theorem pool_window1 (j : S100000x64.Idx) : (scP).window j 1 = (j 1).val := by
  unfold ScatterDims.window
  rw [dif_pos (show (1 : Fin S1024x64.rank) ∈ (scP).sKept by decide)]
  rfl

theorem pool_resultIdx (j : S100000x64.Idx) (idx : IVec S100000x1 32) (g : Fin 1024) (d : Fin 64) :
    (scP).resultIdx? j idx = some (ix2 g d) ↔ (idx (ix2 (j 0) (0 : Fin 1))).toInt = (g.val : ℤ) ∧ j 1 = d := by
  have hg := g.isLt
  have hd := d.isLt
  have hj : (j 1).val < 64 := (j 1).isLt
  have z0 : (![1024, 64] : Fin 2 → ℕ) 0 = 1024 := rfl
  have z1 : (![1024, 64] : Fin 2 → ℕ) 1 = 64 := rfl
  have y1 : S100000x64.size 1 = 64 := rfl
  have key : ∀ f : S1024x64.Idx, f = ix2 g d ↔ (f 0).val = g.val ∧ (f 1).val = d.val := fun f =>
    ⟨fun e => e ▸ ⟨rfl, rfl⟩, fun e => funext (Fin.forall_fin_two.2 ⟨Fin.ext e.1, Fin.ext e.2⟩)⟩
  unfold ScatterDims.resultIdx?
  rw [Option.dite_none_right_eq_some]
  simp only [Option.some.injEq, key, Fin.forall_fin_two, pool_start0, pool_start1, pool_window0, pool_window1, exists_prop,
    Fin.val_mk]
  constructor
  · rintro ⟨⟨⟨h0, -⟩, -⟩, e0, e1⟩
    exact ⟨by omega, Fin.ext (by omega)⟩
  · rintro ⟨e0, e1⟩
    have e := Fin.ext_iff.1 e1
    refine ⟨⟨⟨?_, ?_⟩, ?_, ?_⟩, ?_, ?_⟩ <;> omega

theorem batchCol_apply (batch : (⟨S100000, .i32⟩ : BufTy).Contents (Elt Ideal)) (n : Fin 100000) (c : Fin 1) :
    batchCol batch (ix2 n c) = batch (ix1 n) :=
  broadcastInDim_apply _ _ _ _ (ix1 n) (Fin.forall_fin_one.2 rfl)

theorem poolSum_apply : poolSum h batch (ix2 g d) = Cert.Spec.pool (Cert.Spec.cur h) (fun n => batch (ix1 n)) g d := by
  classical
  unfold poolSum Host.scatterAdd
  rw [Ideal.hostScatterAdd_def]
  unfold Ideal.hostScatterAdd
  have hf : ∀ j : S100000x64.Idx, (scP).resultIdx? j (batchCol batch) = some (ix2 g d)
      ↔ ((batch (ix1 (j 0))).toInt = (g.val : ℤ) ∧ j 1 = d) := fun j =>
    (pool_resultIdx j (batchCol batch) g d).trans
      (Iff.of_eq (congrArg (fun w : BitVec 32 => w.toInt = (g.val : ℤ) ∧ j 1 = d) (batchCol_apply batch (j 0) 0)))
  rw [broadcastInDim_scalar_apply, zero_apply, zero_add,
    Finset.filter_congr (q := fun j : S100000x64.Idx => (batch (ix1 (j 0))).toInt = (g.val : ℤ) ∧ j 1 = d) (fun j _ => hf j),
    Finset.sum_filter, sum_idx2]
  unfold Cert.Spec.pool Cert.Spec.cur
  refine Finset.sum_congr rfl fun n _ => ?_
  by_cases hn : (batch (ix1 n)).toInt = (g.val : ℤ)
  · rw [if_pos hn]
    rw [Finset.sum_eq_single d (fun b _ hb => if_neg (fun hc => hb hc.2)) (fun hd => absurd (Finset.mem_univ d) hd)]
    exact if_pos ⟨hn, rfl⟩
  · rw [if_neg hn]
    exact Finset.sum_eq_zero fun b _ => if_neg (fun hc => hn hc.1)

theorem pooled_apply :
    pooled h batch (ix2 g d) = Ideal.div (poolSum h batch (ix2 g d)) (max (counts (F := Ideal) batch (ix1 g)) Cert.Spec.cOne) := by
  unfold pooled
  rw [hostDivf_apply]
  refine congrArg (Ideal.div (poolSum h batch (ix2 g d)) ·) ((broadcastInDim_apply _ _ _ (ix2 g d) (ix2 g (0 : Fin 1)) (Fin.forall_fin_two.2 ⟨rfl, rfl⟩)).trans ?_)
  rw [broadcastInDim_apply _ _ _ (ix2 g (0 : Fin 1)) (ix1 g) (Fin.forall_fin_one.2 rfl), maximumf_apply, broadcastInDim_scalar_apply, constant_apply]
  rfl

theorem proj_apply : proj y w b (ix2 g d) = (∑ k : Fin 64, y (ix2 g k) * w (ix2 k d)) + b (ix1 d) := by
  unfold proj
  rw [addf_apply]
  simp only [Host.dotGeneral]
  rw [dotP_eq, Cert.Lib.PlainDot.dotGeneral_apply]
  exact congrArg ((∑ k : Fin 64, y (ix2 g k) * w (ix2 k d)) + ·)
    ((broadcastInDim_apply _ _ _ (ix2 g d) (ix2 (0 : Fin 1) d) (Fin.forall_fin_two.2 ⟨rfl, rfl⟩)).trans (broadcastInDim_apply _ _ _ _ (ix1 d) (Fin.forall_fin_one.2 rfl)))

theorem normOf_apply (c : Fin 1) : normOf y (ix2 g c) = Ideal.sqrt (∑ e : Fin 64, y (ix2 g e) * y (ix2 g e)) := by
  unfold normOf
  rw [hostSqrt_apply, broadcastInDim_apply _ _ _ (ix2 g c) (ix1 g) (Fin.forall_fin_one.2 rfl),
    hostReduceAdd_apply, Ideal.hostReduceAdd_single _ (by decide : S1024x64.Reduces [1] S1024), zero_apply, zero_add]
  refine congrArg Ideal.sqrt (Finset.sum_congr rfl fun e _ => ?_)
  rw [mulf_apply]
  exact congrArg (fun z => y z * y z) (funext (Fin.forall_fin_two.2 ⟨rfl, rfl⟩))

theorem normalize_apply : RefRun.normalize y (ix2 g d)
      = Ideal.div (y (ix2 g d)) (max (Ideal.sqrt (∑ e : Fin 64, y (ix2 g e) * y (ix2 g e))) Cert.Spec.cTiny) := by
  unfold RefRun.normalize
  rw [hostDivf_apply]
  refine congrArg (Ideal.div (y (ix2 g d)) ·) ((broadcastInDim_apply _ _ _ (ix2 g d) (ix2 g (0 : Fin 1)) (Fin.forall_fin_two.2 ⟨rfl, rfl⟩)).trans ?_)
  rw [maximumf_apply, normOf_apply, broadcastInDim_scalar_apply, constant_apply]
  rfl

theorem projPooled_apply : proj (pooled h batch) w b (ix2 g d)
      = Cert.Spec.proj (Cert.Spec.pool (Cert.Spec.cur h) (fun n => batch (ix1 n))) (Cert.Spec.cur1 (counts (F := Ideal) batch))
          (Cert.Spec.cur w) (Cert.Spec.cur1 b) g d := by
  rw [proj_apply]
  unfold Cert.Spec.proj
  refine congrArg (· + b (ix1 d)) (Finset.sum_congr rfl fun k _ => ?_)
  rw [pooled_apply, poolSum_apply]
  rfl

theorem head_read (h : 𝕋[S100000x64]) (batch : (⟨S100000, .i32⟩ : BufTy).Contents (Elt Ideal)) (pw : 𝕋[S64x64]) (pb : 𝕋[S64]) :
    Cert.Spec.cur (head (F := Ideal) h batch pw pb)
      = Cert.Spec.head (Cert.Spec.pool (Cert.Spec.cur h) (fun n => batch (ix1 n))) (Cert.Spec.cur1 (counts (F := Ideal) batch))
          (Cert.Spec.cur pw) (Cert.Spec.cur1 pb) := by
  funext g d
  show head h batch pw pb (ix2 g d) = _
  unfold head Cert.Spec.head
  rw [normalize_apply, projPooled_apply]
  simp only [projPooled_apply]

end Cert.ReferenceIdeal.RefRead

end
-- ==== Proof.BridgeRef.lean ====
import proofs.«406370_j7258494730854_1_alg».proof.Proof.Ref.Run
import proofs.«406370_j7258494730854_1_alg».proof.Proof.Ref.Read

noncomputable section

namespace Cert.Bridge

open Idealize.ShloMosaic Idealize.ShloMosaic.ValueIdx Idealize.SL.Sem
open Cert.ReferenceIdeal Cert.ReferenceIdeal.RefRun Cert.ReferenceIdeal.RefRead

variable [Cert.ReferenceIdeal.Facts]

theorem ref_out (m : (ℓ : Loc nD τ sig) → Buf (Elt Ideal) ℓ) (c : Dev nD) :
    Cert.Spec.cur (RefRun.out (F := Ideal) m c)
      = Cert.Spec.outR (Cert.Spec.liftA (agg7 (F := Ideal) (m ((c.tc : Thread nD τ).loc main_arg1))))
          (Cert.Spec.liftA (agg64 (F := Ideal) (m ((c.tc : Thread nD τ).loc main_arg1))))
          (Cert.Spec.params (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (Cert.Spec.params (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
          (Cert.Spec.params (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))
          (Cert.Spec.cur (m ((c.tc : Thread nD τ).loc main_arg0)))
          (fun n => (m ((c.tc : Thread nD τ).loc main_arg2)) (ix1 n))
          (Cert.Spec.cur1 (counts (F := Ideal) (m ((c.tc : Thread nD τ).loc main_arg2))))
          (Cert.Spec.cur (m ((c.tc : Thread nD τ).loc main_arg21)))
          (Cert.Spec.cur1 (m ((c.tc : Thread nD τ).loc main_arg22))) := by
  unfold RefRun.out
  rw [head_read, layer64_read, layer64_read, layer7_read]
  rfl

end Cert.Bridge

end
-- ==== Proof.AggEq.lean ====
import proofs.«406370_j7258494730854_1_alg».proof.Proof.KI.HostVal
import proofs.«406370_j7258494730854_1_alg».proof.Proof.Ref.Stages

noncomputable section

namespace Cert.Bridge

open Idealize.ShloMosaic

variable [Cert.KernelIdeal.Facts] [Cert.ReferenceIdeal.Facts]

theorem agg7_eq (e : IVec Cert.KernelIdeal.S2x1600000 32) (x : FVec Ideal Cert.KernelIdeal.S100000x7 .f32) :
    Cert.KernelIdeal.Val.aggK7 e x = Cert.ReferenceIdeal.RefRun.agg7 (F := Ideal) e x := by
  unfold Cert.KernelIdeal.Val.aggK7 Cert.KernelIdeal.Val.aggOf7 Cert.KernelIdeal.Val.wrapIds Cert.KernelIdeal.Val.srcIds
    Cert.KernelIdeal.Val.dstIds Cert.ReferenceIdeal.RefRun.agg7 Cert.ReferenceIdeal.RefRun.msgs7 Cert.ReferenceIdeal.RefRun.idxCol
    Cert.ReferenceIdeal.RefRun.wrapIdx Cert.ReferenceIdeal.RefRun.srcOf Cert.ReferenceIdeal.RefRun.dstOf Cert.ReferenceIdeal.RefRun.zero
  rfl

theorem agg64_eq (e : IVec Cert.KernelIdeal.S2x1600000 32) (h : FVec Ideal Cert.KernelIdeal.S100000x64 .f32) :
    Cert.KernelIdeal.Val.aggK64 e h = Cert.ReferenceIdeal.RefRun.agg64 (F := Ideal) e h := by
  unfold Cert.KernelIdeal.Val.aggK64 Cert.KernelIdeal.Val.aggOf64 Cert.KernelIdeal.Val.wrapIds Cert.KernelIdeal.Val.srcIds
    Cert.KernelIdeal.Val.dstIds Cert.ReferenceIdeal.RefRun.agg64 Cert.ReferenceIdeal.RefRun.msgs64 Cert.ReferenceIdeal.RefRun.idxCol
    Cert.ReferenceIdeal.RefRun.wrapIdx Cert.ReferenceIdeal.RefRun.srcOf Cert.ReferenceIdeal.RefRun.dstOf Cert.ReferenceIdeal.RefRun.zero
  rfl

theorem counts_eq (batch : IVec Cert.KernelIdeal.S100000 32) :
    Cert.KernelIdeal.Val.countsK batch = Cert.ReferenceIdeal.RefRun.counts (F := Ideal) batch := by
  unfold Cert.KernelIdeal.Val.countsK Cert.ReferenceIdeal.RefRun.counts Cert.ReferenceIdeal.RefRun.batchCol Cert.ReferenceIdeal.RefRun.zero
  rfl

end Cert.Bridge

end
-- ==== Proof.AggFin.lean ====
import proofs.«406370_j7258494730854_1_alg».proof.Proof.Ref.Stages
import proofs.«406370_j7258494730854_1_alg».proof.Proof.SpecIdx
import Idealize.ShloMosaic.PureOps.Ideal.Laws

noncomputable section

namespace Cert.Bridge

open Idealize.ShloMosaic
open Cert.ReferenceIdeal Cert.ReferenceIdeal.Gen Cert.ReferenceIdeal.RefRun

theorem isR_addf {s : Shape} (X Y : FVec Ideal s .f32) (i : s.Idx) (hx : ∃ r : ℝ, X i = (r : EReal)) (hy : ∃ r : ℝ, Y i = (r : EReal)) :
    ∃ r : ℝ, addf X Y i = (r : EReal) := by
  obtain ⟨a, ha⟩ := hx
  obtain ⟨b, hb⟩ := hy
  refine ⟨a + b, ?_⟩
  show FloatOps.addf (X i) (Y i) = _
  rw [ha, hb, Ideal.addf_def]
  exact (EReal.coe_add a b).symm

theorem isR_zeros {t : Shape} (h : S_.BroadcastsInDim t ![]) (j : t.Idx) :
    ∃ r : ℝ, (broadcastInDim t ![] h (zero (F := Ideal))) j = (r : EReal) := by
  refine ⟨0, ?_⟩
  unfold broadcastInDim zero constant
  rw [Ideal.ofBits_def, Ideal.ofBits_zero_f32]; exact EReal.coe_zero.symm

theorem isFin_agg7 (e : (⟨S2x1600000, .i32⟩ : BufTy).Contents (Elt Ideal)) (v : (⟨S100000x7, .f32⟩ : BufTy).Contents (Elt Ideal))
    (hv : ∀ i, ∃ r : ℝ, v i = (r : EReal)) : ∀ i, ∃ r : ℝ, agg7 (F := Ideal) e v i = (r : EReal) := by
  intro i
  have hs := Cert.Spec.isFin_scatterAdd (φ := .f32) scatter_S100000x7_S1600000x1_S1600000x7_1_0_0_1
    (broadcastInDim S100000x7 ![] bcast_S_S100000x7 (zero (F := Ideal))) (idxCol (dstOf e)) (msgs7 v e)
    (isR_zeros bcast_S_S100000x7) (fun j => by unfold msgs7; exact Cert.Spec.isFin_gather _ _ _ hv j)
  unfold agg7
  exact isR_addf _ v i (hs i) (hv i)

theorem isFin_agg64 (e : (⟨S2x1600000, .i32⟩ : BufTy).Contents (Elt Ideal)) (v : (⟨S100000x64, .f32⟩ : BufTy).Contents (Elt Ideal))
    (hv : ∀ i, ∃ r : ℝ, v i = (r : EReal)) : ∀ i, ∃ r : ℝ, agg64 (F := Ideal) e v i = (r : EReal) := by
  intro i
  have hs := Cert.Spec.isFin_scatterAdd (φ := .f32) scatter_S100000x64_S1600000x1_S1600000x64_1_0_0_1
    (broadcastInDim S100000x64 ![] bcast_S_S100000x64 (zero (F := Ideal))) (idxCol (dstOf e)) (msgs64 v e)
    (isR_zeros bcast_S_S100000x64) (fun j => by unfold msgs64; exact Cert.Spec.isFin_gather _ _ _ hv j)
  unfold agg64
  exact isR_addf _ v i (hs i) (hv i)

end Cert.Bridge

end
-- ==== Proof.PreFin.lean ====
import proofs.«406370_j7258494730854_1_alg».proof.Pre_finite_inputs
import proofs.«406370_j7258494730854_1_alg».proof.Proof.Gen.Pre_finite_inputs
import Idealize.ShloMosaic.Lib.ReduceAll
import Idealize.ShloMosaic.PureOps.Ideal

namespace Cert.PreFin

open Idealize.ShloMosaic Cert.Pre_finite_inputs

instance : Subsingleton S_.Idx := ⟨fun a b => funext fun d => d.elim0⟩

abbrev j0 : S_.Idx := fun d => d.elim0

theorem inf_word : Ideal.ofBits .f32 0x7F800000#32 = (⊤ : EReal) := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

variable [Cert.Pre_finite_inputs.Facts]

theorem fin_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu j0 = 1#1) (i : s.Idx) : ∃ r : ℝ, a i = (r : EReal) :=
  real_of_abs_lt_inf (a i) (Host.reduce_andi_all _ _ hr hu j0 e i)

theorem and_split {x y : IVec S_ 1} (h : andi x y j0 = 1#1) : x j0 = 1#1 ∧ y j0 = 1#1 := IntOp.andi_eq_one.1 h

/-- The precondition makes every float argument entrywise real. -/
theorem fin_all (a0 : FVec Ideal S100000x7 .f32) (a1 : IVec S2x1600000 32) (a2 : IVec S100000 32) (a3 : FVec Ideal S7x64 .f32) (a4 : FVec Ideal S64 .f32) (a5 : FVec Ideal S64x64 .f32) (a6 : FVec Ideal S64 .f32) (a7 : FVec Ideal S64 .f32) (a8 : FVec Ideal S64 .f32) (a9 : FVec Ideal S64x64 .f32) (a10 : FVec Ideal S64 .f32) (a11 : FVec Ideal S64x64 .f32) (a12 : FVec Ideal S64 .f32) (a13 : FVec Ideal S64 .f32) (a14 : FVec Ideal S64 .f32) (a15 : FVec Ideal S64x64 .f32) (a16 : FVec Ideal S64 .f32) (a17 : FVec Ideal S64x64 .f32) (a18 : FVec Ideal S64 .f32) (a19 : FVec Ideal S64 .f32) (a20 : FVec Ideal S64 .f32) (a21 : FVec Ideal S64x64 .f32) (a22 : FVec Ideal S64 .f32)
    (h : Cert.Pre_finite_inputs.fn (F := Ideal) a0 a1 a2 a3 a4 a5 a6 a7 a8 a9 a10 a11 a12 a13 a14 a15 a16 a17 a18 a19 a20 a21 a22 = (fun _ => 1#1)) :
    (∀ i, ∃ r : ℝ, a0 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, ∃ r : ℝ, a15 i = (r : EReal))
    ∧ (∀ i, ∃ r : ℝ, a16 i = (r : EReal))
    ∧ (∀ i, ∃ r : ℝ, a17 i = (r : EReal))
    ∧ (∀ i, ∃ r : ℝ, a18 i = (r : EReal))
    ∧ (∀ i, ∃ r : ℝ, a19 i = (r : EReal))
    ∧ (∀ i, ∃ r : ℝ, a20 i = (r : EReal))
    ∧ (∀ i, ∃ r : ℝ, a21 i = (r : EReal))
    ∧ (∀ i, ∃ r : ℝ, a22 i = (r : EReal)) := by
  have h0 := congrFun h j0
  unfold Cert.Pre_finite_inputs.fn at h0
  unfold Cert.Pre_finite_inputs.fn_part1 at h0
  unfold Cert.Pre_finite_inputs.fn_part2 at h0
  unfold Cert.Pre_finite_inputs.fn_part3 at h0
  unfold Cert.Pre_finite_inputs.fn_part4 at h0
  unfold Cert.Pre_finite_inputs.fn_part5 at h0
  unfold Cert.Pre_finite_inputs.fn_part6 at h0
  dsimp only at h0
  obtain ⟨h0, e22⟩ := and_split h0
  obtain ⟨h0, e21⟩ := and_split h0
  obtain ⟨h0, e20⟩ := and_split h0
  obtain ⟨h0, e19⟩ := and_split h0
  obtain ⟨h0, e18⟩ := and_split h0
  obtain ⟨h0, e17⟩ := and_split h0
  obtain ⟨h0, e16⟩ := and_split h0
  obtain ⟨h0, e15⟩ := and_split h0
  obtain ⟨h0, e14⟩ := and_split h0
  obtain ⟨h0, e13⟩ := and_split h0
  obtain ⟨h0, e12⟩ := and_split h0
  obtain ⟨h0, e11⟩ := and_split h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  exact ⟨fin_of_all a0 _ _ _ h0,
    fin_of_all a3 _ _ _ e3,
    fin_of_all a4 _ _ _ e4,
    fin_of_all a5 _ _ _ e5,
    fin_of_all a6 _ _ _ e6,
    fin_of_all a7 _ _ _ e7,
    fin_of_all a8 _ _ _ e8,
    fin_of_all a9 _ _ _ e9,
    fin_of_all a10 _ _ _ e10,
    fin_of_all a11 _ _ _ e11,
    fin_of_all a12 _ _ _ e12,
    fin_of_all a13 _ _ _ e13,
    fin_of_all a14 _ _ _ e14,
    fin_of_all a15 _ _ _ e15,
    fin_of_all a16 _ _ _ e16,
    fin_of_all a17 _ _ _ e17,
    fin_of_all a18 _ _ _ e18,
    fin_of_all a19 _ _ _ e19,
    fin_of_all a20 _ _ _ e20,
    fin_of_all a21 _ _ _ e21,
    fin_of_all a22 _ _ _ e22⟩

end Cert.PreFin
-- ==== Proof.Bridge.lean ====
import proofs.«406370_j7258494730854_1_alg».proof.Defs
import proofs.«406370_j7258494730854_1_alg».proof.Proof.BridgeRef
import proofs.«406370_j7258494730854_1_alg».proof.Proof.AggEq
import proofs.«406370_j7258494730854_1_alg».proof.Proof.AggFin
import proofs.«406370_j7258494730854_1_alg».proof.Proof.PreFin
import proofs.«406370_j7258494730854_1_alg».proof.Proof.KI.Fold

noncomputable section

namespace Cert.Bridge

open Idealize.ShloMosaic Idealize.ShloMosaic.ValueIdx Idealize.SL.Sem
open Cert.Spec Cert.KernelIdeal.Val Cert.ReferenceIdeal.RefRun

variable [Cert.KernelIdeal.Facts] [Cert.ReferenceIdeal.Facts] [Cert.Pre_finite_inputs.Facts]

variable (x : FVec Ideal Cert.KernelIdeal.S100000x7 .f32) (e : IVec Cert.KernelIdeal.S2x1600000 32) (bt : IVec Cert.KernelIdeal.S100000 32)
  (w10 : FVec Ideal Cert.KernelIdeal.S7x64 .f32) (w20 w11 w21 w12 w22 pw : FVec Ideal Cert.KernelIdeal.S64x64 .f32)
  (b10 b20 g0 be0 b11 b21 g1 be1 b12 b22 g2 be2 pb : FVec Ideal Cert.KernelIdeal.S64 .f32)

/-- On entrywise real arguments the encoder with the variance as the mean of squares minus the squared mean is the
    encoder with the variance as the mean of squared deviations; the aggregations and counts of the two programs agree. -/
theorem outK_eq_outR (f0 : ∀ i, ∃ r : ℝ, x i = (r : EReal))
    (f3 : ∀ i, ∃ r : ℝ, w10 i = (r : EReal)) (f4 : ∀ i, ∃ r : ℝ, b10 i = (r : EReal)) (f5 : ∀ i, ∃ r : ℝ, w20 i = (r : EReal))
    (f6 : ∀ i, ∃ r : ℝ, b20 i = (r : EReal)) (f7 : ∀ i, ∃ r : ℝ, g0 i = (r : EReal)) (f8 : ∀ i, ∃ r : ℝ, be0 i = (r : EReal))
    (f9 : ∀ i, ∃ r : ℝ, w11 i = (r : EReal)) (f10 : ∀ i, ∃ r : ℝ, b11 i = (r : EReal)) (f11 : ∀ i, ∃ r : ℝ, w21 i = (r : EReal))
    (f12 : ∀ i, ∃ r : ℝ, b21 i = (r : EReal)) (f13 : ∀ i, ∃ r : ℝ, g1 i = (r : EReal)) (f14 : ∀ i, ∃ r : ℝ, be1 i = (r : EReal))
    (f15 : ∀ i, ∃ r : ℝ, w12 i = (r : EReal)) (f16 : ∀ i, ∃ r : ℝ, b12 i = (r : EReal)) (f17 : ∀ i, ∃ r : ℝ, w22 i = (r : EReal))
    (f18 : ∀ i, ∃ r : ℝ, b22 i = (r : EReal)) (f19 : ∀ i, ∃ r : ℝ, g2 i = (r : EReal)) (f20 : ∀ i, ∃ r : ℝ, be2 i = (r : EReal)) :
    outK (liftA (aggK7 e)) (liftA (aggK64 e)) (params w10 b10 w20 b20 g0 be0) (params w11 b11 w21 b21 g1 be1)
        (params w12 b12 w22 b22 g2 be2) (cur x) (fun n => bt (ix1 n)) (cur1 (countsK bt)) (cur pw) (cur1 pb)
      = outR (liftA (agg7 (F := Ideal) e)) (liftA (agg64 (F := Ideal) e)) (params w10 b10 w20 b20 g0 be0)
          (params w11 b11 w21 b21 g1 be1) (params w12 b12 w22 b22 g2 be2) (cur x) (fun n => bt (ix1 n))
          (cur1 (counts (F := Ideal) bt)) (cur pw) (cur1 pb) := by
  rw [show aggK7 e = agg7 (F := Ideal) e from funext (agg7_eq e),
    show aggK64 e = agg64 (F := Ideal) e from funext (agg64_eq e), counts_eq bt]
  exact out_eq _ _
    (fun y hy => isFin_liftA _ (isFin_agg7 e) y hy) (fun y hy => isFin_liftA _ (isFin_agg64 e) y hy)
    _ _ _ (params_isFin _ _ _ _ _ _ f3 f4 f5 f6 f7 f8) (params_isFin _ _ _ _ _ _ f9 f10 f11 f12 f13 f14)
    (params_isFin _ _ _ _ _ _ f15 f16 f17 f18 f19 f20) _ (isFin_cur _ f0) _ _ _ _

theorem eq_of_cur_eq {a b : ℕ} (u v : (⟨2, ![a, b]⟩ : Shape).Idx → EReal) (h : cur u = cur v) : u = v := by
  rw [← unc_cur u, h, unc_cur]

end Cert.Bridge

end
-- ==== Proof.lean ====
/-
  A three-layer graph encoder (neighbour sums, a two-layer perceptron, column normalisation; then per-graph means, a
  projection and scaling to unit length). The two programs differ in how a column's variance is formed; the two
  forms agree on real columns, and the precondition makes every float argument entrywise real.
-/
import proofs.«406370_j7258494730854_1_alg».proof.Defs
import proofs.«406370_j7258494730854_1_alg».proof.Proof.Gen.Kernel
import proofs.«406370_j7258494730854_1_alg».proof.Proof.Gen.KernelIdeal
import proofs.«406370_j7258494730854_1_alg».proof.Proof.Gen.ReferenceIdeal
import proofs.«406370_j7258494730854_1_alg».proof.Proof.Gen.Pre_finite_inputs
import proofs.«406370_j7258494730854_1_alg».proof.Proof.K.Run
import proofs.«406370_j7258494730854_1_alg».proof.Proof.KI.Run
import proofs.«406370_j7258494730854_1_alg».proof.Proof.KI.Value
import proofs.«406370_j7258494730854_1_alg».proof.Proof.Ref.Run
import proofs.«406370_j7258494730854_1_alg».proof.Proof.Bridge
import Idealize.ShloMosaic.Adequacy
import Idealize.ShloMosaic.Init

noncomputable section

namespace Cert.Proof

open Idealize.ShloMosaic Idealize.SL.Sem

set_option maxHeartbeats 4000000

theorem frame_K [Cert.Kernel.Facts] [Cert.Pre_finite_inputs.Facts] : Cert.frame_Kernel :=
  fun m ρ _ => Cert.Kernel.Rg.frame (F := Bits) m ρ

theorem frame_KI [Cert.KernelIdeal.Facts] [Cert.Pre_finite_inputs.Facts] : Cert.frame_KernelIdeal :=
  fun m ρ _ => Cert.KernelIdeal.Rg.frame (F := Ideal) m ρ

theorem frame_R [Cert.ReferenceIdeal.Facts] [Cert.Pre_finite_inputs.Facts] : Cert.frame_ReferenceIdeal :=
  fun m ρ _ => (θ_run (Cert.ReferenceIdeal.defs (F := Ideal)) _ _).mono (fun _ h c => (h c).2)
    (Cert.ReferenceIdeal.RefRun.run (F := Ideal) m ρ)

/-- Both result arrays read, at every graph and feature, as the encoder of the shared arguments, and the two
    encoders agree on entrywise real arguments. -/
theorem algebraic [Cert.KernelIdeal.Facts] [Cert.ReferenceIdeal.Facts] [Cert.Pre_finite_inputs.Facts] :
    Cert.algebraic_KernelIdeal_ReferenceIdeal := by
  intro m ρ m' ρ' hpre hag
  refine ⟨fun c => Cert.KernelIdeal.Rg.W14 (F := Ideal) m ρ c (Proc.devRef .tc Cert.KernelIdeal.main_v80),
    Cert.KernelIdeal.Rg.run_val (F := Ideal) m ρ, ?_⟩
  refine (θ_run (Cert.ReferenceIdeal.defs (F := Ideal)) _ _).mono (fun _ h c => ⟨(h c).1.trans ?_, (h c).2⟩)
    (Cert.ReferenceIdeal.RefRun.run (F := Ideal) m' ρ')
  apply Cert.Bridge.eq_of_cur_eq
  obtain ⟨e0, e1, e2, e3, e4, e5, e6, e7, e8, e9, e10, e11, e12, e13, e14, e15, e16, e17, e18, e19, e20, e21, e22⟩ := hag c
  obtain ⟨f0, f3, f4, f5, f6, f7, f8, f9, f10, f11, f12, f13, f14, f15, f16, f17, f18, f19, f20, -, -⟩ := Cert.PreFin.fin_all _ _ _ _ _ _ _ _ _ _ _ _ _ _ _ _ _ _ _ _ _ _ _ (hpre c)
  rw [Cert.Bridge.ref_out m' c, Cert.KernelIdeal.Val.val80 m ρ c, e0, e1, e2, e3, e4, e5, e6, e7, e8, e9, e10, e11, e12, e13, e14, e15, e16, e17, e18, e19, e20, e21, e22]
  exact (Cert.Bridge.outK_eq_outR _ _ _ _ _ _ _ _ _ _ _ _ _ _ _ _ _ _ _ _ _ _ _ f0 f3 f4 f5 f6 f7 f8 f9 f10 f11 f12 f13 f14 f15 f16 f17 f18 f19 f20).symm

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
